-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_
  bcast_S_S2x800000 : S_.BroadcastsInDim S2x800000 (![] : Fin 0 → Fin S2x800000.rank)
  reducesTo_S2x800000_S_d0_1 : S2x800000.ReducesTo [0, 1] S_

variable [Facts]

def fn_part1 {F : FTy → Type} [FloatOps F] (main_arg1 : IVec S2x800000 32) (main_arg5 : FVec F S40 .f32) (main_v13 : IVec S_ 1) (main_v16 : IVec S128x40 1) : IVec S_ 1 :=
  let main_c_5 : IVec S_ 1 := constantI S_ 1 1#1
  let main_v17 : IVec S_ 1 := (fun x v => Host.reduce IntOp.andi x v reducesTo_S128x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  let main_c_8 : IVec S_ 32 := constantI S_ 32 0#32
  let main_v24 : IVec S2x800000 32 := broadcastInDim S2x800000 ![] bcast_S_S2x800000 main_c_8
  let main_v25 : IVec S2x800000 1 := cmpi .sge main_arg1 main_v24
  let main_c_9 : IVec S_ 1 := constantI S_ 1 1#1
  let main_v26 : IVec S_ 1 := (fun x v => Host.reduce IntOp.andi x v reducesTo_S2x800000_S_d0_1 h_S_) main_v25 main_c_9
  let main_v27 : IVec S_ 1 := andi main_v23 main_v26
  let main_c_10 : IVec S_ 32 := constantI S_ 32 50000#32
  let main_v28 : IVec S2x800000 32 := broadcastInDim S2x800000 ![] bcast_S_S2x800000 main_c_10
  let main_v29 : IVec S2x800000 1 := cmpi .slt main_arg1 main_v28
  let main_c_11 : IVec S_ 1 := constantI S_ 1 1#1
  let main_v30 : IVec S_ 1 := (fun x v => Host.reduce IntOp.andi x v reducesTo_S2x800000_S_d0_1 h_S_) main_v29 main_c_11
  let main_v31 : IVec S_ 1 := andi main_v27 main_v30
  main_v31

def fn {F : FTy → Type} [FloatOps F] (main_arg0 : FVec F S50000x128 .f32) (main_arg1 : IVec S2x800000 32) (main_arg2 : FVec F S128x128 .f32) (main_arg3 : FVec F S128 .f32) (main_arg4 : FVec F S128x40 .f32) (main_arg5 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x40 .f32 := Host.absf main_arg4
  let main_cst_4 : FVec F S_ .f32 := constant S_ .f32 0x7F800000#32
  let main_v15 : FVec F S128x40 .f32 := broadcastInDim S128x40 ![] bcast_S_S128x40 main_cst_4
  let main_v16 : IVec S128x40 1 := cmpf .olt main_v14 main_v15
  fn_part1 (F := F) main_arg1 main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S851968 : Shape := ⟨1, ![851968]⟩
abbrev S851968x1 : Shape := ⟨2, ![851968, 1]⟩
abbrev S1x851968 : Shape := ⟨2, ![1, 851968]⟩
abbrev S50176x128 : Shape := ⟨2, ![50176, 128]⟩
abbrev S1x128 : Shape := ⟨2, ![1, 128]⟩
abbrev S1x40 : Shape := ⟨2, ![1, 40]⟩
abbrev S512x128 : Shape := ⟨2, ![512, 128]⟩
abbrev S851968x128 : Shape := ⟨2, ![851968, 128]⟩
abbrev S4096x1 : Shape := ⟨2, ![4096, 1]⟩
abbrev S4096x128 : Shape := ⟨2, ![4096, 128]⟩
abbrev S4096x512 : Shape := ⟨2, ![4096, 512]⟩
abbrev S1x4096 : Shape := ⟨2, ![1, 4096]⟩
abbrev S512x4096 : Shape := ⟨2, ![512, 4096]⟩
abbrev S50176x40 : Shape := ⟨2, ![50176, 40]⟩
abbrev S512x40 : Shape := ⟨2, ![512, 40]⟩
abbrev S851968x40 : Shape := ⟨2, ![851968, 40]⟩
abbrev S4096x40 : Shape := ⟨2, ![4096, 40]⟩
abbrev S50000x40 : Shape := ⟨2, ![50000, 40]⟩

abbrev nBuf : Space → Nat
  | .hbm => 71
  | .vmem => 44
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S1x800000, .i32⟩
  | .hbm, ⟨7, _⟩ => ⟨S800000, .i32⟩
  | .hbm, ⟨8, _⟩ => ⟨S50000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S50000, .i32⟩
  | .hbm, ⟨13, _⟩ => ⟨S850000, .i32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S_, .i32⟩
  | .hbm, ⟨48, _⟩ => ⟨S_, .i32⟩
  | .hbm, ⟨49, _⟩ => ⟨S851968, .i32⟩
  | .hbm, ⟨50, _⟩ => ⟨S_, .i32⟩
  | .hbm, ⟨51, _⟩ => ⟨S_, .i32⟩
  | .hbm, ⟨52, _⟩ => ⟨S851968, .i32⟩
  | .hbm, ⟨53, _⟩ => ⟨S_, .f32⟩
  | .hbm, ⟨54, _⟩ => ⟨S_, .f32⟩
  | .hbm, ⟨55, _⟩ => ⟨S851968, .f32⟩
  | .hbm, ⟨56, _⟩ => ⟨S851968x1, .i32⟩
  | .hbm, ⟨57, _⟩ => ⟨S1x851968, .i32⟩
  | .hbm, ⟨58, _⟩ => ⟨S851968x1, .f32⟩
  | .hbm, ⟨59, _⟩ => ⟨S_, .i32⟩
  | .hbm, ⟨60, _⟩ => ⟨S_, .f32⟩
  | .hbm, ⟨61, _⟩ => ⟨S50176x128, .f32⟩
  | .hbm, ⟨62, _⟩ => ⟨S1x128, .f32⟩
  | .hbm, ⟨63, _⟩ => ⟨S1x40, .f32⟩
  | .hbm, ⟨64, _⟩ => ⟨S50176x128, .bf16⟩
  | .hbm, ⟨65, _⟩ => ⟨S851968x128, .bf16⟩
  | .hbm, ⟨66, _⟩ => ⟨S50176x128, .f32⟩
  | .hbm, ⟨67, _⟩ => ⟨S50176x40, .bf16⟩
  | .hbm, ⟨68, _⟩ => ⟨S851968x40, .bf16⟩
  | .hbm, ⟨69, _⟩ => ⟨S50176x40, .f32⟩
  | .hbm, ⟨70, _⟩ => ⟨S50000x40, .f32⟩
  | .local _ .vmem, ⟨0, _⟩ => ⟨S512x128, .f32⟩
  | .local _ .vmem, ⟨1, _⟩ => ⟨S512x128, .f32⟩
  | .local _ .vmem, ⟨2, _⟩ => ⟨S128x128, .f32⟩
  | .local _ .vmem, ⟨3, _⟩ => ⟨S512x128, .bf16⟩
  | .local _ .vmem, ⟨4, _⟩ => ⟨S512x128, .bf16⟩
  | .local _ .vmem, ⟨5, _⟩ => ⟨S4096x1, .i32⟩
  | .local _ .vmem, ⟨6, _⟩ => ⟨S4096x1, .i32⟩
  | .local _ .vmem, ⟨7, _⟩ => ⟨S4096x1, .f32⟩
  | .local _ .vmem, ⟨8, _⟩ => ⟨S4096x1, .f32⟩
  | .local _ .vmem, ⟨9, _⟩ => ⟨S512x128, .bf16⟩
  | .local _ .vmem, ⟨10, _⟩ => ⟨S512x128, .bf16⟩
  | .local _ .vmem, ⟨11, _⟩ => ⟨S4096x128, .bf16⟩
  | .local _ .vmem, ⟨12, _⟩ => ⟨S4096x128, .bf16⟩
  | .local _ .vmem, ⟨13, _⟩ => ⟨S4096x128, .f32⟩
  | .local _ .vmem, ⟨14, _⟩ => ⟨S1x4096, .i32⟩
  | .local _ .vmem, ⟨15, _⟩ => ⟨S1x4096, .i32⟩
  | .local _ .vmem, ⟨16, _⟩ => ⟨S4096x128, .bf16⟩
  | .local _ .vmem, ⟨17, _⟩ => ⟨S4096x128, .bf16⟩
  | .local _ .vmem, ⟨18, _⟩ => ⟨S1x128, .f32⟩
  | .local _ .vmem, ⟨19, _⟩ => ⟨S512x128, .f32⟩
  | .local _ .vmem, ⟨20, _⟩ => ⟨S512x128, .f32⟩
  | .local _ .vmem, ⟨21, _⟩ => ⟨S512x128, .f32⟩
  | .local _ .vmem, ⟨22, _⟩ => ⟨S512x128, .f32⟩
  | .local _ .vmem, ⟨23, _⟩ => ⟨S512x128, .f32⟩
  | .local _ .vmem, ⟨24, _⟩ => ⟨S128x40, .f32⟩
  | .local _ .vmem, ⟨25, _⟩ => ⟨S512x40, .bf16⟩
  | .local _ .vmem, ⟨26, _⟩ => ⟨S512x40, .bf16⟩
  | .local _ .vmem, ⟨27, _⟩ => ⟨S4096x1, .i32⟩
  | .local _ .vmem, ⟨28, _⟩ => ⟨S4096x1, .i32⟩
  | .local _ .vmem, ⟨29, _⟩ => ⟨S4096x1, .f32⟩
  | .local _ .vmem, ⟨30, _⟩ => ⟨S4096x1, .f32⟩
  | .local _ .vmem, ⟨31, _⟩ => ⟨S512x40, .bf16⟩
  | .local _ .vmem, ⟨32, _⟩ => ⟨S512x40, .bf16⟩
  | .local _ .vmem, ⟨33, _⟩ => ⟨S4096x40, .bf16⟩
  | .local _ .vmem, ⟨34, _⟩ => ⟨S4096x40, .bf16⟩
  | .local _ .vmem, ⟨35, _⟩ => ⟨S4096x40, .f32⟩
  | .local _ .vmem, ⟨36, _⟩ => ⟨S1x4096, .i32⟩
  | .local _ .vmem, ⟨37, _⟩ => ⟨S1x4096, .i32⟩
  | .local _ .vmem, ⟨38, _⟩ => ⟨S4096x40, .bf16⟩
  | .local _ .vmem, ⟨39, _⟩ => ⟨S4096x40, .bf16⟩
  | .local _ .vmem, ⟨40, _⟩ => ⟨S1x40, .f32⟩
  | .local _ .vmem, ⟨41, _⟩ => ⟨S512x40, .f32⟩
  | .local _ .vmem, ⟨42, _⟩ => ⟨S512x40, .f32⟩
  | .local _ .vmem, ⟨43, _⟩ => ⟨S512x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_call1_v0 : Ref sig .tc := ⟨.hbm, 48, rfl⟩
abbrev main_v31 : Ref sig .tc := ⟨.hbm, 49, rfl⟩
abbrev main_c_7 : Ref sig .tc := ⟨.hbm, 50, rfl⟩
abbrev main_call2_v0 : Ref sig .tc := ⟨.hbm, 51, rfl⟩
abbrev main_v32 : Ref sig .tc := ⟨.hbm, 52, rfl⟩
abbrev main_cst_8 : Ref sig .tc := ⟨.hbm, 53, rfl⟩
abbrev main_call3_v0 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_c_9 : Ref sig .tc := ⟨.hbm, 59, rfl⟩
abbrev main_call4_v0 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc2_scratch0 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg2_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg1_1 : Ref sig .tc := ⟨.vmem, 30, rfl⟩
abbrev cc4_stg2_0 : Ref sig .tc := ⟨.vmem, 31, rfl⟩
abbrev cc4_stg2_1 : Ref sig .tc := ⟨.vmem, 32, rfl⟩
abbrev cc4_stg3_0 : Ref sig .tc := ⟨.vmem, 33, rfl⟩
abbrev cc4_stg3_1 : Ref sig .tc := ⟨.vmem, 34, rfl⟩
abbrev cc4_scratch0 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg1_1 : Ref sig .tc := ⟨.vmem, 39, rfl⟩
abbrev cc5_stg2_0 : Ref sig .tc := ⟨.vmem, 40, rfl⟩
abbrev cc5_stg3_0 : Ref sig .tc := ⟨.vmem, 41, rfl⟩
abbrev cc5_stg3_1 : Ref sig .tc := ⟨.vmem, 42, rfl⟩
abbrev cc5_scratch0 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem2_1 : DmaSem sig := 24
abbrev cc4_sem0_0 : DmaSem sig := 25
abbrev cc4_sem0_1 : DmaSem sig := 26
abbrev cc4_sem1_0 : DmaSem sig := 27
abbrev cc4_sem1_1 : DmaSem sig := 28
abbrev cc4_sem2_0 : DmaSem sig := 29
abbrev cc4_sem2_1 : DmaSem sig := 30
abbrev cc4_sem3_0 : DmaSem sig := 31
abbrev cc4_sem3_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem3_0 : DmaSem sig := 38
abbrev cc5_sem3_1 : DmaSem sig := 39

abbrev nD : Nat := 1
abbrev τ : Topo := Topo.v7x

variable {F : FTy → Type} [FloatOps F]

abbrev grid0 : Pipeline.Grid := ⟨1, ![98], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![208, 98], ![false, false]⟩

def k1_cond2 (i : grid1.Coords) : BitVec 1 :=
  let arg1 : BitVec 32 := BitVec.ofNat 32 (i 1).val
  let c97_i32 : BitVec 32 := 97#32
  let v22 : BitVec 1 := Scalar.cmpi .eq arg1 c97_i32
  let v23 : BitVec 32 := Scalar.extui v22
  let c0_i32_8 : BitVec 32 := 0#32
  let v24 : BitVec 1 := Scalar.cmpi .ne v23 c0_i32_8
  v24

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S4096x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4096x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S512x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S4096x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![98, 208], ![false, false]⟩

def k2_cond2 (i : grid2.Coords) : BitVec 1 :=
  let arg1 : BitVec 32 := BitVec.ofNat 32 (i 1).val
  let c207_i32 : BitVec 32 := 207#32
  let v22 : BitVec 1 := Scalar.cmpi .eq arg1 c207_i32
  let v23 : BitVec 32 := Scalar.extui v22
  let c0_i32_8 : BitVec 32 := 0#32
  let v24 : BitVec 1 := Scalar.cmpi .ne v23 c0_i32_8
  v24

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1x4096 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S4096x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S512x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨1, ![98], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S512x40 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨2, ![208, 98], ![false, false]⟩

def k4_cond2 (i : grid4.Coords) : BitVec 1 :=
  let arg1 : BitVec 32 := BitVec.ofNat 32 (i 1).val
  let c97_i32 : BitVec 32 := 97#32
  let v22 : BitVec 1 := Scalar.cmpi .eq arg1 c97_i32
  let v23 : BitVec 32 := Scalar.extui v22
  let c0_i32_8 : BitVec 32 := 0#32
  let v24 : BitVec 1 := Scalar.cmpi .ne v23 c0_i32_8
  v24

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S4096x1 .i32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S4096x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S512x40 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true]

abbrev stage4_3 : Fin 2 → Memref sig .tc .vmem S4096x40 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev grid5 : Pipeline.Grid := ⟨2, ![98, 208], ![false, false]⟩

def k5_cond2 (i : grid5.Coords) : BitVec 1 :=
  let arg1 : BitVec 32 := BitVec.ofNat 32 (i 1).val
  let c207_i32 : BitVec 32 := 207#32
  let v22 : BitVec 1 := Scalar.cmpi .eq arg1 c207_i32
  let v23 : BitVec 32 := Scalar.extui v22
  let c0_i32_8 : BitVec 32 := 0#32
  let v24 : BitVec 1 := Scalar.cmpi .ne v23 c0_i32_8
  v24

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S1x4096 .i32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true]

abbrev stage5_1 : Fin 2 → Memref sig .tc .vmem S4096x40 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 1 → Memref sig .tc .vmem S1x40 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false, false]

abbrev stage5_3 : Fin 2 → Memref sig .tc .vmem S512x40 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, false]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  pads_S850000_S851968_019680 : S850000.Pads (![0] : Fin 1 → Nat) ![1968] ![0] S851968
  h_S_ : 0 < S_.numel
  shapeCasts_S851968_S851968x1 : S851968.ShapeCasts S851968x1
  shapeCasts_S851968_S1x851968 : S851968.ShapeCasts S1x851968
  pads_S50000x128_S50176x128_01760_000 : S50000x128.Pads (![0, 0] : Fin 2 → Nat) ![176, 0] ![0, 0] S50176x128
  shapeCasts_S128_S1x128 : S128.ShapeCasts S1x128
  shapeCasts_S40_S1x40 : S40.ShapeCasts S1x40
  inb_S512x128_S512x128_0_0 : ∀ a, (![0, 0] : Fin 2 → Nat) a + S512x128.size a ≤ S512x128.size a
  h_S512x128 : 0 < S512x128.numel
  shapeCasts_S512x128_S512x128 : S512x128.ShapeCasts S512x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  packedbf16_S512x128_S512x128_0_0 : (Rect.unit (s := S512x128) ![0, 0] S512x128.size inb_S512x128_S512x128_0_0).PackedRows (EltTy.packing .bf16)
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  iota_S4096x512_d1_w32 : S4096x512.Iotas .tc 32 [1]
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  broadcasts_S4096x1_S4096x512 : S4096x1.Broadcasts S4096x512
  natLt_1_32 : 1 < 32
  broadcasts_S4096x1_S4096x128 : S4096x1.Broadcasts S4096x128
  packedbf16_S4096x128_S4096x128_0_0 : (Rect.unit (s := S4096x128) ![0, 0] S4096x128.size inb_S4096x128_S4096x128_0_0).PackedRows (EltTy.packing .bf16)
  iota_S512x4096_d0_w32 : S512x4096.Iotas .tc 32 [0]
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S128x40_S128x40_0_0 : ∀ a, (![0, 0] : Fin 2 → Nat) a + S128x40.size a ≤ S128x40.size a
  h_S128x40 : 0 < S128x40.numel
  inb_S512x40_S512x40_0_0 : ∀ a, (![0, 0] : Fin 2 → Nat) a + S512x40.size a ≤ S512x40.size a
  h_S512x40 : 0 < S512x40.numel
  packedbf16_S512x40_S512x40_0_0 : (Rect.unit (s := S512x40) ![0, 0] S512x40.size inb_S512x40_S512x40_0_0).PackedRows (EltTy.packing .bf16)
  inb_S4096x40_S4096x40_0_0 : ∀ a, (![0, 0] : Fin 2 → Nat) a + S4096x40.size a ≤ S4096x40.size a
  h_S4096x40 : 0 < S4096x40.numel
  shapeCasts_S4096x40_S4096x40 : S4096x40.ShapeCasts S4096x40
  shapeCasts_S512x40_S512x40 : S512x40.ShapeCasts S512x40
  broadcasts_S4096x1_S4096x40 : S4096x1.Broadcasts S4096x40
  packedbf16_S4096x40_S4096x40_0_0 : (Rect.unit (s := S4096x40) ![0, 0] S4096x40.size inb_S4096x40_S4096x40_0_0).PackedRows (EltTy.packing .bf16)
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S512x40 : S1x40.Broadcasts S512x40
  slices_S50176x40_S50000x40_0_0 : S50176x40.Slices ![0, 0] S50000x40
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S512x128_S128x128_S512x128_1_0_0_1_n_n_wf : DotDims.WF S512x128 S128x128 S512x128 [1] [0] [0] [1] [] []
  dot_S4096x512_S512x128_S4096x128_1_0_0_1_n_n_wf : DotDims.WF S4096x512 S512x128 S4096x128 [1] [0] [0] [1] [] []
  dot_S512x4096_S4096x128_S512x128_1_0_0_1_n_n_wf : DotDims.WF S512x4096 S4096x128 S512x128 [1] [0] [0] [1] [] []
  dot_S512x128_S128x40_S512x40_1_0_0_1_n_n_wf : DotDims.WF S512x128 S128x40 S512x40 [1] [0] [0] [1] [] []
  dot_S4096x512_S512x40_S4096x40_1_0_0_1_n_n_wf : DotDims.WF S4096x512 S512x40 S4096x40 [1] [0] [0] [1] [] []
  dot_S512x4096_S4096x40_S512x40_1_0_0_1_n_n_wf : DotDims.WF S512x4096 S4096x40 S512x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S50176x128.size a
  hwx0_0 : ∀ i : grid0.Coords, EltTy.bits .f32 = 32 ∨ (Rect.block (s := S50176x128) S512x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S50176x128.size a
  hwx0_2 : ∀ i : grid0.Coords, EltTy.bits .bf16 = 32 ∨ (Rect.block (s := S50176x128) S512x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x1.size a ≤ S851968x1.size a
  hwx1_0 : ∀ i : grid1.Coords, EltTy.bits .i32 = 32 ∨ (Rect.block (s := S851968x1) S4096x1.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x1.size a ≤ S851968x1.size a
  hwx1_1 : ∀ i : grid1.Coords, EltTy.bits .f32 = 32 ∨ (Rect.block (s := S851968x1) S4096x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x128.size a ≤ S50176x128.size a
  hwx1_2 : ∀ i : grid1.Coords, EltTy.bits .bf16 = 32 ∨ (Rect.block (s := S50176x128) S512x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4096x128.size a ≤ S851968x128.size a
  hwx1_3 : ∀ i : grid1.Coords, EltTy.bits .bf16 = 32 ∨ (Rect.block (s := S851968x128) S4096x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x4096.size a ≤ S1x851968.size a
  hwx2_0 : ∀ i : grid2.Coords, EltTy.bits .i32 = 32 ∨ (Rect.block (s := S1x851968) S1x4096.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096x128.size a ≤ S851968x128.size a
  hwx2_1 : ∀ i : grid2.Coords, EltTy.bits .bf16 = 32 ∨ (Rect.block (s := S851968x128) S4096x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x128.size a ≤ S50176x128.size a
  hwx2_3 : ∀ i : grid2.Coords, EltTy.bits .f32 = 32 ∨ (Rect.block (s := S50176x128) S512x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x128.size a ≤ S50176x128.size a
  hwx3_0 : ∀ i : grid3.Coords, EltTy.bits .f32 = 32 ∨ (Rect.block (s := S50176x128) S512x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x40.size a ≤ S128x40.size a
  hwx3_1 : ∀ i : grid3.Coords, EltTy.bits .f32 = 32 ∨ (Rect.block (s := S128x40) S128x40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S512x40.size a ≤ S50176x40.size a
  hwx3_2 : ∀ i : grid3.Coords, EltTy.bits .bf16 = 32 ∨ (Rect.block (s := S50176x40) S512x40.size (cc3_transform_2 i) (hinb3_2 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4096x1.size a ≤ S851968x1.size a
  hwx4_0 : ∀ i : grid4.Coords, EltTy.bits .i32 = 32 ∨ (Rect.block (s := S851968x1) S4096x1.size (cc4_transform_0 i) (hinb4_0 i)).WholeWords (EltTy.packing .i32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4096x1.size a ≤ S851968x1.size a
  hwx4_1 : ∀ i : grid4.Coords, EltTy.bits .f32 = 32 ∨ (Rect.block (s := S851968x1) S4096x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S512x40.size a ≤ S50176x40.size a
  hwx4_2 : ∀ i : grid4.Coords, EltTy.bits .bf16 = 32 ∨ (Rect.block (s := S50176x40) S512x40.size (cc4_transform_2 i) (hinb4_2 i)).WholeWords (EltTy.packing .bf16)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S4096x40.size a ≤ S851968x40.size a
  hwx4_3 : ∀ i : grid4.Coords, EltTy.bits .bf16 = 32 ∨ (Rect.block (s := S851968x40) S4096x40.size (cc4_transform_3 i) (hinb4_3 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1x4096.size a ≤ S1x851968.size a
  hwx5_0 : ∀ i : grid5.Coords, EltTy.bits .i32 = 32 ∨ (Rect.block (s := S1x851968) S1x4096.size (cc5_transform_0 i) (hinb5_0 i)).WholeWords (EltTy.packing .i32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S4096x40.size a ≤ S851968x40.size a
  hwx5_1 : ∀ i : grid5.Coords, EltTy.bits .bf16 = 32 ∨ (Rect.block (s := S851968x40) S4096x40.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x40.size a ≤ S1x40.size a
  hwx5_2 : ∀ i : grid5.Coords, EltTy.bits .f32 = 32 ∨ (Rect.block (s := S1x40) S1x40.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S512x40.size a ≤ S50176x40.size a
  hwx5_3 : ∀ i : grid5.Coords, EltTy.bits .f32 = 32 ∨ (Rect.block (s := S50176x40) S512x40.size (cc5_transform_3 i) (hinb5_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S4096x512_S512x128_S4096x128_1_0_0_1_n_n : DotDims S4096x512 S512x128 S4096x128 where
  lhsContracting := [1]
  rhsContracting := [0]
  lhsNonContracting := [0]
  rhsNonContracting := [1]
  lhsBatch := []
  rhsBatch := []
  wf := dot_S4096x512_S512x128_S4096x128_1_0_0_1_n_n_wf
def dot_S512x4096_S4096x128_S512x128_1_0_0_1_n_n : DotDims S512x4096 S4096x128 S512x128 where
  lhsContracting := [1]
  rhsContracting := [0]
  lhsNonContracting := [0]
  rhsNonContracting := [1]
  lhsBatch := []
  rhsBatch := []
  wf := dot_S512x4096_S4096x128_S512x128_1_0_0_1_n_n_wf
def dot_S512x128_S128x40_S512x40_1_0_0_1_n_n : DotDims S512x128 S128x40 S512x40 where
  lhsContracting := [1]
  rhsContracting := [0]
  lhsNonContracting := [0]
  rhsNonContracting := [1]
  lhsBatch := []
  rhsBatch := []
  wf := dot_S512x128_S128x40_S512x40_1_0_0_1_n_n_wf
def dot_S4096x512_S512x40_S4096x40_1_0_0_1_n_n : DotDims S4096x512 S512x40 S4096x40 where
  lhsContracting := [1]
  rhsContracting := [0]
  lhsNonContracting := [0]
  rhsNonContracting := [1]
  lhsBatch := []
  rhsBatch := []
  wf := dot_S4096x512_S512x40_S4096x40_1_0_0_1_n_n_wf
def dot_S512x4096_S4096x40_S512x40_1_0_0_1_n_n : DotDims S512x4096 S4096x40 S512x40 where
  lhsContracting := [1]
  rhsContracting := [0]
  lhsNonContracting := [0]
  rhsNonContracting := [1]
  lhsBatch := []
  rhsBatch := []
  wf := dot_S512x4096_S4096x40_S512x40_1_0_0_1_n_n_wf

abbrev win0_0 : Pipeline.Window sig grid0 :=
  Pipeline.Window.ofSpec (Memref.whole main_v37) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v40) S512x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v34) S4096x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S4096x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v40) S512x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v41) S4096x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v35) S1x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v41) S4096x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v38) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v42) S512x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v42) S512x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S128x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v43) S512x40.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v34) S4096x1.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v36) S4096x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v43) S512x40.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v44) S4096x40.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun _ => false | 3 => fun i => !(k4_cond2 i == 1#1) | ⟨_ + 4, h⟩ => absurd h (Nat.not_lt.2 (Nat.le_add_left _ _))

abbrev win5_0 : Pipeline.Window sig grid5 :=
  Pipeline.Window.ofSpec (Memref.whole main_v35) S1x4096.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v44) S4096x40.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v39) S1x40.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v45) S512x40.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev idle5 : Fin 4 → grid5.Coords → Bool := fun | 0 => fun _ => false | 1 => fun _ => false | 2 => fun _ => false | 3 => fun i => !(k5_cond2 i == 1#1) | ⟨_ + 4, h⟩ => absurd h (Nat.not_lt.2 (Nat.le_add_left _ _))

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x40 : Shape := ⟨2, ![50000, 40]⟩
abbrev S850000x40 : Shape := ⟨2, ![850000, 40]⟩
abbrev S1x40 : Shape := ⟨2, ![1, 40]⟩

abbrev nBuf : Space → Nat
  | .hbm => 89
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x128, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .f32⟩
  | .hbm, ⟨69, _⟩ => ⟨S50000x40, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000x40, .f32⟩
  | .hbm, ⟨79, _⟩ => ⟨S850000x1, .f32⟩
  | .hbm, ⟨80, _⟩ => ⟨S850000x40, .f32⟩
  | .hbm, ⟨81, _⟩ => ⟨S850000x40, .f32⟩
  | .hbm, ⟨82, _⟩ => ⟨S_, .f32⟩
  | .hbm, ⟨83, _⟩ => ⟨S50000x40, .f32⟩
  | .hbm, ⟨84, _⟩ => ⟨S850000x1, .i32⟩
  | .hbm, ⟨85, _⟩ => ⟨S50000x40, .f32⟩
  | .hbm, ⟨86, _⟩ => ⟨S1x40, .f32⟩
  | .hbm, ⟨87, _⟩ => ⟨S50000x40, .f32⟩
  | .hbm, ⟨88, _⟩ => ⟨S50000x40, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x40_0_1 : S850000x1.BroadcastsInDim S850000x40 (![0, 1] : Fin 2 → Fin S850000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x40_S50000x40_1_0_0_1_n_n_wf : DotDims.WF S50000x128 S128x40 S50000x40 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf

class Facts : Prop extends Facts₀ where

variable [Facts]
-- ==== Proof.K.R0.lean ====
import proofs.«137339_j11914239279184_1_alg».proof.Proof.Gen.Kernel.Launch
import proofs.«137339_j11914239279184_1_alg».proof.Proof.Gen.Kernel.Skeleton
import proofs.«137339_j11914239279184_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay1 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay1 (iblk0 V c 0 t) (iblk0 V c 1 t) := by dsimp only [dat0]

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

theorem offs0_zero : (![0, 0] : Fin 2 → Nat) = fun _ => 0 := funext fun a => by fin_cases a <;> rfl

theorem cover0_2 (p : S512x128.Idx → Elt F .bf16) (y : S512x128.Idx) :
    ∃ pc ∈ ([⟨Rect.unit (s := S512x128) ![0, 0] S512x128.size inb_S512x128_S512x128_0_0, p⟩] : List (View.Piece (Elt F) S512x128 .bf16)), y ∈ pc.1.set :=
  ⟨_, List.mem_singleton_self _, View.mem_set_unit_zero offs0_zero inb_S512x128_S512x128_0_0 y⟩

set_option maxHeartbeats 1000000 in

theorem sound_kernel0 (c : Dev nD) (E : Set ℕ) (i : grid0.Coords)
    (arg1 : Memref sig .tc .vmem S512x128 .f32) (harg1 : arg1.IsWhole)
    (arg2 : Memref sig .tc .vmem S128x128 .f32) (harg2 : arg2.IsWhole)
    (arg3 : Memref sig .tc .vmem S512x128 .bf16) (harg3 : arg3.IsWhole)
    (x0 : Vec F S512x128 .f32) (x1 : Vec F S128x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (k0_pay1 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (cover0_2 _), View.canon_unit_zero offs0_zero]
  simp only [View.readAt_eq_ld, View.ld_unit_zero (S := S512x128) offs0_zero, View.ld_unit_zero (S := S128x128) offs0_zero]

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1.lean ====
import proofs.«137339_j11914239279184_1_alg».proof.Proof.Gen.Kernel.Launch
import proofs.«137339_j11914239279184_1_alg».proof.Proof.Gen.Kernel.Skeleton
import proofs.«137339_j11914239279184_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev scM1 : Memref sig .tc .vmem S4096x128 .f32 := Memref.whole cc1_scratch0

def scAt1 (c : Dev nD) : (n : ℕ) → n < cfg1.N → Vec F S4096x128 .f32
  | 0, hn => k1_pay2 (grid1.coords ⟨0, hn⟩) (iblk1 V c 0 ⟨0, hn⟩) k1_pay1 (iblk1 V c 2 ⟨0, hn⟩)
  | n + 1, hn => k1_pay2 (grid1.coords ⟨n + 1, hn⟩) (iblk1 V c 0 ⟨n + 1, hn⟩)
      (if (n + 1) % 98 = 0 then k1_pay1 else scAt1 c n (Nat.lt_of_succ_lt hn)) (iblk1 V c 2 ⟨n + 1, hn⟩)

abbrev rest1 (c : Dev nD) : sProp 𝕄 :=
  Pipeline.scopedRestBut (Ix := Unit) (Name := ℕ) (U := UR sig nD τ) (Lvl := ℕ) (Val := Elt F) spec1 c [cc1_scratch0]

def PhiS1 (c : Dev nD) : (n : ℕ) → n ≤ cfg1.N → sProp 𝕄
  | 0, _ => Pipeline.ΦA spec1 c
  | n + 1, hn => iprop(owns (c : Thread nD τ) scM1 fullShare (scAt1 V c n hn) ∗ rest1 c ∗ (∃ r, prngReg c r))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (scAt1 V c t.val t.isLt) (iblk1 V c 1 t)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_3 (c : Dev nD) (t : Fin cfg1.N) :
    (dat1 V c).after 3 t = k1_pay3 (scAt1 V c t.val t.isLt) (iblk1 V c 1 t) := by dsimp only [dat1]

theorem coords1_1 (t : Fin cfg1.N) : ((grid1.coords t) 1).val = t.val % 98 := by
  show t.val / grid1.stride 1 % grid1.bound 1 = t.val % 98
  rw [show grid1.stride 1 = 1 from by decide, Nat.div_one]; rfl

abbrev cond1_0 (i : grid1.Coords) : Prop :=
  (Scalar.cmpi .ne (Scalar.extui (Scalar.cmpi .eq (BitVec.ofNat 32 (i 1).val) 0#32)) 0#32) = 1#1

-- The two conditions compare the node-block coordinate, a number below 98, with 0 and with 97.
theorem hcond1_0 (t : Fin cfg1.N) : cond1_0 (grid1.coords t) ↔ t.val % 98 = 0 :=
  ((by decide +kernel : ∀ k : Fin 98, ((Scalar.cmpi .ne (Scalar.extui (Scalar.cmpi .eq (BitVec.ofNat 32 k.val) 0#32)) 0#32) = 1#1)
    ↔ k.val = 0) (grid1.coords t 1)).trans (by rw [coords1_1 t])

theorem hcond1_1 (t : Fin cfg1.N) : k1_cond2 (grid1.coords t) = 1#1 ↔ t.val % 98 = 97 :=
  ((by decide +kernel : ∀ k : Fin 98, ((Scalar.cmpi .ne (Scalar.extui (Scalar.cmpi .eq (BitVec.ofNat 32 k.val) 97#32)) 0#32) = 1#1)
    ↔ k.val = 97) (grid1.coords t 1)).trans (by rw [coords1_1 t])

theorem hz_r1 : (![0, 0] : Fin 2 → Nat) = fun _ => 0 := funext fun a => by fin_cases a <;> rfl

-- Every point of the buffer lies in the last store's rectangle, so earlier stores and contents are not read.
theorem read_last_r1 {sg : RefSig} {κ : Kind} {sp : Space} {S : Shape} {e : EltTy} (v : View sg κ sp S e)
    (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon v f _ (fun y => ⟨⟨Rect.unit off S.size inb, w⟩, List.mem_cons.mpr (Or.inl rfl),
    View.mem_set_unit_zero h inb y⟩), View.canon_cons_unit_zero h]

set_option maxHeartbeats 1000000 in
-- The scratch restarts from zero where the first condition holds; the output is written only where the second does.
theorem run1 (c : Dev nD) (i : grid1.Coords)
    (arg2 : Memref sig .tc .vmem S4096x1 .i32) (harg2 : arg2.IsWhole)
    (arg3 : Memref sig .tc .vmem S4096x1 .f32) (harg3 : arg3.IsWhole)
    (arg4 : Memref sig .tc .vmem S512x128 .bf16) (harg4 : arg4.IsWhole)
    (arg5 : Memref sig .tc .vmem S4096x128 .bf16) (harg5 : arg5.IsWhole)
    (arg6 : Memref sig .tc .vmem S4096x128 .f32) (harg6 : arg6.IsWhole) (h01 : cond1_0 i → ¬k1_cond2 i = 1#1)
    (src : Vec F S4096x1 .i32) (nrm : Vec F S4096x1 .f32) (h : Vec F S512x128 .bf16) (o : Vec F S4096x128 .bf16)
    (s : Vec F S4096x128 .f32)
    (E : Set ℕ) (K : PUnit → sProp 𝕄) :
    iprop(owns (c : Thread nD τ) arg2 fullShare src ∗ owns (c : Thread nD τ) arg3 fullShare nrm
        ∗ owns (c : Thread nD τ) arg4 fullShare h ∗ owns (c : Thread nD τ) arg5 fullShare o
        ∗ owns (c : Thread nD τ) arg6 fullShare s
        ∗ (iprop(owns (c : Thread nD τ) arg2 fullShare src ∗ owns (c : Thread nD τ) arg3 fullShare nrm
            ∗ owns (c : Thread nD τ) arg4 fullShare h
            ∗ owns (c : Thread nD τ) arg5 fullShare (if k1_cond2 i = 1#1 then
                k1_pay3 (k1_pay2 i src (if cond1_0 i then k1_pay1 else s) h) nrm else o)
            ∗ owns (c : Thread nD τ) arg6 fullShare (k1_pay2 i src (if cond1_0 i then k1_pay1 else s) h)) -∗ K ⟨⟩))
      ⊢ wp frame (wpE (defs₀ (F := F)) Variants.none c none) E
          (cc1__gather_kernel i arg2 harg2 arg3 harg3 arg4 harg4 arg5 harg5 arg6 harg6) K := by
  by_cases hc0 : cond1_0 i <;> by_cases hc1 : k1_cond2 i = 1#1
  · exact absurd hc1 (h01 hc0)
  all_goals
    first | rw [if_pos hc0] | rw [if_neg hc0]
    first | rw [if_pos hc1] | rw [if_neg hc1]
    simp only [cc1__gather_kernel_eq_skeleton]; unfold cc1__gather_kernel_skel owns
    iintro ⟨⟨%f2, %hf2, H2⟩, ⟨%f3, %hf3, H3⟩, ⟨%f4, %hf4, H4⟩, ⟨%f5, %hf5, H5⟩, ⟨%f6, %hf6, H6⟩, Hk⟩
    obtain rfl := harg2.eq_unread hf2; obtain rfl := harg3.eq_unread hf3; obtain rfl := harg4.eq_unread hf4
    obtain rfl := harg5.eq_unread hf5; obtain rfl := harg6.eq_unread hf6
    sl_exec
    sl_step
    iapply Hk
    isplitl [H2]; swap; isplitl [H3]; swap; isplitl [H4]; swap; isplitl [H5]; swap
    all_goals
      iexists _; isplitr; swap; · iassumption
      ipureintro
      first
      | sl_unfold_words
        rw [read_last_r1 (S := S4096x128) _ _ hz_r1]
        simp only [View.readAt_eq_ld, harg2.read_unread, harg3.read_unread, harg4.read_unread, harg6.read_unread,
          View.ld_unit_zero (S := S4096x1) hz_r1, View.ld_unit_zero (S := S512x128) hz_r1,
          View.ld_unit_zero (S := S4096x128) hz_r1, View.readCov_unit_zero (S := S4096x128) _ hz_r1]
      | exact Memref.IsWhole.read_unread _ _

-- The scratch after a point is the product added to zero at a first node block, else to what the point before left.
theorem scAt1_eq (c : Dev nD) (t : Fin cfg1.N) (s : Vec F S4096x128 .f32)
    (hs : ∀ h0 : t.val ≠ 0, s = scAt1 V c (t.val - 1) (Nat.lt_of_le_of_lt (Nat.sub_le _ _) t.isLt)) :
    scAt1 V c t.val t.isLt
      = k1_pay2 (grid1.coords t) (iblk1 V c 0 t) (if cond1_0 (grid1.coords t) then k1_pay1 else s) (iblk1 V c 2 t) := by
  obtain ⟨n, hn⟩ := t
  cases n with
  | zero => rw [if_pos ((hcond1_0 ⟨0, hn⟩).mpr rfl)]; rfl
  | succ n =>
    show scAt1 V c (n + 1) hn = _
    rw [scAt1, hs (Nat.succ_ne_zero n)]
    exact congrArg (fun x => k1_pay2 _ _ x _) (if_congr (hcond1_0 ⟨n + 1, hn⟩).symm rfl rfl)

theorem PhiA1_eq (c : Dev nD) :
    (Pipeline.ΦA spec1 c : sProp 𝕄)
      = iprop(iprop((∃ d, owns (c : Thread nD τ) scM1 fullShare d) ∗ rest1 c) ∗ (∃ r, prngReg c r)) := by
  unfold Pipeline.ΦA; rw [scopedRest1_split]; simp only [scM1, owns_whole]; try rfl

-- Before any point the scratch holds something; after the first point, what the point before left.
theorem PhiS1_elim (c : Dev nD) (n : ℕ) (h : n ≤ cfg1.N) :
    PhiS1 V c n h ⊢ iprop(∃ s, ⌜∀ h0 : n ≠ 0, s = scAt1 V c (n - 1) (by omega)⌝
      ∗ owns (c : Thread nD τ) scM1 fullShare s ∗ rest1 c ∗ (∃ r, prngReg c r)) := by
  cases n with
  | zero =>
    show Pipeline.ΦA spec1 c ⊢ _
    rw [PhiA1_eq]
    iintro ⟨⟨⟨%s, HS⟩, HR⟩, Hg⟩
    iexists s; isplitr; · ipureintro; exact fun h0 => absurd rfl h0
    isplitl [HS]; · iexact HS
    isplitl [HR]; · iexact HR
    iexact Hg
  | succ n =>
    show iprop(owns (c : Thread nD τ) scM1 fullShare (scAt1 V c n h) ∗ rest1 c ∗ (∃ r, prngReg c r)) ⊢ _
    iintro H
    iexists (scAt1 V c n h); isplitr; · ipureintro; exact fun _ => rfl
    iexact H

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl

abbrev ms1_0 (t : Fin cfg1.N) : Memref sig .tc .vmem S4096x1 .i32 := win1_0.stage (cfg1.slots t 0)
abbrev ms1_1 (t : Fin cfg1.N) : Memref sig .tc .vmem S4096x1 .f32 := win1_1.stage (cfg1.slots t 1)
abbrev ms1_2 (t : Fin cfg1.N) : Memref sig .tc .vmem S512x128 .bf16 := win1_2.stage (cfg1.slots t 2)
abbrev ms1_3 (t : Fin cfg1.N) : Memref sig .tc .vmem S4096x128 .bf16 := win1_3.stage (cfg1.slots t 3)

-- The output block changes exactly where the second condition holds.
theorem leaves1_3 (c : Dev nD) (t : Fin cfg1.N) :
    (dat1 V c).leavesExact 3 t = if k1_cond2 (grid1.coords t) = 1#1
      then owns (c : Thread nD τ) (ms1_3 t) fullShare ((dat1 V c).after 3 t)
      else iprop(∃ d, owns (c : Thread nD τ) (ms1_3 t) fullShare ((dat1 V c).before 3 t d)) := by
  by_cases h : k1_cond2 (grid1.coords t) = 1#1
  · rw [if_pos h]; unfold Dat.leavesExact
    rw [show cfg1.idle 3 (grid1.coords t) = false from by
      show (!(k1_cond2 (grid1.coords t) == 1#1)) = false; simpa using h]
  · rw [if_neg h]
    exact Dat.leavesExact_idle _ 3 t (by show (!(k1_cond2 (grid1.coords t) == 1#1)) = true; simpa using h)
      (Bool.eq_false_iff.mpr fun hf => h ((hcond1_1 t).mpr ((flush1_3 t).mp hf)))

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

-- The invariant hands the body the scratch and takes it back at this point's contents; all else passes through.
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl, leaves1_3,
    show (dat1 V c).Φ t.succ = iprop(owns (c : Thread nD τ) scM1 fullShare (scAt1 V c t.val t.isLt) ∗ rest1 c
      ∗ (∃ r, prngReg c r)) from rfl]
  refine (sep_mono_left (PhiS1_elim V c t.castSucc.val (Nat.le_of_lt_succ t.castSucc.isLt))).trans ?_
  iintro ⟨⟨%s, %hs, HS, HR⟩, Ho, ⟨%d0, H0⟩, ⟨%d1, H1⟩, ⟨%d2, H2⟩, ⟨%d3, H3⟩⟩
  rw [after1_3, scAt1_eq V c t s hs]
  iapply (run1 c _ _ _ _ _ _ _ _ _ _ _
    (fun h0 h1 => by have := (hcond1_0 t).mp h0; have := (hcond1_1 t).mp h1; omega) (iblk1 V c 0 t) (iblk1 V c 1 t) (iblk1 V c 2 t) _ s Set.univ _)
  isplitl [H0]; · iexact H0
  isplitl [H1]; · iexact H1
  isplitl [H2]; · iexact H2
  isplitl [H3]; · iexact H3
  isplitl [HS]; · iexact HS
  iintro ⟨H0, H1, H2, H3, HS⟩
  isplitl [HS HR]
  · isplitl [HS]; · iexact HS
    iexact HR
  isplitl [Ho]; · iexact Ho
  isplitl [H0]; · iexact H0
  isplitl [H1]; · iexact H1
  isplitl [H2]; · iexact H2
  by_cases h1 : k1_cond2 (grid1.coords t) = 1#1
  · rw [if_pos h1, if_pos h1]; iexact H3
  · rw [if_neg h1, if_neg h1]; iexists _; iexact H3

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := Idealize.SL.BI.Entails.refl _

-- Forgetting what the scratch holds gives back the entry invariant.
theorem hout1 (c : Dev nD) : (dat1 V c).Φ (Fin.last cfg1.N) ⊢ Pipeline.ΦA spec1 c := by
  refine (PhiS1_elim V c (Fin.last cfg1.N).val (Nat.le_of_lt_succ (Fin.last cfg1.N).isLt)).trans ?_
  rw [PhiA1_eq]
  iintro ⟨%s, -, HS, HR, Hg⟩
  isplitl [HS HR]; swap; · iexact Hg
  isplitl [HS]; · iexists _; iexact HS
  iexact HR

end Cert.Kernel.Hand

end
-- ==== Proof.K.R2.lean ====
import proofs.«137339_j11914239279184_1_alg».proof.Proof.Gen.Kernel.Launch
import proofs.«137339_j11914239279184_1_alg».proof.Proof.Gen.Kernel.Skeleton
import proofs.«137339_j11914239279184_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev scM2 : Memref sig .tc .vmem S512x128 .f32 := Memref.whole cc2_scratch0

def scAt2 (c : Dev nD) : (n : ℕ) → n < cfg2.N → Vec F S512x128 .f32
  | 0, hn => k2_pay2 (grid2.coords ⟨0, hn⟩) (iblk2 V c 0 ⟨0, hn⟩) k2_pay1 (iblk2 V c 1 ⟨0, hn⟩)
  | n + 1, hn => k2_pay2 (grid2.coords ⟨n + 1, hn⟩) (iblk2 V c 0 ⟨n + 1, hn⟩)
      (if (n + 1) % 208 = 0 then k2_pay1 else scAt2 c n (Nat.lt_of_succ_lt hn)) (iblk2 V c 1 ⟨n + 1, hn⟩)

abbrev rest2 (c : Dev nD) : sProp 𝕄 :=
  Pipeline.scopedRestBut (Ix := Unit) (Name := ℕ) (U := UR sig nD τ) (Lvl := ℕ) (Val := Elt F) spec2 c [cc2_scratch0]

def PhiS2 (c : Dev nD) : (n : ℕ) → n ≤ cfg2.N → sProp 𝕄
  | 0, _ => Pipeline.ΦA spec2 c
  | n + 1, hn => iprop(owns (c : Thread nD τ) scM2 fullShare (scAt2 V c n hn) ∗ rest2 c ∗ (∃ r, prngReg c r))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k2_pay3 (scAt2 V c t.val t.isLt) (iblk2 V c 2 t)
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem after2_3 (c : Dev nD) (t : Fin cfg2.N) :
    (dat2 V c).after 3 t = k2_pay3 (scAt2 V c t.val t.isLt) (iblk2 V c 2 t) := by dsimp only [dat2]

theorem coords2_1 (t : Fin cfg2.N) : ((grid2.coords t) 1).val = t.val % 208 := by
  show t.val / grid2.stride 1 % 208 = t.val % 208
  rw [show grid2.stride 1 = 1 from by decide, Nat.div_one]

abbrev cond2_0 (i : grid2.Coords) : Prop :=
  (Scalar.cmpi .ne (Scalar.extui (Scalar.cmpi .eq (BitVec.ofNat 32 (i 1).val) 0#32)) 0#32) = 1#1

-- The two conditions compare the edge-block coordinate, a number below 208, with 0 and with 207.
theorem hcond2_0 (t : Fin cfg2.N) : cond2_0 (grid2.coords t) ↔ t.val % 208 = 0 :=
  ((by decide +kernel : ∀ k : Fin 208, ((Scalar.cmpi .ne (Scalar.extui (Scalar.cmpi .eq (BitVec.ofNat 32 k.val) 0#32)) 0#32) = 1#1)
    ↔ k.val = 0) (grid2.coords t 1)).trans (by rw [coords2_1 t])

theorem hcond2_1 (t : Fin cfg2.N) : k2_cond2 (grid2.coords t) = 1#1 ↔ t.val % 208 = 207 :=
  ((by decide +kernel : ∀ k : Fin 208, ((Scalar.cmpi .ne (Scalar.extui (Scalar.cmpi .eq (BitVec.ofNat 32 k.val) 207#32)) 0#32) = 1#1)
    ↔ k.val = 207) (grid2.coords t 1)).trans (by rw [coords2_1 t])

theorem hz_r2 : (![0, 0] : Fin 2 → Nat) = fun _ => 0 := funext fun a => by fin_cases a <;> rfl

-- Every point of the buffer lies in the last store's rectangle, so earlier stores and contents are not read.
theorem read_last_r2 {sg : RefSig} {κ : Kind} {sp : Space} {S : Shape} {e : EltTy} (v : View sg κ sp S e)
    (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon v f _ (fun y => ⟨⟨Rect.unit off S.size inb, w⟩, List.mem_cons.mpr (Or.inl rfl),
    View.mem_set_unit_zero h inb y⟩), View.canon_cons_unit_zero h]

set_option maxHeartbeats 1000000 in
-- The scratch restarts from zero where the first condition holds; the output is written only where the second does.
theorem run2 (c : Dev nD) (i : grid2.Coords)
    (arg2 : Memref sig .tc .vmem S1x4096 .i32) (harg2 : arg2.IsWhole)
    (arg3 : Memref sig .tc .vmem S4096x128 .bf16) (harg3 : arg3.IsWhole)
    (arg4 : Memref sig .tc .vmem S1x128 .f32) (harg4 : arg4.IsWhole)
    (arg5 : Memref sig .tc .vmem S512x128 .f32) (harg5 : arg5.IsWhole)
    (arg6 : Memref sig .tc .vmem S512x128 .f32) (harg6 : arg6.IsWhole) (h01 : cond2_0 i → ¬k2_cond2 i = 1#1)
    (dst : Vec F S1x4096 .i32) (msg : Vec F S4096x128 .bf16) (bias : Vec F S1x128 .f32) (o s : Vec F S512x128 .f32)
    (E : Set ℕ) (K : PUnit → sProp 𝕄) :
    iprop(owns (c : Thread nD τ) arg2 fullShare dst ∗ owns (c : Thread nD τ) arg3 fullShare msg
        ∗ owns (c : Thread nD τ) arg4 fullShare bias ∗ owns (c : Thread nD τ) arg5 fullShare o
        ∗ owns (c : Thread nD τ) arg6 fullShare s
        ∗ (iprop(owns (c : Thread nD τ) arg2 fullShare dst ∗ owns (c : Thread nD τ) arg3 fullShare msg
            ∗ owns (c : Thread nD τ) arg4 fullShare bias
            ∗ owns (c : Thread nD τ) arg5 fullShare (if k2_cond2 i = 1#1 then
                k2_pay3 (k2_pay2 i dst (if cond2_0 i then k2_pay1 else s) msg) bias else o)
            ∗ owns (c : Thread nD τ) arg6 fullShare (k2_pay2 i dst (if cond2_0 i then k2_pay1 else s) msg)) -∗ K ⟨⟩))
      ⊢ wp frame (wpE (defs₀ (F := F)) Variants.none c none) E
          (cc2__scatter_kernel i arg2 harg2 arg3 harg3 arg4 harg4 arg5 harg5 arg6 harg6) K := by
  by_cases hc0 : cond2_0 i <;> by_cases hc1 : k2_cond2 i = 1#1
  · exact absurd hc1 (h01 hc0)
  all_goals
    first | rw [if_pos hc0] | rw [if_neg hc0]
    first | rw [if_pos hc1] | rw [if_neg hc1]
    simp only [cc2__scatter_kernel_eq_skeleton]; unfold cc2__scatter_kernel_skel owns
    iintro ⟨⟨%f2, %hf2, H2⟩, ⟨%f3, %hf3, H3⟩, ⟨%f4, %hf4, H4⟩, ⟨%f5, %hf5, H5⟩, ⟨%f6, %hf6, H6⟩, Hk⟩
    obtain rfl := harg2.eq_unread hf2; obtain rfl := harg3.eq_unread hf3; obtain rfl := harg4.eq_unread hf4
    obtain rfl := harg5.eq_unread hf5; obtain rfl := harg6.eq_unread hf6
    sl_exec
    sl_step
    iapply Hk
    isplitl [H2]; swap; isplitl [H3]; swap; isplitl [H4]; swap; isplitl [H5]; swap
    all_goals
      iexists _; isplitr; swap; · iassumption
      ipureintro
      first
      | sl_unfold_run_names
        rw [read_last_r2 (S := S512x128) _ _ hz_r2]
        simp only [View.readAt_eq_ld, harg2.read_unread, harg3.read_unread, harg4.read_unread, harg6.read_unread,
          View.ld_unit_zero (S := S1x4096) hz_r2, View.ld_unit_zero (S := S4096x128) hz_r2,
          View.ld_unit_zero (S := S1x128) hz_r2, View.ld_unit_zero (S := S512x128) hz_r2,
          View.readCov_unit_zero (S := S512x128) _ hz_r2]
      | exact Memref.IsWhole.read_unread _ _

-- The scratch after a point is the product added to zero at a first edge block, else to what the point before left.
theorem scAt2_eq (c : Dev nD) (t : Fin cfg2.N) (s : Vec F S512x128 .f32)
    (hs : ∀ h0 : t.val ≠ 0, s = scAt2 V c (t.val - 1) (Nat.lt_of_le_of_lt (Nat.sub_le _ _) t.isLt)) :
    scAt2 V c t.val t.isLt
      = k2_pay2 (grid2.coords t) (iblk2 V c 0 t) (if cond2_0 (grid2.coords t) then k2_pay1 else s) (iblk2 V c 1 t) := by
  obtain ⟨n, hn⟩ := t
  cases n with
  | zero => rw [if_pos ((hcond2_0 ⟨0, hn⟩).mpr rfl)]; rfl
  | succ n =>
    show scAt2 V c (n + 1) hn = _
    rw [scAt2, hs (Nat.succ_ne_zero n)]
    exact congrArg (fun x => k2_pay2 _ _ x _) (if_congr (hcond2_0 ⟨n + 1, hn⟩).symm rfl rfl)

theorem PhiA2_eq (c : Dev nD) :
    (Pipeline.ΦA spec2 c : sProp 𝕄)
      = iprop(iprop((∃ d, owns (c : Thread nD τ) scM2 fullShare d) ∗ rest2 c) ∗ (∃ r, prngReg c r)) := by
  unfold Pipeline.ΦA; rw [scopedRest2_split]; simp only [scM2, owns_whole]; try rfl

-- Before any point the scratch holds something; after the first point, what the point before left.
theorem PhiS2_elim (c : Dev nD) (n : ℕ) (h : n ≤ cfg2.N) :
    PhiS2 V c n h ⊢ iprop(∃ s, ⌜∀ h0 : n ≠ 0, s = scAt2 V c (n - 1) (by omega)⌝
      ∗ owns (c : Thread nD τ) scM2 fullShare s ∗ rest2 c ∗ (∃ r, prngReg c r)) := by
  cases n with
  | zero =>
    show Pipeline.ΦA spec2 c ⊢ _
    rw [PhiA2_eq]
    iintro ⟨⟨⟨%s, HS⟩, HR⟩, Hg⟩
    iexists s; isplitr; · ipureintro; exact fun h0 => absurd rfl h0
    isplitl [HS]; · iexact HS
    isplitl [HR]; · iexact HR
    iexact Hg
  | succ n =>
    show iprop(owns (c : Thread nD τ) scM2 fullShare (scAt2 V c n h) ∗ rest2 c ∗ (∃ r, prngReg c r)) ⊢ _
    iintro H
    iexists (scAt2 V c n h); isplitr; · ipureintro; exact fun _ => rfl
    iexact H

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun _ => rfl) t d).trans rfl

abbrev ms2_0 (t : Fin cfg2.N) : Memref sig .tc .vmem S1x4096 .i32 := win2_0.stage (cfg2.slots t 0)
abbrev ms2_1 (t : Fin cfg2.N) : Memref sig .tc .vmem S4096x128 .bf16 := win2_1.stage (cfg2.slots t 1)
abbrev ms2_2 (t : Fin cfg2.N) : Memref sig .tc .vmem S1x128 .f32 := win2_2.stage (cfg2.slots t 2)
abbrev ms2_3 (t : Fin cfg2.N) : Memref sig .tc .vmem S512x128 .f32 := win2_3.stage (cfg2.slots t 3)

-- The output block changes exactly where the second condition holds.
theorem leaves2_3 (c : Dev nD) (t : Fin cfg2.N) :
    (dat2 V c).leavesExact 3 t = if k2_cond2 (grid2.coords t) = 1#1
      then owns (c : Thread nD τ) (ms2_3 t) fullShare ((dat2 V c).after 3 t)
      else iprop(∃ d, owns (c : Thread nD τ) (ms2_3 t) fullShare ((dat2 V c).before 3 t d)) := by
  by_cases h : k2_cond2 (grid2.coords t) = 1#1
  · rw [if_pos h]; unfold Dat.leavesExact
    rw [show cfg2.idle 3 (grid2.coords t) = false from by
      show (!(k2_cond2 (grid2.coords t) == 1#1)) = false; simpa using h]
  · rw [if_neg h]
    exact Dat.leavesExact_idle _ 3 t (by show (!(k2_cond2 (grid2.coords t) == 1#1)) = true; simpa using h)
      (Bool.eq_false_iff.mpr fun hf => h ((hcond2_1 t).mpr ((flush2_3 t).mp hf)))

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

-- The invariant hands the body the scratch and takes it back at this point's contents; all else passes through.
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl, leaves2_3,
    show (dat2 V c).Φ t.succ = iprop(owns (c : Thread nD τ) scM2 fullShare (scAt2 V c t.val t.isLt) ∗ rest2 c
      ∗ (∃ r, prngReg c r)) from rfl]
  refine (sep_mono_left (PhiS2_elim V c t.castSucc.val (Nat.le_of_lt_succ t.castSucc.isLt))).trans ?_
  iintro ⟨⟨%s, %hs, HS, HR⟩, Ho, ⟨%d0, H0⟩, ⟨%d1, H1⟩, ⟨%d2, H2⟩, ⟨%d3, H3⟩⟩
  rw [after2_3, scAt2_eq V c t s hs]
  iapply (run2 c _ _ _ _ _ _ _ _ _ _ _
    (fun h0 h1 => by have := (hcond2_0 t).mp h0; have := (hcond2_1 t).mp h1; omega) (iblk2 V c 0 t) (iblk2 V c 1 t) (iblk2 V c 2 t) _ s Set.univ _)
  isplitl [H0]; · iexact H0
  isplitl [H1]; · iexact H1
  isplitl [H2]; · iexact H2
  isplitl [H3]; · iexact H3
  isplitl [HS]; · iexact HS
  iintro ⟨H0, H1, H2, H3, HS⟩
  isplitl [HS HR]
  · isplitl [HS]; · iexact HS
    iexact HR
  isplitl [Ho]; · iexact Ho
  isplitl [H0]; · iexact H0
  isplitl [H1]; · iexact H1
  isplitl [H2]; · iexact H2
  by_cases h1 : k2_cond2 (grid2.coords t) = 1#1
  · rw [if_pos h1, if_pos h1]; iexact H3
  · rw [if_neg h1, if_neg h1]; iexists _; iexact H3

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := Idealize.SL.BI.Entails.refl _

-- Forgetting what the scratch holds gives back the entry invariant.
theorem hout2 (c : Dev nD) : (dat2 V c).Φ (Fin.last cfg2.N) ⊢ Pipeline.ΦA spec2 c := by
  refine (PhiS2_elim V c (Fin.last cfg2.N).val (Nat.le_of_lt_succ (Fin.last cfg2.N).isLt)).trans ?_
  rw [PhiA2_eq]
  iintro ⟨%s, -, HS, HR, Hg⟩
  isplitl [HS HR]; swap; · iexact Hg
  isplitl [HS]; · iexists _; iexact HS
  iexact HR

end Cert.Kernel.Hand

end
-- ==== Proof.K.R3.lean ====
import proofs.«137339_j11914239279184_1_alg».proof.Proof.Gen.Kernel.Launch
import proofs.«137339_j11914239279184_1_alg».proof.Proof.Gen.Kernel.Skeleton
import proofs.«137339_j11914239279184_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => k3_pay1 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = k3_pay1 (iblk3 V c 0 t) (iblk3 V c 1 t) := by dsimp only [dat3]

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

theorem offs3_zero : (![0, 0] : Fin 2 → Nat) = fun _ => 0 := funext fun a => by fin_cases a <;> rfl

theorem cover3_2 (p : S512x40.Idx → Elt F .bf16) (y : S512x40.Idx) :
    ∃ pc ∈ ([⟨Rect.unit (s := S512x40) ![0, 0] S512x40.size inb_S512x40_S512x40_0_0, p⟩] : List (View.Piece (Elt F) S512x40 .bf16)), y ∈ pc.1.set :=
  ⟨_, List.mem_singleton_self _, View.mem_set_unit_zero offs3_zero inb_S512x40_S512x40_0_0 y⟩

set_option maxHeartbeats 1000000 in

theorem sound_kernel3 (c : Dev nD) (E : Set ℕ) (i : grid3.Coords)
    (arg1 : Memref sig .tc .vmem S512x128 .f32) (harg1 : arg1.IsWhole)
    (arg2 : Memref sig .tc .vmem S128x40 .f32) (harg2 : arg2.IsWhole)
    (arg3 : Memref sig .tc .vmem S512x40 .bf16) (harg3 : arg3.IsWhole)
    (x0 : Vec F S512x128 .f32) (x1 : Vec F S128x40 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (k3_pay1 x0 x1)) -∗ K ⟨⟩))
      ⊢ wp frame (wpE (defs₀ (F := F)) Variants.none c none) E (cc3__matmul_kernel i arg1 harg1 arg2 harg2 arg3 harg3) K := by
  simp only [cc3__matmul_kernel_eq_skeleton]; unfold cc3__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (cover3_2 _), View.canon_unit_zero offs3_zero]
  simp only [View.readAt_eq_ld, View.ld_unit_zero (S := S512x128) offs3_zero, View.ld_unit_zero (S := S128x40) offs3_zero]

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.R4.lean ====
import proofs.«137339_j11914239279184_1_alg».proof.Proof.Gen.Kernel.Launch
import proofs.«137339_j11914239279184_1_alg».proof.Proof.Gen.Kernel.Skeleton
import proofs.«137339_j11914239279184_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev scM4 : Memref sig .tc .vmem S4096x40 .f32 := Memref.whole cc4_scratch0

def scAt4 (c : Dev nD) : (n : ℕ) → n < cfg4.N → Vec F S4096x40 .f32
  | 0, hn => k4_pay2 (grid4.coords ⟨0, hn⟩) (iblk4 V c 0 ⟨0, hn⟩) k4_pay1 (iblk4 V c 2 ⟨0, hn⟩)
  | n + 1, hn => k4_pay2 (grid4.coords ⟨n + 1, hn⟩) (iblk4 V c 0 ⟨n + 1, hn⟩)
      (if (n + 1) % 98 = 0 then k4_pay1 else scAt4 c n (Nat.lt_of_succ_lt hn)) (iblk4 V c 2 ⟨n + 1, hn⟩)

abbrev rest4 (c : Dev nD) : sProp 𝕄 :=
  Pipeline.scopedRestBut (Ix := Unit) (Name := ℕ) (U := UR sig nD τ) (Lvl := ℕ) (Val := Elt F) spec4 c [cc4_scratch0]

def PhiS4 (c : Dev nD) : (n : ℕ) → n ≤ cfg4.N → sProp 𝕄
  | 0, _ => Pipeline.ΦA spec4 c
  | n + 1, hn => iprop(owns (c : Thread nD τ) scM4 fullShare (scAt4 V c n hn) ∗ rest4 c ∗ (∃ r, prngReg c r))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => k4_pay3 (scAt4 V c t.val t.isLt) (iblk4 V c 1 t)
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem after4_3 (c : Dev nD) (t : Fin cfg4.N) :
    (dat4 V c).after 3 t = k4_pay3 (scAt4 V c t.val t.isLt) (iblk4 V c 1 t) := by dsimp only [dat4]

theorem coords4_1 (t : Fin cfg4.N) : ((grid4.coords t) 1).val = t.val % 98 := by
  show t.val / grid4.stride 1 % grid4.bound 1 = t.val % 98
  rw [show grid4.stride 1 = 1 from by decide, Nat.div_one]; rfl

abbrev cond4_0 (i : grid4.Coords) : Prop :=
  (Scalar.cmpi .ne (Scalar.extui (Scalar.cmpi .eq (BitVec.ofNat 32 (i 1).val) 0#32)) 0#32) = 1#1

-- The two conditions compare the node-block coordinate, a number below 98, with 0 and with 97.
theorem hcond4_0 (t : Fin cfg4.N) : cond4_0 (grid4.coords t) ↔ t.val % 98 = 0 :=
  ((by decide +kernel : ∀ k : Fin 98, ((Scalar.cmpi .ne (Scalar.extui (Scalar.cmpi .eq (BitVec.ofNat 32 k.val) 0#32)) 0#32) = 1#1)
    ↔ k.val = 0) (grid4.coords t 1)).trans (by rw [coords4_1 t])

theorem hcond4_1 (t : Fin cfg4.N) : k4_cond2 (grid4.coords t) = 1#1 ↔ t.val % 98 = 97 :=
  ((by decide +kernel : ∀ k : Fin 98, ((Scalar.cmpi .ne (Scalar.extui (Scalar.cmpi .eq (BitVec.ofNat 32 k.val) 97#32)) 0#32) = 1#1)
    ↔ k.val = 97) (grid4.coords t 1)).trans (by rw [coords4_1 t])

theorem hz_r4 : (![0, 0] : Fin 2 → Nat) = fun _ => 0 := funext fun a => by fin_cases a <;> rfl

-- Every point of the buffer lies in the last store's rectangle, so earlier stores and contents are not read.
theorem read_last_r4 {sg : RefSig} {κ : Kind} {sp : Space} {S : Shape} {e : EltTy} (v : View sg κ sp S e)
    (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon v f _ (fun y => ⟨⟨Rect.unit off S.size inb, w⟩, List.mem_cons.mpr (Or.inl rfl),
    View.mem_set_unit_zero h inb y⟩), View.canon_cons_unit_zero h]

set_option maxHeartbeats 1000000 in
-- The scratch restarts from zero where the first condition holds; the output is written only where the second does.
theorem run4 (c : Dev nD) (i : grid4.Coords)
    (arg2 : Memref sig .tc .vmem S4096x1 .i32) (harg2 : arg2.IsWhole)
    (arg3 : Memref sig .tc .vmem S4096x1 .f32) (harg3 : arg3.IsWhole)
    (arg4 : Memref sig .tc .vmem S512x40 .bf16) (harg4 : arg4.IsWhole)
    (arg5 : Memref sig .tc .vmem S4096x40 .bf16) (harg5 : arg5.IsWhole)
    (arg6 : Memref sig .tc .vmem S4096x40 .f32) (harg6 : arg6.IsWhole) (h01 : cond4_0 i → ¬k4_cond2 i = 1#1)
    (src : Vec F S4096x1 .i32) (nrm : Vec F S4096x1 .f32) (h : Vec F S512x40 .bf16) (o : Vec F S4096x40 .bf16)
    (s : Vec F S4096x40 .f32)
    (E : Set ℕ) (K : PUnit → sProp 𝕄) :
    iprop(owns (c : Thread nD τ) arg2 fullShare src ∗ owns (c : Thread nD τ) arg3 fullShare nrm
        ∗ owns (c : Thread nD τ) arg4 fullShare h ∗ owns (c : Thread nD τ) arg5 fullShare o
        ∗ owns (c : Thread nD τ) arg6 fullShare s
        ∗ (iprop(owns (c : Thread nD τ) arg2 fullShare src ∗ owns (c : Thread nD τ) arg3 fullShare nrm
            ∗ owns (c : Thread nD τ) arg4 fullShare h
            ∗ owns (c : Thread nD τ) arg5 fullShare (if k4_cond2 i = 1#1 then
                k4_pay3 (k4_pay2 i src (if cond4_0 i then k4_pay1 else s) h) nrm else o)
            ∗ owns (c : Thread nD τ) arg6 fullShare (k4_pay2 i src (if cond4_0 i then k4_pay1 else s) h)) -∗ K ⟨⟩))
      ⊢ wp frame (wpE (defs₀ (F := F)) Variants.none c none) E
          (cc4__gather_kernel i arg2 harg2 arg3 harg3 arg4 harg4 arg5 harg5 arg6 harg6) K := by
  by_cases hc0 : cond4_0 i <;> by_cases hc1 : k4_cond2 i = 1#1
  · exact absurd hc1 (h01 hc0)
  all_goals
    first | rw [if_pos hc0] | rw [if_neg hc0]
    first | rw [if_pos hc1] | rw [if_neg hc1]
    simp only [cc4__gather_kernel_eq_skeleton]; unfold cc4__gather_kernel_skel owns
    iintro ⟨⟨%f2, %hf2, H2⟩, ⟨%f3, %hf3, H3⟩, ⟨%f4, %hf4, H4⟩, ⟨%f5, %hf5, H5⟩, ⟨%f6, %hf6, H6⟩, Hk⟩
    obtain rfl := harg2.eq_unread hf2; obtain rfl := harg3.eq_unread hf3; obtain rfl := harg4.eq_unread hf4
    obtain rfl := harg5.eq_unread hf5; obtain rfl := harg6.eq_unread hf6
    sl_exec
    sl_step
    iapply Hk
    isplitl [H2]; swap; isplitl [H3]; swap; isplitl [H4]; swap; isplitl [H5]; swap
    all_goals
      iexists _; isplitr; swap; · iassumption
      ipureintro
      first
      | sl_unfold_words
        rw [read_last_r4 (S := S4096x40) _ _ hz_r4]
        simp only [View.readAt_eq_ld, harg2.read_unread, harg3.read_unread, harg4.read_unread, harg6.read_unread,
          View.ld_unit_zero (S := S4096x1) hz_r4, View.ld_unit_zero (S := S512x40) hz_r4,
          View.ld_unit_zero (S := S4096x40) hz_r4, View.readCov_unit_zero (S := S4096x40) _ hz_r4]
      | exact Memref.IsWhole.read_unread _ _

-- The scratch after a point is the product added to zero at a first node block, else to what the point before left.
theorem scAt4_eq (c : Dev nD) (t : Fin cfg4.N) (s : Vec F S4096x40 .f32)
    (hs : ∀ h0 : t.val ≠ 0, s = scAt4 V c (t.val - 1) (Nat.lt_of_le_of_lt (Nat.sub_le _ _) t.isLt)) :
    scAt4 V c t.val t.isLt
      = k4_pay2 (grid4.coords t) (iblk4 V c 0 t) (if cond4_0 (grid4.coords t) then k4_pay1 else s) (iblk4 V c 2 t) := by
  obtain ⟨n, hn⟩ := t
  cases n with
  | zero => rw [if_pos ((hcond4_0 ⟨0, hn⟩).mpr rfl)]; rfl
  | succ n =>
    show scAt4 V c (n + 1) hn = _
    rw [scAt4, hs (Nat.succ_ne_zero n)]
    exact congrArg (fun x => k4_pay2 _ _ x _) (if_congr (hcond4_0 ⟨n + 1, hn⟩).symm rfl rfl)

theorem PhiA4_eq (c : Dev nD) :
    (Pipeline.ΦA spec4 c : sProp 𝕄)
      = iprop(iprop((∃ d, owns (c : Thread nD τ) scM4 fullShare d) ∗ rest4 c) ∗ (∃ r, prngReg c r)) := by
  unfold Pipeline.ΦA; rw [scopedRest4_split]; simp only [scM4, owns_whole]; try rfl

-- Before any point the scratch holds something; after the first point, what the point before left.
theorem PhiS4_elim (c : Dev nD) (n : ℕ) (h : n ≤ cfg4.N) :
    PhiS4 V c n h ⊢ iprop(∃ s, ⌜∀ h0 : n ≠ 0, s = scAt4 V c (n - 1) (by omega)⌝
      ∗ owns (c : Thread nD τ) scM4 fullShare s ∗ rest4 c ∗ (∃ r, prngReg c r)) := by
  cases n with
  | zero =>
    show Pipeline.ΦA spec4 c ⊢ _
    rw [PhiA4_eq]
    iintro ⟨⟨⟨%s, HS⟩, HR⟩, Hg⟩
    iexists s; isplitr; · ipureintro; exact fun h0 => absurd rfl h0
    isplitl [HS]; · iexact HS
    isplitl [HR]; · iexact HR
    iexact Hg
  | succ n =>
    show iprop(owns (c : Thread nD τ) scM4 fullShare (scAt4 V c n h) ∗ rest4 c ∗ (∃ r, prngReg c r)) ⊢ _
    iintro H
    iexists (scAt4 V c n h); isplitr; · ipureintro; exact fun _ => rfl
    iexact H

theorem before4_0 (c : Dev nD) (t : Fin cfg4.N) (d) : (dat4 V c).before 0 t d = iblk4 V c 0 t :=
  ((dat4 V c).before_in_eq_fetched 0 rfl (fun _ => rfl) (fun _ _ _ => rfl) (fun _ => rfl) t d).trans rfl
theorem before4_1 (c : Dev nD) (t : Fin cfg4.N) (d) : (dat4 V c).before 1 t d = iblk4 V c 1 t :=
  ((dat4 V c).before_in_eq_fetched 1 rfl (fun _ => rfl) (fun _ _ _ => rfl) (fun _ => rfl) t d).trans rfl
theorem before4_2 (c : Dev nD) (t : Fin cfg4.N) (d) : (dat4 V c).before 2 t d = iblk4 V c 2 t :=
  ((dat4 V c).before_in_eq_fetched 2 rfl (fun _ => rfl) (fun _ _ _ => rfl) (fun _ => rfl) t d).trans rfl

abbrev ms4_0 (t : Fin cfg4.N) : Memref sig .tc .vmem S4096x1 .i32 := win4_0.stage (cfg4.slots t 0)
abbrev ms4_1 (t : Fin cfg4.N) : Memref sig .tc .vmem S4096x1 .f32 := win4_1.stage (cfg4.slots t 1)
abbrev ms4_2 (t : Fin cfg4.N) : Memref sig .tc .vmem S512x40 .bf16 := win4_2.stage (cfg4.slots t 2)
abbrev ms4_3 (t : Fin cfg4.N) : Memref sig .tc .vmem S4096x40 .bf16 := win4_3.stage (cfg4.slots t 3)

-- The output block changes exactly where the second condition holds.
theorem leaves4_3 (c : Dev nD) (t : Fin cfg4.N) :
    (dat4 V c).leavesExact 3 t = if k4_cond2 (grid4.coords t) = 1#1
      then owns (c : Thread nD τ) (ms4_3 t) fullShare ((dat4 V c).after 3 t)
      else iprop(∃ d, owns (c : Thread nD τ) (ms4_3 t) fullShare ((dat4 V c).before 3 t d)) := by
  by_cases h : k4_cond2 (grid4.coords t) = 1#1
  · rw [if_pos h]; unfold Dat.leavesExact
    rw [show cfg4.idle 3 (grid4.coords t) = false from by
      show (!(k4_cond2 (grid4.coords t) == 1#1)) = false; simpa using h]
  · rw [if_neg h]
    exact Dat.leavesExact_idle _ 3 t (by show (!(k4_cond2 (grid4.coords t) == 1#1)) = true; simpa using h)
      (Bool.eq_false_iff.mpr fun hf => h ((hcond4_1 t).mpr ((flush4_3 t).mp hf)))

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

-- The invariant hands the body the scratch and takes it back at this point's contents; all else passes through.
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl, leaves4_3,
    show (dat4 V c).Φ t.succ = iprop(owns (c : Thread nD τ) scM4 fullShare (scAt4 V c t.val t.isLt) ∗ rest4 c
      ∗ (∃ r, prngReg c r)) from rfl]
  refine (sep_mono_left (PhiS4_elim V c t.castSucc.val (Nat.le_of_lt_succ t.castSucc.isLt))).trans ?_
  iintro ⟨⟨%s, %hs, HS, HR⟩, Ho, ⟨%d0, H0⟩, ⟨%d1, H1⟩, ⟨%d2, H2⟩, ⟨%d3, H3⟩⟩
  rw [after4_3, scAt4_eq V c t s hs]
  iapply (run4 c _ _ _ _ _ _ _ _ _ _ _
    (fun h0 h1 => by have := (hcond4_0 t).mp h0; have := (hcond4_1 t).mp h1; omega) (iblk4 V c 0 t) (iblk4 V c 1 t) (iblk4 V c 2 t) _ s Set.univ _)
  isplitl [H0]; · iexact H0
  isplitl [H1]; · iexact H1
  isplitl [H2]; · iexact H2
  isplitl [H3]; · iexact H3
  isplitl [HS]; · iexact HS
  iintro ⟨H0, H1, H2, H3, HS⟩
  isplitl [HS HR]
  · isplitl [HS]; · iexact HS
    iexact HR
  isplitl [Ho]; · iexact Ho
  isplitl [H0]; · iexact H0
  isplitl [H1]; · iexact H1
  isplitl [H2]; · iexact H2
  by_cases h1 : k4_cond2 (grid4.coords t) = 1#1
  · rw [if_pos h1, if_pos h1]; iexact H3
  · rw [if_neg h1, if_neg h1]; iexists _; iexact H3

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := Idealize.SL.BI.Entails.refl _

-- Forgetting what the scratch holds gives back the entry invariant.
theorem hout4 (c : Dev nD) : (dat4 V c).Φ (Fin.last cfg4.N) ⊢ Pipeline.ΦA spec4 c := by
  refine (PhiS4_elim V c (Fin.last cfg4.N).val (Nat.le_of_lt_succ (Fin.last cfg4.N).isLt)).trans ?_
  rw [PhiA4_eq]
  iintro ⟨%s, -, HS, HR, Hg⟩
  isplitl [HS HR]; swap; · iexact Hg
  isplitl [HS]; · iexists _; iexact HS
  iexact HR

end Cert.Kernel.Hand

end
-- ==== Proof.K.R5.lean ====
import proofs.«137339_j11914239279184_1_alg».proof.Proof.Gen.Kernel.Launch
import proofs.«137339_j11914239279184_1_alg».proof.Proof.Gen.Kernel.Skeleton
import proofs.«137339_j11914239279184_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev scM5 : Memref sig .tc .vmem S512x40 .f32 := Memref.whole cc5_scratch0

def scAt5 (c : Dev nD) : (n : ℕ) → n < cfg5.N → Vec F S512x40 .f32
  | 0, hn => k5_pay2 (grid5.coords ⟨0, hn⟩) (iblk5 V c 0 ⟨0, hn⟩) k5_pay1 (iblk5 V c 1 ⟨0, hn⟩)
  | n + 1, hn => k5_pay2 (grid5.coords ⟨n + 1, hn⟩) (iblk5 V c 0 ⟨n + 1, hn⟩)
      (if (n + 1) % 208 = 0 then k5_pay1 else scAt5 c n (Nat.lt_of_succ_lt hn)) (iblk5 V c 1 ⟨n + 1, hn⟩)

abbrev rest5 (c : Dev nD) : sProp 𝕄 :=
  Pipeline.scopedRestBut (Ix := Unit) (Name := ℕ) (U := UR sig nD τ) (Lvl := ℕ) (Val := Elt F) spec5 c [cc5_scratch0]

def PhiS5 (c : Dev nD) : (n : ℕ) → n ≤ cfg5.N → sProp 𝕄
  | 0, _ => Pipeline.ΦA spec5 c
  | n + 1, hn => iprop(owns (c : Thread nD τ) scM5 fullShare (scAt5 V c n hn) ∗ rest5 c ∗ (∃ r, prngReg c r))

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => k5_pay3 (scAt5 V c t.val t.isLt) (iblk5 V c 2 t)
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]
theorem after5_3 (c : Dev nD) (t : Fin cfg5.N) :
    (dat5 V c).after 3 t = k5_pay3 (scAt5 V c t.val t.isLt) (iblk5 V c 2 t) := by dsimp only [dat5]

theorem coords5_1 (t : Fin cfg5.N) : ((grid5.coords t) 1).val = t.val % 208 := by
  show t.val / grid5.stride 1 % 208 = t.val % 208
  rw [show grid5.stride 1 = 1 from by decide, Nat.div_one]

abbrev cond5_0 (i : grid5.Coords) : Prop :=
  (Scalar.cmpi .ne (Scalar.extui (Scalar.cmpi .eq (BitVec.ofNat 32 (i 1).val) 0#32)) 0#32) = 1#1

-- The two conditions compare the edge-block coordinate, a number below 208, with 0 and with 207.
theorem hcond5_0 (t : Fin cfg5.N) : cond5_0 (grid5.coords t) ↔ t.val % 208 = 0 :=
  ((by decide +kernel : ∀ k : Fin 208, ((Scalar.cmpi .ne (Scalar.extui (Scalar.cmpi .eq (BitVec.ofNat 32 k.val) 0#32)) 0#32) = 1#1)
    ↔ k.val = 0) (grid5.coords t 1)).trans (by rw [coords5_1 t])

theorem hcond5_1 (t : Fin cfg5.N) : k5_cond2 (grid5.coords t) = 1#1 ↔ t.val % 208 = 207 :=
  ((by decide +kernel : ∀ k : Fin 208, ((Scalar.cmpi .ne (Scalar.extui (Scalar.cmpi .eq (BitVec.ofNat 32 k.val) 207#32)) 0#32) = 1#1)
    ↔ k.val = 207) (grid5.coords t 1)).trans (by rw [coords5_1 t])

theorem hz_r5 : (![0, 0] : Fin 2 → Nat) = fun _ => 0 := funext fun a => by fin_cases a <;> rfl

-- Every point of the buffer lies in the last store's rectangle, so earlier stores and contents are not read.
theorem read_last_r5 {sg : RefSig} {κ : Kind} {sp : Space} {S : Shape} {e : EltTy} (v : View sg κ sp S e)
    (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon v f _ (fun y => ⟨⟨Rect.unit off S.size inb, w⟩, List.mem_cons.mpr (Or.inl rfl),
    View.mem_set_unit_zero h inb y⟩), View.canon_cons_unit_zero h]

set_option maxHeartbeats 1000000 in
-- The scratch restarts from zero where the first condition holds; the output is written only where the second does.
theorem run5 (c : Dev nD) (i : grid5.Coords)
    (arg2 : Memref sig .tc .vmem S1x4096 .i32) (harg2 : arg2.IsWhole)
    (arg3 : Memref sig .tc .vmem S4096x40 .bf16) (harg3 : arg3.IsWhole)
    (arg4 : Memref sig .tc .vmem S1x40 .f32) (harg4 : arg4.IsWhole)
    (arg5 : Memref sig .tc .vmem S512x40 .f32) (harg5 : arg5.IsWhole)
    (arg6 : Memref sig .tc .vmem S512x40 .f32) (harg6 : arg6.IsWhole) (h01 : cond5_0 i → ¬k5_cond2 i = 1#1)
    (dst : Vec F S1x4096 .i32) (msg : Vec F S4096x40 .bf16) (bias : Vec F S1x40 .f32) (o s : Vec F S512x40 .f32)
    (E : Set ℕ) (K : PUnit → sProp 𝕄) :
    iprop(owns (c : Thread nD τ) arg2 fullShare dst ∗ owns (c : Thread nD τ) arg3 fullShare msg
        ∗ owns (c : Thread nD τ) arg4 fullShare bias ∗ owns (c : Thread nD τ) arg5 fullShare o
        ∗ owns (c : Thread nD τ) arg6 fullShare s
        ∗ (iprop(owns (c : Thread nD τ) arg2 fullShare dst ∗ owns (c : Thread nD τ) arg3 fullShare msg
            ∗ owns (c : Thread nD τ) arg4 fullShare bias
            ∗ owns (c : Thread nD τ) arg5 fullShare (if k5_cond2 i = 1#1 then
                k5_pay3 (k5_pay2 i dst (if cond5_0 i then k5_pay1 else s) msg) bias else o)
            ∗ owns (c : Thread nD τ) arg6 fullShare (k5_pay2 i dst (if cond5_0 i then k5_pay1 else s) msg)) -∗ K ⟨⟩))
      ⊢ wp frame (wpE (defs₀ (F := F)) Variants.none c none) E
          (cc5__scatter_kernel i arg2 harg2 arg3 harg3 arg4 harg4 arg5 harg5 arg6 harg6) K := by
  by_cases hc0 : cond5_0 i <;> by_cases hc1 : k5_cond2 i = 1#1
  · exact absurd hc1 (h01 hc0)
  all_goals
    first | rw [if_pos hc0] | rw [if_neg hc0]
    first | rw [if_pos hc1] | rw [if_neg hc1]
    simp only [cc5__scatter_kernel_eq_skeleton]; unfold cc5__scatter_kernel_skel owns
    iintro ⟨⟨%f2, %hf2, H2⟩, ⟨%f3, %hf3, H3⟩, ⟨%f4, %hf4, H4⟩, ⟨%f5, %hf5, H5⟩, ⟨%f6, %hf6, H6⟩, Hk⟩
    obtain rfl := harg2.eq_unread hf2; obtain rfl := harg3.eq_unread hf3; obtain rfl := harg4.eq_unread hf4
    obtain rfl := harg5.eq_unread hf5; obtain rfl := harg6.eq_unread hf6
    sl_exec
    sl_step
    iapply Hk
    isplitl [H2]; swap; isplitl [H3]; swap; isplitl [H4]; swap; isplitl [H5]; swap
    all_goals
      iexists _; isplitr; swap; · iassumption
      ipureintro
      first
      | sl_unfold_run_names
        rw [read_last_r5 (S := S512x40) _ _ hz_r5]
        simp only [View.readAt_eq_ld, harg2.read_unread, harg3.read_unread, harg4.read_unread, harg6.read_unread,
          View.ld_unit_zero (S := S1x4096) hz_r5, View.ld_unit_zero (S := S4096x40) hz_r5,
          View.ld_unit_zero (S := S1x40) hz_r5, View.ld_unit_zero (S := S512x40) hz_r5,
          View.readCov_unit_zero (S := S512x40) _ hz_r5]
      | exact Memref.IsWhole.read_unread _ _

-- The scratch after a point is the product added to zero at a first edge block, else to what the point before left.
theorem scAt5_eq (c : Dev nD) (t : Fin cfg5.N) (s : Vec F S512x40 .f32)
    (hs : ∀ h0 : t.val ≠ 0, s = scAt5 V c (t.val - 1) (Nat.lt_of_le_of_lt (Nat.sub_le _ _) t.isLt)) :
    scAt5 V c t.val t.isLt
      = k5_pay2 (grid5.coords t) (iblk5 V c 0 t) (if cond5_0 (grid5.coords t) then k5_pay1 else s) (iblk5 V c 1 t) := by
  obtain ⟨n, hn⟩ := t
  cases n with
  | zero => rw [if_pos ((hcond5_0 ⟨0, hn⟩).mpr rfl)]; rfl
  | succ n =>
    show scAt5 V c (n + 1) hn = _
    rw [scAt5, hs (Nat.succ_ne_zero n)]
    exact congrArg (fun x => k5_pay2 _ _ x _) (if_congr (hcond5_0 ⟨n + 1, hn⟩).symm rfl rfl)

theorem PhiA5_eq (c : Dev nD) :
    (Pipeline.ΦA spec5 c : sProp 𝕄)
      = iprop(iprop((∃ d, owns (c : Thread nD τ) scM5 fullShare d) ∗ rest5 c) ∗ (∃ r, prngReg c r)) := by
  unfold Pipeline.ΦA; rw [scopedRest5_split]; simp only [scM5, owns_whole]; try rfl

-- Before any point the scratch holds something; after the first point, what the point before left.
theorem PhiS5_elim (c : Dev nD) (n : ℕ) (h : n ≤ cfg5.N) :
    PhiS5 V c n h ⊢ iprop(∃ s, ⌜∀ h0 : n ≠ 0, s = scAt5 V c (n - 1) (by omega)⌝
      ∗ owns (c : Thread nD τ) scM5 fullShare s ∗ rest5 c ∗ (∃ r, prngReg c r)) := by
  cases n with
  | zero =>
    show Pipeline.ΦA spec5 c ⊢ _
    rw [PhiA5_eq]
    iintro ⟨⟨⟨%s, HS⟩, HR⟩, Hg⟩
    iexists s; isplitr; · ipureintro; exact fun h0 => absurd rfl h0
    isplitl [HS]; · iexact HS
    isplitl [HR]; · iexact HR
    iexact Hg
  | succ n =>
    show iprop(owns (c : Thread nD τ) scM5 fullShare (scAt5 V c n h) ∗ rest5 c ∗ (∃ r, prngReg c r)) ⊢ _
    iintro H
    iexists (scAt5 V c n h); isplitr; · ipureintro; exact fun _ => rfl
    iexact H

theorem before5_0 (c : Dev nD) (t : Fin cfg5.N) (d) : (dat5 V c).before 0 t d = iblk5 V c 0 t :=
  ((dat5 V c).before_in_eq_fetched 0 rfl (fun _ => rfl) (fun _ _ _ => rfl) (fun _ => rfl) t d).trans rfl
theorem before5_1 (c : Dev nD) (t : Fin cfg5.N) (d) : (dat5 V c).before 1 t d = iblk5 V c 1 t :=
  ((dat5 V c).before_in_eq_fetched 1 rfl (fun _ => rfl) (fun _ _ _ => rfl) (fun _ => rfl) t d).trans rfl
theorem before5_2 (c : Dev nD) (t : Fin cfg5.N) (d) : (dat5 V c).before 2 t d = iblk5 V c 2 t :=
  ((dat5 V c).before_in_eq_fetched 2 rfl (fun _ => rfl) (fun _ _ _ => rfl) (fun _ => rfl) t d).trans rfl

abbrev ms5_0 (t : Fin cfg5.N) : Memref sig .tc .vmem S1x4096 .i32 := win5_0.stage (cfg5.slots t 0)
abbrev ms5_1 (t : Fin cfg5.N) : Memref sig .tc .vmem S4096x40 .bf16 := win5_1.stage (cfg5.slots t 1)
abbrev ms5_2 (t : Fin cfg5.N) : Memref sig .tc .vmem S1x40 .f32 := win5_2.stage (cfg5.slots t 2)
abbrev ms5_3 (t : Fin cfg5.N) : Memref sig .tc .vmem S512x40 .f32 := win5_3.stage (cfg5.slots t 3)

-- The output block changes exactly where the second condition holds.
theorem leaves5_3 (c : Dev nD) (t : Fin cfg5.N) :
    (dat5 V c).leavesExact 3 t = if k5_cond2 (grid5.coords t) = 1#1
      then owns (c : Thread nD τ) (ms5_3 t) fullShare ((dat5 V c).after 3 t)
      else iprop(∃ d, owns (c : Thread nD τ) (ms5_3 t) fullShare ((dat5 V c).before 3 t d)) := by
  by_cases h : k5_cond2 (grid5.coords t) = 1#1
  · rw [if_pos h]; unfold Dat.leavesExact
    rw [show cfg5.idle 3 (grid5.coords t) = false from by
      show (!(k5_cond2 (grid5.coords t) == 1#1)) = false; simpa using h]
  · rw [if_neg h]
    exact Dat.leavesExact_idle _ 3 t (by show (!(k5_cond2 (grid5.coords t) == 1#1)) = true; simpa using h)
      (Bool.eq_false_iff.mpr fun hf => h ((hcond5_1 t).mpr ((flush5_3 t).mp hf)))

def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t)

-- The invariant hands the body the scratch and takes it back at this point's contents; all else passes through.
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).owesAt () t.succ = (dat5 V c).owesAt () t.castSucc from rfl, leaves5_3,
    show (dat5 V c).Φ t.succ = iprop(owns (c : Thread nD τ) scM5 fullShare (scAt5 V c t.val t.isLt) ∗ rest5 c
      ∗ (∃ r, prngReg c r)) from rfl]
  refine (sep_mono_left (PhiS5_elim V c t.castSucc.val (Nat.le_of_lt_succ t.castSucc.isLt))).trans ?_
  iintro ⟨⟨%s, %hs, HS, HR⟩, Ho, ⟨%d0, H0⟩, ⟨%d1, H1⟩, ⟨%d2, H2⟩, ⟨%d3, H3⟩⟩
  rw [after5_3, scAt5_eq V c t s hs]
  iapply (run5 c _ _ _ _ _ _ _ _ _ _ _
    (fun h0 h1 => by have := (hcond5_0 t).mp h0; have := (hcond5_1 t).mp h1; omega) (iblk5 V c 0 t) (iblk5 V c 1 t) (iblk5 V c 2 t) _ s Set.univ _)
  isplitl [H0]; · iexact H0
  isplitl [H1]; · iexact H1
  isplitl [H2]; · iexact H2
  isplitl [H3]; · iexact H3
  isplitl [HS]; · iexact HS
  iintro ⟨H0, H1, H2, H3, HS⟩
  isplitl [HS HR]
  · isplitl [HS]; · iexact HS
    iexact HR
  isplitl [Ho]; · iexact Ho
  isplitl [H0]; · iexact H0
  isplitl [H1]; · iexact H1
  isplitl [H2]; · iexact H2
  by_cases h1 : k5_cond2 (grid5.coords t) = 1#1
  · rw [if_pos h1, if_pos h1]; iexact H3
  · rw [if_neg h1, if_neg h1]; iexists _; iexact H3

theorem body_obligation5 (c : Dev nD) : BodyObligation (dat5 (F := F) V c) (defs₀ (F := F)) Variants.none () Set.univ := fun t => by
  rw [bigSep_W5, bigSep_W5]
  exact sound_body5 V c t

theorem hin5 (c : Dev nD) : Pipeline.ΦA spec5 c ⊢ (dat5 V c).Φ 0 := Idealize.SL.BI.Entails.refl _

-- Forgetting what the scratch holds gives back the entry invariant.
theorem hout5 (c : Dev nD) : (dat5 V c).Φ (Fin.last cfg5.N) ⊢ Pipeline.ΦA spec5 c := by
  refine (PhiS5_elim V c (Fin.last cfg5.N).val (Nat.le_of_lt_succ (Fin.last cfg5.N).isLt)).trans ?_
  rw [PhiA5_eq]
  iintro ⟨%s, -, HS, HR, Hg⟩
  isplitl [HS HR]; swap; · iexact Hg
  isplitl [HS]; · iexists _; iexact HS
  iexact HR

end Cert.Kernel.Hand

end
-- ==== Proof.K.Run.lean ====
import proofs.«137339_j11914239279184_1_alg».proof.Proof.Gen.Kernel.Regions
import proofs.«137339_j11914239279184_1_alg».proof.Proof.K.R0
import proofs.«137339_j11914239279184_1_alg».proof.Proof.K.R1
import proofs.«137339_j11914239279184_1_alg».proof.Proof.K.R2
import proofs.«137339_j11914239279184_1_alg».proof.Proof.K.R3
import proofs.«137339_j11914239279184_1_alg».proof.Proof.K.R4
import proofs.«137339_j11914239279184_1_alg».proof.Proof.K.R5

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- A valuation read at the core's references.
abbrev tcv (W : Dev nD → Valuation τ sig (Elt F)) : (c : Dev nD) → (b : Ref sig .tc) → Buf (Elt F) ((c : Thread nD τ).loc b) :=
  fun c b => W c b

-- After a region every buffer is as before it, except the region's output array, which holds what its write-backs left.
def X12 (c : Dev nD) : Valuation τ sig (Elt F) :=
  Function.update (V11 m c) main_v40 ((dat0 (tcv (V11 m)) c).arrAt 2 cfg0.N)

def X13 (c : Dev nD) : Valuation τ sig (Elt F) :=
  Function.update (X12 m c) main_v41 ((dat1 (tcv (X12 m)) c).arrAt 3 cfg1.N)

def X14 (c : Dev nD) : Valuation τ sig (Elt F) :=
  Function.update (X13 m c) main_v42 ((dat2 (tcv (X13 m)) c).arrAt 3 cfg2.N)

def X15 (c : Dev nD) : Valuation τ sig (Elt F) :=
  Function.update (X14 m c) main_v43 ((dat3 (tcv (X14 m)) c).arrAt 2 cfg3.N)

def X16 (c : Dev nD) : Valuation τ sig (Elt F) :=
  Function.update (X15 m c) main_v44 ((dat4 (tcv (X15 m)) c).arrAt 3 cfg4.N)

def X17 (c : Dev nD) : Valuation τ sig (Elt F) :=
  Function.update (X16 m c) main_v45 ((dat5 (tcv (X16 m)) c).arrAt 3 cfg5.N)

def outs : Outs (F := F) := fun J r c =>
  match J with
  | 12 => X12 m c r
  | 13 => X13 m c r
  | 14 => X14 m c r
  | 15 => X15 m c r
  | 16 => X16 m c r
  | _ => X17 m c r

theorem X12_of (c : Dev nD) (r : Ref sig .tc) (h : r ≠ main_v40) : X12 m c r = V11 m c r := by
  unfold X12
  exact Function.update_of_ne (StableHlo.devRef_ne_of_ne h) _ _

theorem X12_out (c : Dev nD) : X12 m c main_v40 = (dat0 (tcv (V11 m)) c).arrAt 2 cfg0.N := by
  unfold X12
  exact Function.update_self _ _ _

theorem X13_of (c : Dev nD) (r : Ref sig .tc) (h : r ≠ main_v41) : X13 m c r = X12 m c r := by
  unfold X13
  exact Function.update_of_ne (StableHlo.devRef_ne_of_ne h) _ _

theorem X13_out (c : Dev nD) : X13 m c main_v41 = (dat1 (tcv (X12 m)) c).arrAt 3 cfg1.N := by
  unfold X13
  exact Function.update_self _ _ _

theorem X14_of (c : Dev nD) (r : Ref sig .tc) (h : r ≠ main_v42) : X14 m c r = X13 m c r := by
  unfold X14
  exact Function.update_of_ne (StableHlo.devRef_ne_of_ne h) _ _

theorem X14_out (c : Dev nD) : X14 m c main_v42 = (dat2 (tcv (X13 m)) c).arrAt 3 cfg2.N := by
  unfold X14
  exact Function.update_self _ _ _

theorem X15_of (c : Dev nD) (r : Ref sig .tc) (h : r ≠ main_v43) : X15 m c r = X14 m c r := by
  unfold X15
  exact Function.update_of_ne (StableHlo.devRef_ne_of_ne h) _ _

theorem X15_out (c : Dev nD) : X15 m c main_v43 = (dat3 (tcv (X14 m)) c).arrAt 2 cfg3.N := by
  unfold X15
  exact Function.update_self _ _ _

theorem X16_of (c : Dev nD) (r : Ref sig .tc) (h : r ≠ main_v44) : X16 m c r = X15 m c r := by
  unfold X16
  exact Function.update_of_ne (StableHlo.devRef_ne_of_ne h) _ _

theorem X16_out (c : Dev nD) : X16 m c main_v44 = (dat4 (tcv (X15 m)) c).arrAt 3 cfg4.N := by
  unfold X16
  exact Function.update_self _ _ _

theorem X17_of (c : Dev nD) (r : Ref sig .tc) (h : r ≠ main_v45) : X17 m c r = X16 m c r := by
  unfold X17
  exact Function.update_of_ne (StableHlo.devRef_ne_of_ne h) _ _

theorem X17_out (c : Dev nD) : X17 m c main_v45 = (dat5 (tcv (X16 m)) c).arrAt 3 cfg5.N := by
  unfold X17
  exact Function.update_self _ _ _

theorem V12_eq (c : Dev nD) : V12 m (outs m) c = X12 m c := by
  show Function.update (V11 m c) main_v40 (X12 m c main_v40) = X12 m c
  rw [X12_out m c]
  rfl

theorem V13_eq (c : Dev nD) : V13 m (outs m) c = X13 m c := by
  show Function.update (V12 m (outs m) c) main_v41 (X13 m c main_v41) = X13 m c
  rw [V12_eq m c, X13_out m c]
  rfl

theorem V14_eq (c : Dev nD) : V14 m (outs m) c = X14 m c := by
  show Function.update (V13 m (outs m) c) main_v42 (X14 m c main_v42) = X14 m c
  rw [V13_eq m c, X14_out m c]
  rfl

theorem V15_eq (c : Dev nD) : V15 m (outs m) c = X15 m c := by
  show Function.update (V14 m (outs m) c) main_v43 (X15 m c main_v43) = X15 m c
  rw [V14_eq m c, X15_out m c]
  rfl

theorem V16_eq (c : Dev nD) : V16 m (outs m) c = X16 m c := by
  show Function.update (V15 m (outs m) c) main_v44 (X16 m c main_v44) = X16 m c
  rw [V15_eq m c, X16_out m c]
  rfl

theorem V17_eq (c : Dev nD) : V17 m (outs m) c = X17 m c := by
  show Function.update (V16 m (outs m) c) main_v45 (X17 m c main_v45) = X17 m c
  rw [V16_eq m c, X17_out m c]
  rfl

set_option maxHeartbeats 1000000 in
-- At its exit a region's input arrays are unchanged and its output array is the updated buffer; no other buffer moves.
theorem hF0 (c : Dev nD) : ∀ w : Fin 3,
    (dat0 (tcv (V11 m)) c).arrAt w cfg0.N = tcv (X12 m) c (Pipeline.arrRef spec0 w)
  | ⟨0, _⟩ => ((dat0 (tcv (V11 m)) c).arrAt_in 0 rfl _).trans ((A_eq0 (tcv (V11 m)) c 0).trans (X12_of m c main_v37 (by decide)).symm)
  | ⟨1, _⟩ => ((dat0 (tcv (V11 m)) c).arrAt_in 1 rfl _).trans ((A_eq0 (tcv (V11 m)) c 1).trans (X12_of m c main_arg2 (by decide)).symm)
  | ⟨2, _⟩ => (X12_out m c).symm
theorem hrest0 (c : Dev nD) : ∀ b, b ∉ Finset.univ.image (Pipeline.arrRef spec0) → tcv (X12 m) c b = tcv (V11 m) c b :=
  fun b hb => X12_of m c b (fun e => hb (Finset.mem_image.mpr ⟨2, Finset.mem_univ _, e.symm⟩))

set_option maxHeartbeats 1000000 in
theorem hF1 (c : Dev nD) : ∀ w : Fin 4,
    (dat1 (tcv (X12 m)) c).arrAt w cfg1.N = tcv (X13 m) c (Pipeline.arrRef spec1 w)
  | ⟨0, _⟩ => ((dat1 (tcv (X12 m)) c).arrAt_in 0 rfl _).trans ((A_eq1 (tcv (X12 m)) c 0).trans (X13_of m c main_v34 (by decide)).symm)
  | ⟨1, _⟩ => ((dat1 (tcv (X12 m)) c).arrAt_in 1 rfl _).trans ((A_eq1 (tcv (X12 m)) c 1).trans (X13_of m c main_v36 (by decide)).symm)
  | ⟨2, _⟩ => ((dat1 (tcv (X12 m)) c).arrAt_in 2 rfl _).trans ((A_eq1 (tcv (X12 m)) c 2).trans (X13_of m c main_v40 (by decide)).symm)
  | ⟨3, _⟩ => (X13_out m c).symm
theorem hrest1 (c : Dev nD) : ∀ b, b ∉ Finset.univ.image (Pipeline.arrRef spec1) → tcv (X13 m) c b = tcv (X12 m) c b :=
  fun b hb => X13_of m c b (fun e => hb (Finset.mem_image.mpr ⟨3, Finset.mem_univ _, e.symm⟩))

set_option maxHeartbeats 1000000 in
theorem hF2 (c : Dev nD) : ∀ w : Fin 4,
    (dat2 (tcv (X13 m)) c).arrAt w cfg2.N = tcv (X14 m) c (Pipeline.arrRef spec2 w)
  | ⟨0, _⟩ => ((dat2 (tcv (X13 m)) c).arrAt_in 0 rfl _).trans ((A_eq2 (tcv (X13 m)) c 0).trans (X14_of m c main_v35 (by decide)).symm)
  | ⟨1, _⟩ => ((dat2 (tcv (X13 m)) c).arrAt_in 1 rfl _).trans ((A_eq2 (tcv (X13 m)) c 1).trans (X14_of m c main_v41 (by decide)).symm)
  | ⟨2, _⟩ => ((dat2 (tcv (X13 m)) c).arrAt_in 2 rfl _).trans ((A_eq2 (tcv (X13 m)) c 2).trans (X14_of m c main_v38 (by decide)).symm)
  | ⟨3, _⟩ => (X14_out m c).symm
theorem hrest2 (c : Dev nD) : ∀ b, b ∉ Finset.univ.image (Pipeline.arrRef spec2) → tcv (X14 m) c b = tcv (X13 m) c b :=
  fun b hb => X14_of m c b (fun e => hb (Finset.mem_image.mpr ⟨3, Finset.mem_univ _, e.symm⟩))

set_option maxHeartbeats 1000000 in
theorem hF3 (c : Dev nD) : ∀ w : Fin 3,
    (dat3 (tcv (X14 m)) c).arrAt w cfg3.N = tcv (X15 m) c (Pipeline.arrRef spec3 w)
  | ⟨0, _⟩ => ((dat3 (tcv (X14 m)) c).arrAt_in 0 rfl _).trans ((A_eq3 (tcv (X14 m)) c 0).trans (X15_of m c main_v42 (by decide)).symm)
  | ⟨1, _⟩ => ((dat3 (tcv (X14 m)) c).arrAt_in 1 rfl _).trans ((A_eq3 (tcv (X14 m)) c 1).trans (X15_of m c main_arg4 (by decide)).symm)
  | ⟨2, _⟩ => (X15_out m c).symm
theorem hrest3 (c : Dev nD) : ∀ b, b ∉ Finset.univ.image (Pipeline.arrRef spec3) → tcv (X15 m) c b = tcv (X14 m) c b :=
  fun b hb => X15_of m c b (fun e => hb (Finset.mem_image.mpr ⟨2, Finset.mem_univ _, e.symm⟩))

set_option maxHeartbeats 1000000 in
theorem hF4 (c : Dev nD) : ∀ w : Fin 4,
    (dat4 (tcv (X15 m)) c).arrAt w cfg4.N = tcv (X16 m) c (Pipeline.arrRef spec4 w)
  | ⟨0, _⟩ => ((dat4 (tcv (X15 m)) c).arrAt_in 0 rfl _).trans ((A_eq4 (tcv (X15 m)) c 0).trans (X16_of m c main_v34 (by decide)).symm)
  | ⟨1, _⟩ => ((dat4 (tcv (X15 m)) c).arrAt_in 1 rfl _).trans ((A_eq4 (tcv (X15 m)) c 1).trans (X16_of m c main_v36 (by decide)).symm)
  | ⟨2, _⟩ => ((dat4 (tcv (X15 m)) c).arrAt_in 2 rfl _).trans ((A_eq4 (tcv (X15 m)) c 2).trans (X16_of m c main_v43 (by decide)).symm)
  | ⟨3, _⟩ => (X16_out m c).symm
theorem hrest4 (c : Dev nD) : ∀ b, b ∉ Finset.univ.image (Pipeline.arrRef spec4) → tcv (X16 m) c b = tcv (X15 m) c b :=
  fun b hb => X16_of m c b (fun e => hb (Finset.mem_image.mpr ⟨3, Finset.mem_univ _, e.symm⟩))

set_option maxHeartbeats 1000000 in
theorem hF5 (c : Dev nD) : ∀ w : Fin 4,
    (dat5 (tcv (X16 m)) c).arrAt w cfg5.N = tcv (X17 m) c (Pipeline.arrRef spec5 w)
  | ⟨0, _⟩ => ((dat5 (tcv (X16 m)) c).arrAt_in 0 rfl _).trans ((A_eq5 (tcv (X16 m)) c 0).trans (X17_of m c main_v35 (by decide)).symm)
  | ⟨1, _⟩ => ((dat5 (tcv (X16 m)) c).arrAt_in 1 rfl _).trans ((A_eq5 (tcv (X16 m)) c 1).trans (X17_of m c main_v44 (by decide)).symm)
  | ⟨2, _⟩ => ((dat5 (tcv (X16 m)) c).arrAt_in 2 rfl _).trans ((A_eq5 (tcv (X16 m)) c 2).trans (X17_of m c main_v39 (by decide)).symm)
  | ⟨3, _⟩ => (X17_out m c).symm
theorem hrest5 (c : Dev nD) : ∀ b, b ∉ Finset.univ.image (Pipeline.arrRef spec5) → tcv (X17 m) c b = tcv (X16 m) c b :=
  fun b hb => X17_of m c b (fun e => hb (Finset.mem_image.mpr ⟨3, Finset.mem_univ _, e.symm⟩))

def pdats : (p : Fin 6) → (c : Dev nD) → Dat τ (Elt F) Unit ℕ (UR sig nD τ) ℕ (cfgs p) c
  | ⟨0, _⟩ => fun c => dat0 (tcv (V11 m)) c
  | ⟨1, _⟩ => fun c => dat1 (tcv (X12 m)) c
  | ⟨2, _⟩ => fun c => dat2 (tcv (X13 m)) c
  | ⟨3, _⟩ => fun c => dat3 (tcv (X14 m)) c
  | ⟨4, _⟩ => fun c => dat4 (tcv (X15 m)) c
  | ⟨5, _⟩ => fun c => dat5 (tcv (X16 m)) c

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

set_option backward.isDefEq.respectTransparency.types false in

-- A region as a segment: its arrays are split out of the unscoped buffers at `Vb` and put back at `Va`; nothing is owed.
def regOf (p : Fin 6) (ln : Pipeline.LaunchFacts (nD := nD) (τ := τ) cfgs p) (Vb Va : Dev nD → Valuation τ sig (Elt F))
    (hb : ∀ c, BodyObligation (pdats m p c) (defs₀ (F := F)) 𝒱₀ () Set.univ)
    (hq : ∀ c w, (pdats m p c).q w = fullShare) (ho : ∀ c t, (pdats m p c).owed t = 0)
    (hR : ∀ c x, x ∈ (pdats m p c).recorded 0)
    (hA : ∀ c w, (pdats m p c).A w = tcv Vb c (Pipeline.arrRef (cfgs p).spec w))
    (hi : ∀ c, (Pipeline.ΦA (cfgs p).spec c : sProp 𝕄) ⊢ (pdats m p c).Φ 0)
    (hu : ∀ c, (pdats m p c).Φ (Fin.last (cfgs p).N) ⊢ (Pipeline.ΦA (cfgs p).spec c : sProp 𝕄))
    (hF : ∀ c w, (pdats m p c).arrAt w (cfgs p).N = tcv Va c (Pipeline.arrRef (cfgs p).spec w))
    (hr : ∀ c b, b ∉ Finset.univ.image (Pipeline.arrRef (cfgs p).spec) → tcv Va c b = tcv Vb c b) :
    Pipeline.RegionSeg (pcfgs (F := F)) adm (pdats m) () defs₀ 𝒱₀ L lv p where
  win := ln.win.to₀
  block_pos := ln.block_pos
  stage_whole := ln.stage_whole
  K := PEmpty
  osem k := k.elim
  ho := Pipeline.OwnSemFacts.none _
  hbody c := (hb c).loose
  hwaits := Pipeline.hwaits_of_owed_zero _ _ _ _ L lv p ho
  pre c := iprop(StableHlo.held (c : Thread nD τ) (Pipeline.ucRefs τ sig) (Vb c) ∗ R c)
  post c := iprop(StableHlo.held (c : Thread nD τ) (Pipeline.ucRefs τ sig) (Va c) ∗ R c)
  X c := iprop(∃ r, prngReg c r)
  Y c := iprop(∃ r, prngReg c r)
  Z c := Pipeline.unscopedRest (Ix := Unit) (Name := ℕ) (U := UR sig nD τ) (Lvl := ℕ) (cfgs p).spec c (tcv Vb c)
  hentry c := by
    rw [Pipeline.ownSems0_none]
    have hsplit := Pipeline.arrays_of_unscopedBufs (p := p) (pcfgs (F := F)) adm (pdats m) ln.win ln.arr_whole c
      ((pdats m p c).share_full (hq c)) (tcv Vb c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [ho c 0]
      icases HO with ⟨%W, HO⟩; iexists W; isplitr; · ipureintro; exact fun x _ => Or.inl (hR c x)
      iexact HO
    isplitl [Hp]; · iexact Hp
    iexact Hrest
  hin c := by
    refine BIBase.Entails.trans ?_ (hi c)
    unfold Pipeline.ΦA
    iintro ⟨Hp, -, Hr⟩
    isplitl [Hr]; · iexact Hr
    iexact Hp
  hout c := by
    rw [Pipeline.ownSems0_none]
    refine BIBase.Entails.trans (hu c) ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      ln.win ln.arr_whole c (pdats m) ((pdats m p c).share_full (hq c))
      (tcv Vb c) (tcv Va c) ((pdats m p c).arrAt · (cfgs p).N) (hF c) (hr c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [ho c]
    icases HO with ⟨%W, -, HO⟩; iexists W; iexact HO

def reg0 := regOf m 0 launch0 (V11 m) (X12 m) (body_obligation0 (tcv (V11 m))) (fun _ _ => rfl) (fun _ _ => rfl) (fun _ _ => trivial)
  (fun _ _ => rfl) (fun _ => .rfl) (fun _ => .rfl) (hF0 m) (hrest0 m)
def reg1 := regOf m 1 launch1 (X12 m) (X13 m) (body_obligation1 (tcv (X12 m))) (fun _ _ => rfl) (fun _ _ => rfl) (fun _ _ => trivial)
  (fun _ _ => rfl) (hin1 (tcv (X12 m))) (hout1 (tcv (X12 m))) (hF1 m) (hrest1 m)
def reg2 := regOf m 2 launch2 (X13 m) (X14 m) (body_obligation2 (tcv (X13 m))) (fun _ _ => rfl) (fun _ _ => rfl) (fun _ _ => trivial)
  (fun _ _ => rfl) (hin2 (tcv (X13 m))) (hout2 (tcv (X13 m))) (hF2 m) (hrest2 m)
def reg3 := regOf m 3 launch3 (X14 m) (X15 m) (body_obligation3 (tcv (X14 m))) (fun _ _ => rfl) (fun _ _ => rfl) (fun _ _ => trivial)
  (fun _ _ => rfl) (fun _ => .rfl) (fun _ => .rfl) (hF3 m) (hrest3 m)
def reg4 := regOf m 4 launch4 (X15 m) (X16 m) (body_obligation4 (tcv (X15 m))) (fun _ _ => rfl) (fun _ _ => rfl) (fun _ _ => trivial)
  (fun _ _ => rfl) (hin4 (tcv (X15 m))) (hout4 (tcv (X15 m))) (hF4 m) (hrest4 m)
def reg5 := regOf m 5 launch5 (X16 m) (X17 m) (body_obligation5 (tcv (X16 m))) (fun _ _ => rfl) (fun _ _ => rfl) (fun _ _ => trivial)
  (fun _ _ => rfl) (hin5 (tcv (X16 m))) (hout5 (tcv (X16 m))) (hF5 m) (hrest5 m)

end Cert.Kernel.Hand

end
-- ==== Proof.K.Launch.lean ====
import proofs.«137339_j11914239279184_1_alg».proof.Proof.K.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- The program runs to the end and leaves its arguments unchanged: the six regions chained through the host stretches.
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_cond m emb₁ () 𝒱₀ L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (by
      have hcore : ∀ c : Dev nD, (iprop(unscopedSems0 c ∗ owes (c : Thread nD τ) ((0 : Dev nD → CellTallies nD τ sig Unit) c) ∅
            ∗ Pipeline.launchCred (0 : Dev nD → CellTallies nD τ sig Unit) c ∗ prngReg c (ρ c) ∗ emp) : sProp 𝕄) ⊢ R c := fun c => by
        iintro ⟨-, HO, -, Hp, -⟩
        isplitl [Hp]; · iexists _; iexact Hp
        iexists ∅; iexact HO
      have hmono : (bigSep Finset.univ fun c : Dev nD => iprop(unscopedSems0 c ∗ owes (c : Thread nD τ) ((0 : Dev nD → CellTallies nD τ sig Unit) c) ∅
            ∗ Pipeline.launchCred (0 : Dev nD → CellTallies nD τ sig Unit) c ∗ prngReg c (ρ c) ∗ emp))
          ⊢ (bigSep Finset.univ (fun c : Dev nD => R c) : sProp 𝕄) :=
        bigSep_mono fun c _ => hcore c
      iintro ⟨H, -⟩
      imodintro
      iapply hmono
      iexact H)
    (fun c => by iintro ⟨-, HO⟩; iexact HO)
    (reg0 m) (fun c => .rfl) (fun c => by rw [V12_eq m c]; exact .rfl)
    (reg1 m) (fun c => by rw [V12_eq m c]; exact .rfl) (fun c => by rw [V13_eq m c]; exact .rfl)
    (reg2 m) (fun c => by rw [V13_eq m c]; exact .rfl) (fun c => by rw [V14_eq m c]; exact .rfl)
    (reg3 m) (fun c => by rw [V14_eq m c]; exact .rfl) (fun c => by rw [V15_eq m c]; exact .rfl)
    (reg4 m) (fun c => by rw [V15_eq m c]; exact .rfl) (fun c => by rw [V16_eq m c]; exact .rfl)
    (reg5 m) (fun c => by rw [V16_eq m c]; exact .rfl) (fun c => by rw [V17_eq m c]; exact .rfl)

end Cert.Kernel.Hand

end
-- ==== Proof.KI.R0.lean ====
import proofs.«137339_j11914239279184_1_alg».proof.Proof.Gen.KernelIdeal.Launch
import proofs.«137339_j11914239279184_1_alg».proof.Proof.Gen.KernelIdeal.Skeleton
import proofs.«137339_j11914239279184_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay1 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay1 (iblk0 V c 0 t) (iblk0 V c 1 t) := by dsimp only [dat0]

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

theorem offs0_zero : (![0, 0] : Fin 2 → Nat) = fun _ => 0 := funext fun a => by fin_cases a <;> rfl

theorem cover0_2 (p : S512x128.Idx → Elt F .bf16) (y : S512x128.Idx) :
    ∃ pc ∈ ([⟨Rect.unit (s := S512x128) ![0, 0] S512x128.size inb_S512x128_S512x128_0_0, p⟩] : List (View.Piece (Elt F) S512x128 .bf16)), y ∈ pc.1.set :=
  ⟨_, List.mem_singleton_self _, View.mem_set_unit_zero offs0_zero inb_S512x128_S512x128_0_0 y⟩

set_option maxHeartbeats 1000000 in

theorem sound_kernel0 (c : Dev nD) (E : Set ℕ) (i : grid0.Coords)
    (arg1 : Memref sig .tc .vmem S512x128 .f32) (harg1 : arg1.IsWhole)
    (arg2 : Memref sig .tc .vmem S128x128 .f32) (harg2 : arg2.IsWhole)
    (arg3 : Memref sig .tc .vmem S512x128 .bf16) (harg3 : arg3.IsWhole)
    (x0 : Vec F S512x128 .f32) (x1 : Vec F S128x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (k0_pay1 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (cover0_2 _), View.canon_unit_zero offs0_zero]
  simp only [View.readAt_eq_ld, View.ld_unit_zero (S := S512x128) offs0_zero, View.ld_unit_zero (S := S128x128) offs0_zero]

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1.lean ====
import proofs.«137339_j11914239279184_1_alg».proof.Proof.Gen.KernelIdeal.Launch
import proofs.«137339_j11914239279184_1_alg».proof.Proof.Gen.KernelIdeal.Skeleton
import proofs.«137339_j11914239279184_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev scM1 : Memref sig .tc .vmem S4096x128 .f32 := Memref.whole cc1_scratch0

def scAt1 (c : Dev nD) : (n : ℕ) → n < cfg1.N → Vec F S4096x128 .f32
  | 0, hn => k1_pay2 (grid1.coords ⟨0, hn⟩) (iblk1 V c 0 ⟨0, hn⟩) k1_pay1 (iblk1 V c 2 ⟨0, hn⟩)
  | n + 1, hn => k1_pay2 (grid1.coords ⟨n + 1, hn⟩) (iblk1 V c 0 ⟨n + 1, hn⟩)
      (if (n + 1) % 98 = 0 then k1_pay1 else scAt1 c n (Nat.lt_of_succ_lt hn)) (iblk1 V c 2 ⟨n + 1, hn⟩)

abbrev rest1 (c : Dev nD) : sProp 𝕄 :=
  Pipeline.scopedRestBut (Ix := Unit) (Name := ℕ) (U := UR sig nD τ) (Lvl := ℕ) (Val := Elt F) spec1 c [cc1_scratch0]

def PhiS1 (c : Dev nD) : (n : ℕ) → n ≤ cfg1.N → sProp 𝕄
  | 0, _ => Pipeline.ΦA spec1 c
  | n + 1, hn => iprop(owns (c : Thread nD τ) scM1 fullShare (scAt1 V c n hn) ∗ rest1 c ∗ (∃ r, prngReg c r))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (scAt1 V c t.val t.isLt) (iblk1 V c 1 t)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_3 (c : Dev nD) (t : Fin cfg1.N) :
    (dat1 V c).after 3 t = k1_pay3 (scAt1 V c t.val t.isLt) (iblk1 V c 1 t) := by dsimp only [dat1]

theorem coords1_1 (t : Fin cfg1.N) : ((grid1.coords t) 1).val = t.val % 98 := by
  show t.val / grid1.stride 1 % grid1.bound 1 = t.val % 98
  rw [show grid1.stride 1 = 1 from by decide, Nat.div_one]; rfl

abbrev cond1_0 (i : grid1.Coords) : Prop :=
  (Scalar.cmpi .ne (Scalar.extui (Scalar.cmpi .eq (BitVec.ofNat 32 (i 1).val) 0#32)) 0#32) = 1#1

-- The two conditions compare the node-block coordinate, a number below 98, with 0 and with 97.
theorem hcond1_0 (t : Fin cfg1.N) : cond1_0 (grid1.coords t) ↔ t.val % 98 = 0 :=
  ((by decide +kernel : ∀ k : Fin 98, ((Scalar.cmpi .ne (Scalar.extui (Scalar.cmpi .eq (BitVec.ofNat 32 k.val) 0#32)) 0#32) = 1#1)
    ↔ k.val = 0) (grid1.coords t 1)).trans (by rw [coords1_1 t])

theorem hcond1_1 (t : Fin cfg1.N) : k1_cond2 (grid1.coords t) = 1#1 ↔ t.val % 98 = 97 :=
  ((by decide +kernel : ∀ k : Fin 98, ((Scalar.cmpi .ne (Scalar.extui (Scalar.cmpi .eq (BitVec.ofNat 32 k.val) 97#32)) 0#32) = 1#1)
    ↔ k.val = 97) (grid1.coords t 1)).trans (by rw [coords1_1 t])

theorem hz_r1 : (![0, 0] : Fin 2 → Nat) = fun _ => 0 := funext fun a => by fin_cases a <;> rfl

-- Every point of the buffer lies in the last store's rectangle, so earlier stores and contents are not read.
theorem read_last_r1 {sg : RefSig} {κ : Kind} {sp : Space} {S : Shape} {e : EltTy} (v : View sg κ sp S e)
    (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon v f _ (fun y => ⟨⟨Rect.unit off S.size inb, w⟩, List.mem_cons.mpr (Or.inl rfl),
    View.mem_set_unit_zero h inb y⟩), View.canon_cons_unit_zero h]

set_option maxHeartbeats 1000000 in
-- The scratch restarts from zero where the first condition holds; the output is written only where the second does.
theorem run1 (c : Dev nD) (i : grid1.Coords)
    (arg2 : Memref sig .tc .vmem S4096x1 .i32) (harg2 : arg2.IsWhole)
    (arg3 : Memref sig .tc .vmem S4096x1 .f32) (harg3 : arg3.IsWhole)
    (arg4 : Memref sig .tc .vmem S512x128 .bf16) (harg4 : arg4.IsWhole)
    (arg5 : Memref sig .tc .vmem S4096x128 .bf16) (harg5 : arg5.IsWhole)
    (arg6 : Memref sig .tc .vmem S4096x128 .f32) (harg6 : arg6.IsWhole) (h01 : cond1_0 i → ¬k1_cond2 i = 1#1)
    (src : Vec F S4096x1 .i32) (nrm : Vec F S4096x1 .f32) (h : Vec F S512x128 .bf16) (o : Vec F S4096x128 .bf16)
    (s : Vec F S4096x128 .f32)
    (E : Set ℕ) (K : PUnit → sProp 𝕄) :
    iprop(owns (c : Thread nD τ) arg2 fullShare src ∗ owns (c : Thread nD τ) arg3 fullShare nrm
        ∗ owns (c : Thread nD τ) arg4 fullShare h ∗ owns (c : Thread nD τ) arg5 fullShare o
        ∗ owns (c : Thread nD τ) arg6 fullShare s
        ∗ (iprop(owns (c : Thread nD τ) arg2 fullShare src ∗ owns (c : Thread nD τ) arg3 fullShare nrm
            ∗ owns (c : Thread nD τ) arg4 fullShare h
            ∗ owns (c : Thread nD τ) arg5 fullShare (if k1_cond2 i = 1#1 then
                k1_pay3 (k1_pay2 i src (if cond1_0 i then k1_pay1 else s) h) nrm else o)
            ∗ owns (c : Thread nD τ) arg6 fullShare (k1_pay2 i src (if cond1_0 i then k1_pay1 else s) h)) -∗ K ⟨⟩))
      ⊢ wp frame (wpE (defs₀ (F := F)) Variants.none c none) E
          (cc1__gather_kernel i arg2 harg2 arg3 harg3 arg4 harg4 arg5 harg5 arg6 harg6) K := by
  by_cases hc0 : cond1_0 i <;> by_cases hc1 : k1_cond2 i = 1#1
  · exact absurd hc1 (h01 hc0)
  all_goals
    first | rw [if_pos hc0] | rw [if_neg hc0]
    first | rw [if_pos hc1] | rw [if_neg hc1]
    simp only [cc1__gather_kernel_eq_skeleton]; unfold cc1__gather_kernel_skel owns
    iintro ⟨⟨%f2, %hf2, H2⟩, ⟨%f3, %hf3, H3⟩, ⟨%f4, %hf4, H4⟩, ⟨%f5, %hf5, H5⟩, ⟨%f6, %hf6, H6⟩, Hk⟩
    obtain rfl := harg2.eq_unread hf2; obtain rfl := harg3.eq_unread hf3; obtain rfl := harg4.eq_unread hf4
    obtain rfl := harg5.eq_unread hf5; obtain rfl := harg6.eq_unread hf6
    sl_exec
    sl_step
    iapply Hk
    isplitl [H2]; swap; isplitl [H3]; swap; isplitl [H4]; swap; isplitl [H5]; swap
    all_goals
      iexists _; isplitr; swap; · iassumption
      ipureintro
      first
      | sl_unfold_words
        rw [read_last_r1 (S := S4096x128) _ _ hz_r1]
        simp only [View.readAt_eq_ld, harg2.read_unread, harg3.read_unread, harg4.read_unread, harg6.read_unread,
          View.ld_unit_zero (S := S4096x1) hz_r1, View.ld_unit_zero (S := S512x128) hz_r1,
          View.ld_unit_zero (S := S4096x128) hz_r1, View.readCov_unit_zero (S := S4096x128) _ hz_r1]
      | exact Memref.IsWhole.read_unread _ _

-- The scratch after a point is the product added to zero at a first node block, else to what the point before left.
theorem scAt1_eq (c : Dev nD) (t : Fin cfg1.N) (s : Vec F S4096x128 .f32)
    (hs : ∀ h0 : t.val ≠ 0, s = scAt1 V c (t.val - 1) (Nat.lt_of_le_of_lt (Nat.sub_le _ _) t.isLt)) :
    scAt1 V c t.val t.isLt
      = k1_pay2 (grid1.coords t) (iblk1 V c 0 t) (if cond1_0 (grid1.coords t) then k1_pay1 else s) (iblk1 V c 2 t) := by
  obtain ⟨n, hn⟩ := t
  cases n with
  | zero => rw [if_pos ((hcond1_0 ⟨0, hn⟩).mpr rfl)]; rfl
  | succ n =>
    show scAt1 V c (n + 1) hn = _
    rw [scAt1, hs (Nat.succ_ne_zero n)]
    exact congrArg (fun x => k1_pay2 _ _ x _) (if_congr (hcond1_0 ⟨n + 1, hn⟩).symm rfl rfl)

theorem PhiA1_eq (c : Dev nD) :
    (Pipeline.ΦA spec1 c : sProp 𝕄)
      = iprop(iprop((∃ d, owns (c : Thread nD τ) scM1 fullShare d) ∗ rest1 c) ∗ (∃ r, prngReg c r)) := by
  unfold Pipeline.ΦA; rw [scopedRest1_split]; simp only [scM1, owns_whole]; try rfl

-- Before any point the scratch holds something; after the first point, what the point before left.
theorem PhiS1_elim (c : Dev nD) (n : ℕ) (h : n ≤ cfg1.N) :
    PhiS1 V c n h ⊢ iprop(∃ s, ⌜∀ h0 : n ≠ 0, s = scAt1 V c (n - 1) (by omega)⌝
      ∗ owns (c : Thread nD τ) scM1 fullShare s ∗ rest1 c ∗ (∃ r, prngReg c r)) := by
  cases n with
  | zero =>
    show Pipeline.ΦA spec1 c ⊢ _
    rw [PhiA1_eq]
    iintro ⟨⟨⟨%s, HS⟩, HR⟩, Hg⟩
    iexists s; isplitr; · ipureintro; exact fun h0 => absurd rfl h0
    isplitl [HS]; · iexact HS
    isplitl [HR]; · iexact HR
    iexact Hg
  | succ n =>
    show iprop(owns (c : Thread nD τ) scM1 fullShare (scAt1 V c n h) ∗ rest1 c ∗ (∃ r, prngReg c r)) ⊢ _
    iintro H
    iexists (scAt1 V c n h); isplitr; · ipureintro; exact fun _ => rfl
    iexact H

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl

abbrev ms1_0 (t : Fin cfg1.N) : Memref sig .tc .vmem S4096x1 .i32 := win1_0.stage (cfg1.slots t 0)
abbrev ms1_1 (t : Fin cfg1.N) : Memref sig .tc .vmem S4096x1 .f32 := win1_1.stage (cfg1.slots t 1)
abbrev ms1_2 (t : Fin cfg1.N) : Memref sig .tc .vmem S512x128 .bf16 := win1_2.stage (cfg1.slots t 2)
abbrev ms1_3 (t : Fin cfg1.N) : Memref sig .tc .vmem S4096x128 .bf16 := win1_3.stage (cfg1.slots t 3)

-- The output block changes exactly where the second condition holds.
theorem leaves1_3 (c : Dev nD) (t : Fin cfg1.N) :
    (dat1 V c).leavesExact 3 t = if k1_cond2 (grid1.coords t) = 1#1
      then owns (c : Thread nD τ) (ms1_3 t) fullShare ((dat1 V c).after 3 t)
      else iprop(∃ d, owns (c : Thread nD τ) (ms1_3 t) fullShare ((dat1 V c).before 3 t d)) := by
  by_cases h : k1_cond2 (grid1.coords t) = 1#1
  · rw [if_pos h]; unfold Dat.leavesExact
    rw [show cfg1.idle 3 (grid1.coords t) = false from by
      show (!(k1_cond2 (grid1.coords t) == 1#1)) = false; simpa using h]
  · rw [if_neg h]
    exact Dat.leavesExact_idle _ 3 t (by show (!(k1_cond2 (grid1.coords t) == 1#1)) = true; simpa using h)
      (Bool.eq_false_iff.mpr fun hf => h ((hcond1_1 t).mpr ((flush1_3 t).mp hf)))

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

-- The invariant hands the body the scratch and takes it back at this point's contents; all else passes through.
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl, leaves1_3,
    show (dat1 V c).Φ t.succ = iprop(owns (c : Thread nD τ) scM1 fullShare (scAt1 V c t.val t.isLt) ∗ rest1 c
      ∗ (∃ r, prngReg c r)) from rfl]
  refine (sep_mono_left (PhiS1_elim V c t.castSucc.val (Nat.le_of_lt_succ t.castSucc.isLt))).trans ?_
  iintro ⟨⟨%s, %hs, HS, HR⟩, Ho, ⟨%d0, H0⟩, ⟨%d1, H1⟩, ⟨%d2, H2⟩, ⟨%d3, H3⟩⟩
  rw [after1_3, scAt1_eq V c t s hs]
  iapply (run1 c _ _ _ _ _ _ _ _ _ _ _
    (fun h0 h1 => by have := (hcond1_0 t).mp h0; have := (hcond1_1 t).mp h1; omega) (iblk1 V c 0 t) (iblk1 V c 1 t) (iblk1 V c 2 t) _ s Set.univ _)
  isplitl [H0]; · iexact H0
  isplitl [H1]; · iexact H1
  isplitl [H2]; · iexact H2
  isplitl [H3]; · iexact H3
  isplitl [HS]; · iexact HS
  iintro ⟨H0, H1, H2, H3, HS⟩
  isplitl [HS HR]
  · isplitl [HS]; · iexact HS
    iexact HR
  isplitl [Ho]; · iexact Ho
  isplitl [H0]; · iexact H0
  isplitl [H1]; · iexact H1
  isplitl [H2]; · iexact H2
  by_cases h1 : k1_cond2 (grid1.coords t) = 1#1
  · rw [if_pos h1, if_pos h1]; iexact H3
  · rw [if_neg h1, if_neg h1]; iexists _; iexact H3

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := Idealize.SL.BI.Entails.refl _

-- Forgetting what the scratch holds gives back the entry invariant.
theorem hout1 (c : Dev nD) : (dat1 V c).Φ (Fin.last cfg1.N) ⊢ Pipeline.ΦA spec1 c := by
  refine (PhiS1_elim V c (Fin.last cfg1.N).val (Nat.le_of_lt_succ (Fin.last cfg1.N).isLt)).trans ?_
  rw [PhiA1_eq]
  iintro ⟨%s, -, HS, HR, Hg⟩
  isplitl [HS HR]; swap; · iexact Hg
  isplitl [HS]; · iexists _; iexact HS
  iexact HR

end Cert.KernelIdeal.Hand

end
-- ==== Proof.KI.R2.lean ====
import proofs.«137339_j11914239279184_1_alg».proof.Proof.Gen.KernelIdeal.Launch
import proofs.«137339_j11914239279184_1_alg».proof.Proof.Gen.KernelIdeal.Skeleton
import proofs.«137339_j11914239279184_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev scM2 : Memref sig .tc .vmem S512x128 .f32 := Memref.whole cc2_scratch0

def scAt2 (c : Dev nD) : (n : ℕ) → n < cfg2.N → Vec F S512x128 .f32
  | 0, hn => k2_pay2 (grid2.coords ⟨0, hn⟩) (iblk2 V c 0 ⟨0, hn⟩) k2_pay1 (iblk2 V c 1 ⟨0, hn⟩)
  | n + 1, hn => k2_pay2 (grid2.coords ⟨n + 1, hn⟩) (iblk2 V c 0 ⟨n + 1, hn⟩)
      (if (n + 1) % 208 = 0 then k2_pay1 else scAt2 c n (Nat.lt_of_succ_lt hn)) (iblk2 V c 1 ⟨n + 1, hn⟩)

abbrev rest2 (c : Dev nD) : sProp 𝕄 :=
  Pipeline.scopedRestBut (Ix := Unit) (Name := ℕ) (U := UR sig nD τ) (Lvl := ℕ) (Val := Elt F) spec2 c [cc2_scratch0]

def PhiS2 (c : Dev nD) : (n : ℕ) → n ≤ cfg2.N → sProp 𝕄
  | 0, _ => Pipeline.ΦA spec2 c
  | n + 1, hn => iprop(owns (c : Thread nD τ) scM2 fullShare (scAt2 V c n hn) ∗ rest2 c ∗ (∃ r, prngReg c r))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k2_pay3 (scAt2 V c t.val t.isLt) (iblk2 V c 2 t)
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem after2_3 (c : Dev nD) (t : Fin cfg2.N) :
    (dat2 V c).after 3 t = k2_pay3 (scAt2 V c t.val t.isLt) (iblk2 V c 2 t) := by dsimp only [dat2]

theorem coords2_1 (t : Fin cfg2.N) : ((grid2.coords t) 1).val = t.val % 208 := by
  show t.val / grid2.stride 1 % 208 = t.val % 208
  rw [show grid2.stride 1 = 1 from by decide, Nat.div_one]

abbrev cond2_0 (i : grid2.Coords) : Prop :=
  (Scalar.cmpi .ne (Scalar.extui (Scalar.cmpi .eq (BitVec.ofNat 32 (i 1).val) 0#32)) 0#32) = 1#1

-- The two conditions compare the edge-block coordinate, a number below 208, with 0 and with 207.
theorem hcond2_0 (t : Fin cfg2.N) : cond2_0 (grid2.coords t) ↔ t.val % 208 = 0 :=
  ((by decide +kernel : ∀ k : Fin 208, ((Scalar.cmpi .ne (Scalar.extui (Scalar.cmpi .eq (BitVec.ofNat 32 k.val) 0#32)) 0#32) = 1#1)
    ↔ k.val = 0) (grid2.coords t 1)).trans (by rw [coords2_1 t])

theorem hcond2_1 (t : Fin cfg2.N) : k2_cond2 (grid2.coords t) = 1#1 ↔ t.val % 208 = 207 :=
  ((by decide +kernel : ∀ k : Fin 208, ((Scalar.cmpi .ne (Scalar.extui (Scalar.cmpi .eq (BitVec.ofNat 32 k.val) 207#32)) 0#32) = 1#1)
    ↔ k.val = 207) (grid2.coords t 1)).trans (by rw [coords2_1 t])

theorem hz_r2 : (![0, 0] : Fin 2 → Nat) = fun _ => 0 := funext fun a => by fin_cases a <;> rfl

-- Every point of the buffer lies in the last store's rectangle, so earlier stores and contents are not read.
theorem read_last_r2 {sg : RefSig} {κ : Kind} {sp : Space} {S : Shape} {e : EltTy} (v : View sg κ sp S e)
    (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon v f _ (fun y => ⟨⟨Rect.unit off S.size inb, w⟩, List.mem_cons.mpr (Or.inl rfl),
    View.mem_set_unit_zero h inb y⟩), View.canon_cons_unit_zero h]

set_option maxHeartbeats 1000000 in
-- The scratch restarts from zero where the first condition holds; the output is written only where the second does.
theorem run2 (c : Dev nD) (i : grid2.Coords)
    (arg2 : Memref sig .tc .vmem S1x4096 .i32) (harg2 : arg2.IsWhole)
    (arg3 : Memref sig .tc .vmem S4096x128 .bf16) (harg3 : arg3.IsWhole)
    (arg4 : Memref sig .tc .vmem S1x128 .f32) (harg4 : arg4.IsWhole)
    (arg5 : Memref sig .tc .vmem S512x128 .f32) (harg5 : arg5.IsWhole)
    (arg6 : Memref sig .tc .vmem S512x128 .f32) (harg6 : arg6.IsWhole) (h01 : cond2_0 i → ¬k2_cond2 i = 1#1)
    (dst : Vec F S1x4096 .i32) (msg : Vec F S4096x128 .bf16) (bias : Vec F S1x128 .f32) (o s : Vec F S512x128 .f32)
    (E : Set ℕ) (K : PUnit → sProp 𝕄) :
    iprop(owns (c : Thread nD τ) arg2 fullShare dst ∗ owns (c : Thread nD τ) arg3 fullShare msg
        ∗ owns (c : Thread nD τ) arg4 fullShare bias ∗ owns (c : Thread nD τ) arg5 fullShare o
        ∗ owns (c : Thread nD τ) arg6 fullShare s
        ∗ (iprop(owns (c : Thread nD τ) arg2 fullShare dst ∗ owns (c : Thread nD τ) arg3 fullShare msg
            ∗ owns (c : Thread nD τ) arg4 fullShare bias
            ∗ owns (c : Thread nD τ) arg5 fullShare (if k2_cond2 i = 1#1 then
                k2_pay3 (k2_pay2 i dst (if cond2_0 i then k2_pay1 else s) msg) bias else o)
            ∗ owns (c : Thread nD τ) arg6 fullShare (k2_pay2 i dst (if cond2_0 i then k2_pay1 else s) msg)) -∗ K ⟨⟩))
      ⊢ wp frame (wpE (defs₀ (F := F)) Variants.none c none) E
          (cc2__scatter_kernel i arg2 harg2 arg3 harg3 arg4 harg4 arg5 harg5 arg6 harg6) K := by
  by_cases hc0 : cond2_0 i <;> by_cases hc1 : k2_cond2 i = 1#1
  · exact absurd hc1 (h01 hc0)
  all_goals
    first | rw [if_pos hc0] | rw [if_neg hc0]
    first | rw [if_pos hc1] | rw [if_neg hc1]
    simp only [cc2__scatter_kernel_eq_skeleton]; unfold cc2__scatter_kernel_skel owns
    iintro ⟨⟨%f2, %hf2, H2⟩, ⟨%f3, %hf3, H3⟩, ⟨%f4, %hf4, H4⟩, ⟨%f5, %hf5, H5⟩, ⟨%f6, %hf6, H6⟩, Hk⟩
    obtain rfl := harg2.eq_unread hf2; obtain rfl := harg3.eq_unread hf3; obtain rfl := harg4.eq_unread hf4
    obtain rfl := harg5.eq_unread hf5; obtain rfl := harg6.eq_unread hf6
    sl_exec
    sl_step
    iapply Hk
    isplitl [H2]; swap; isplitl [H3]; swap; isplitl [H4]; swap; isplitl [H5]; swap
    all_goals
      iexists _; isplitr; swap; · iassumption
      ipureintro
      first
      | sl_unfold_run_names
        rw [read_last_r2 (S := S512x128) _ _ hz_r2]
        simp only [View.readAt_eq_ld, harg2.read_unread, harg3.read_unread, harg4.read_unread, harg6.read_unread,
          View.ld_unit_zero (S := S1x4096) hz_r2, View.ld_unit_zero (S := S4096x128) hz_r2,
          View.ld_unit_zero (S := S1x128) hz_r2, View.ld_unit_zero (S := S512x128) hz_r2,
          View.readCov_unit_zero (S := S512x128) _ hz_r2]
      | exact Memref.IsWhole.read_unread _ _

-- The scratch after a point is the product added to zero at a first edge block, else to what the point before left.
theorem scAt2_eq (c : Dev nD) (t : Fin cfg2.N) (s : Vec F S512x128 .f32)
    (hs : ∀ h0 : t.val ≠ 0, s = scAt2 V c (t.val - 1) (Nat.lt_of_le_of_lt (Nat.sub_le _ _) t.isLt)) :
    scAt2 V c t.val t.isLt
      = k2_pay2 (grid2.coords t) (iblk2 V c 0 t) (if cond2_0 (grid2.coords t) then k2_pay1 else s) (iblk2 V c 1 t) := by
  obtain ⟨n, hn⟩ := t
  cases n with
  | zero => rw [if_pos ((hcond2_0 ⟨0, hn⟩).mpr rfl)]; rfl
  | succ n =>
    show scAt2 V c (n + 1) hn = _
    rw [scAt2, hs (Nat.succ_ne_zero n)]
    exact congrArg (fun x => k2_pay2 _ _ x _) (if_congr (hcond2_0 ⟨n + 1, hn⟩).symm rfl rfl)

theorem PhiA2_eq (c : Dev nD) :
    (Pipeline.ΦA spec2 c : sProp 𝕄)
      = iprop(iprop((∃ d, owns (c : Thread nD τ) scM2 fullShare d) ∗ rest2 c) ∗ (∃ r, prngReg c r)) := by
  unfold Pipeline.ΦA; rw [scopedRest2_split]; simp only [scM2, owns_whole]; try rfl

-- Before any point the scratch holds something; after the first point, what the point before left.
theorem PhiS2_elim (c : Dev nD) (n : ℕ) (h : n ≤ cfg2.N) :
    PhiS2 V c n h ⊢ iprop(∃ s, ⌜∀ h0 : n ≠ 0, s = scAt2 V c (n - 1) (by omega)⌝
      ∗ owns (c : Thread nD τ) scM2 fullShare s ∗ rest2 c ∗ (∃ r, prngReg c r)) := by
  cases n with
  | zero =>
    show Pipeline.ΦA spec2 c ⊢ _
    rw [PhiA2_eq]
    iintro ⟨⟨⟨%s, HS⟩, HR⟩, Hg⟩
    iexists s; isplitr; · ipureintro; exact fun h0 => absurd rfl h0
    isplitl [HS]; · iexact HS
    isplitl [HR]; · iexact HR
    iexact Hg
  | succ n =>
    show iprop(owns (c : Thread nD τ) scM2 fullShare (scAt2 V c n h) ∗ rest2 c ∗ (∃ r, prngReg c r)) ⊢ _
    iintro H
    iexists (scAt2 V c n h); isplitr; · ipureintro; exact fun _ => rfl
    iexact H

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun _ => rfl) t d).trans rfl

abbrev ms2_0 (t : Fin cfg2.N) : Memref sig .tc .vmem S1x4096 .i32 := win2_0.stage (cfg2.slots t 0)
abbrev ms2_1 (t : Fin cfg2.N) : Memref sig .tc .vmem S4096x128 .bf16 := win2_1.stage (cfg2.slots t 1)
abbrev ms2_2 (t : Fin cfg2.N) : Memref sig .tc .vmem S1x128 .f32 := win2_2.stage (cfg2.slots t 2)
abbrev ms2_3 (t : Fin cfg2.N) : Memref sig .tc .vmem S512x128 .f32 := win2_3.stage (cfg2.slots t 3)

-- The output block changes exactly where the second condition holds.
theorem leaves2_3 (c : Dev nD) (t : Fin cfg2.N) :
    (dat2 V c).leavesExact 3 t = if k2_cond2 (grid2.coords t) = 1#1
      then owns (c : Thread nD τ) (ms2_3 t) fullShare ((dat2 V c).after 3 t)
      else iprop(∃ d, owns (c : Thread nD τ) (ms2_3 t) fullShare ((dat2 V c).before 3 t d)) := by
  by_cases h : k2_cond2 (grid2.coords t) = 1#1
  · rw [if_pos h]; unfold Dat.leavesExact
    rw [show cfg2.idle 3 (grid2.coords t) = false from by
      show (!(k2_cond2 (grid2.coords t) == 1#1)) = false; simpa using h]
  · rw [if_neg h]
    exact Dat.leavesExact_idle _ 3 t (by show (!(k2_cond2 (grid2.coords t) == 1#1)) = true; simpa using h)
      (Bool.eq_false_iff.mpr fun hf => h ((hcond2_1 t).mpr ((flush2_3 t).mp hf)))

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

-- The invariant hands the body the scratch and takes it back at this point's contents; all else passes through.
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl, leaves2_3,
    show (dat2 V c).Φ t.succ = iprop(owns (c : Thread nD τ) scM2 fullShare (scAt2 V c t.val t.isLt) ∗ rest2 c
      ∗ (∃ r, prngReg c r)) from rfl]
  refine (sep_mono_left (PhiS2_elim V c t.castSucc.val (Nat.le_of_lt_succ t.castSucc.isLt))).trans ?_
  iintro ⟨⟨%s, %hs, HS, HR⟩, Ho, ⟨%d0, H0⟩, ⟨%d1, H1⟩, ⟨%d2, H2⟩, ⟨%d3, H3⟩⟩
  rw [after2_3, scAt2_eq V c t s hs]
  iapply (run2 c _ _ _ _ _ _ _ _ _ _ _
    (fun h0 h1 => by have := (hcond2_0 t).mp h0; have := (hcond2_1 t).mp h1; omega) (iblk2 V c 0 t) (iblk2 V c 1 t) (iblk2 V c 2 t) _ s Set.univ _)
  isplitl [H0]; · iexact H0
  isplitl [H1]; · iexact H1
  isplitl [H2]; · iexact H2
  isplitl [H3]; · iexact H3
  isplitl [HS]; · iexact HS
  iintro ⟨H0, H1, H2, H3, HS⟩
  isplitl [HS HR]
  · isplitl [HS]; · iexact HS
    iexact HR
  isplitl [Ho]; · iexact Ho
  isplitl [H0]; · iexact H0
  isplitl [H1]; · iexact H1
  isplitl [H2]; · iexact H2
  by_cases h1 : k2_cond2 (grid2.coords t) = 1#1
  · rw [if_pos h1, if_pos h1]; iexact H3
  · rw [if_neg h1, if_neg h1]; iexists _; iexact H3

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := Idealize.SL.BI.Entails.refl _

-- Forgetting what the scratch holds gives back the entry invariant.
theorem hout2 (c : Dev nD) : (dat2 V c).Φ (Fin.last cfg2.N) ⊢ Pipeline.ΦA spec2 c := by
  refine (PhiS2_elim V c (Fin.last cfg2.N).val (Nat.le_of_lt_succ (Fin.last cfg2.N).isLt)).trans ?_
  rw [PhiA2_eq]
  iintro ⟨%s, -, HS, HR, Hg⟩
  isplitl [HS HR]; swap; · iexact Hg
  isplitl [HS]; · iexists _; iexact HS
  iexact HR

end Cert.KernelIdeal.Hand

end
-- ==== Proof.KI.R3.lean ====
import proofs.«137339_j11914239279184_1_alg».proof.Proof.Gen.KernelIdeal.Launch
import proofs.«137339_j11914239279184_1_alg».proof.Proof.Gen.KernelIdeal.Skeleton
import proofs.«137339_j11914239279184_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => k3_pay1 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = k3_pay1 (iblk3 V c 0 t) (iblk3 V c 1 t) := by dsimp only [dat3]

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

theorem offs3_zero : (![0, 0] : Fin 2 → Nat) = fun _ => 0 := funext fun a => by fin_cases a <;> rfl

theorem cover3_2 (p : S512x40.Idx → Elt F .bf16) (y : S512x40.Idx) :
    ∃ pc ∈ ([⟨Rect.unit (s := S512x40) ![0, 0] S512x40.size inb_S512x40_S512x40_0_0, p⟩] : List (View.Piece (Elt F) S512x40 .bf16)), y ∈ pc.1.set :=
  ⟨_, List.mem_singleton_self _, View.mem_set_unit_zero offs3_zero inb_S512x40_S512x40_0_0 y⟩

set_option maxHeartbeats 1000000 in

theorem sound_kernel3 (c : Dev nD) (E : Set ℕ) (i : grid3.Coords)
    (arg1 : Memref sig .tc .vmem S512x128 .f32) (harg1 : arg1.IsWhole)
    (arg2 : Memref sig .tc .vmem S128x40 .f32) (harg2 : arg2.IsWhole)
    (arg3 : Memref sig .tc .vmem S512x40 .bf16) (harg3 : arg3.IsWhole)
    (x0 : Vec F S512x128 .f32) (x1 : Vec F S128x40 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (k3_pay1 x0 x1)) -∗ K ⟨⟩))
      ⊢ wp frame (wpE (defs₀ (F := F)) Variants.none c none) E (cc3__matmul_kernel i arg1 harg1 arg2 harg2 arg3 harg3) K := by
  simp only [cc3__matmul_kernel_eq_skeleton]; unfold cc3__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (cover3_2 _), View.canon_unit_zero offs3_zero]
  simp only [View.readAt_eq_ld, View.ld_unit_zero (S := S512x128) offs3_zero, View.ld_unit_zero (S := S128x40) offs3_zero]

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.R4.lean ====
import proofs.«137339_j11914239279184_1_alg».proof.Proof.Gen.KernelIdeal.Launch
import proofs.«137339_j11914239279184_1_alg».proof.Proof.Gen.KernelIdeal.Skeleton
import proofs.«137339_j11914239279184_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev scM4 : Memref sig .tc .vmem S4096x40 .f32 := Memref.whole cc4_scratch0

def scAt4 (c : Dev nD) : (n : ℕ) → n < cfg4.N → Vec F S4096x40 .f32
  | 0, hn => k4_pay2 (grid4.coords ⟨0, hn⟩) (iblk4 V c 0 ⟨0, hn⟩) k4_pay1 (iblk4 V c 2 ⟨0, hn⟩)
  | n + 1, hn => k4_pay2 (grid4.coords ⟨n + 1, hn⟩) (iblk4 V c 0 ⟨n + 1, hn⟩)
      (if (n + 1) % 98 = 0 then k4_pay1 else scAt4 c n (Nat.lt_of_succ_lt hn)) (iblk4 V c 2 ⟨n + 1, hn⟩)

abbrev rest4 (c : Dev nD) : sProp 𝕄 :=
  Pipeline.scopedRestBut (Ix := Unit) (Name := ℕ) (U := UR sig nD τ) (Lvl := ℕ) (Val := Elt F) spec4 c [cc4_scratch0]

def PhiS4 (c : Dev nD) : (n : ℕ) → n ≤ cfg4.N → sProp 𝕄
  | 0, _ => Pipeline.ΦA spec4 c
  | n + 1, hn => iprop(owns (c : Thread nD τ) scM4 fullShare (scAt4 V c n hn) ∗ rest4 c ∗ (∃ r, prngReg c r))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => k4_pay3 (scAt4 V c t.val t.isLt) (iblk4 V c 1 t)
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem after4_3 (c : Dev nD) (t : Fin cfg4.N) :
    (dat4 V c).after 3 t = k4_pay3 (scAt4 V c t.val t.isLt) (iblk4 V c 1 t) := by dsimp only [dat4]

theorem coords4_1 (t : Fin cfg4.N) : ((grid4.coords t) 1).val = t.val % 98 := by
  show t.val / grid4.stride 1 % grid4.bound 1 = t.val % 98
  rw [show grid4.stride 1 = 1 from by decide, Nat.div_one]; rfl

abbrev cond4_0 (i : grid4.Coords) : Prop :=
  (Scalar.cmpi .ne (Scalar.extui (Scalar.cmpi .eq (BitVec.ofNat 32 (i 1).val) 0#32)) 0#32) = 1#1

-- The two conditions compare the node-block coordinate, a number below 98, with 0 and with 97.
theorem hcond4_0 (t : Fin cfg4.N) : cond4_0 (grid4.coords t) ↔ t.val % 98 = 0 :=
  ((by decide +kernel : ∀ k : Fin 98, ((Scalar.cmpi .ne (Scalar.extui (Scalar.cmpi .eq (BitVec.ofNat 32 k.val) 0#32)) 0#32) = 1#1)
    ↔ k.val = 0) (grid4.coords t 1)).trans (by rw [coords4_1 t])

theorem hcond4_1 (t : Fin cfg4.N) : k4_cond2 (grid4.coords t) = 1#1 ↔ t.val % 98 = 97 :=
  ((by decide +kernel : ∀ k : Fin 98, ((Scalar.cmpi .ne (Scalar.extui (Scalar.cmpi .eq (BitVec.ofNat 32 k.val) 97#32)) 0#32) = 1#1)
    ↔ k.val = 97) (grid4.coords t 1)).trans (by rw [coords4_1 t])

theorem hz_r4 : (![0, 0] : Fin 2 → Nat) = fun _ => 0 := funext fun a => by fin_cases a <;> rfl

-- Every point of the buffer lies in the last store's rectangle, so earlier stores and contents are not read.
theorem read_last_r4 {sg : RefSig} {κ : Kind} {sp : Space} {S : Shape} {e : EltTy} (v : View sg κ sp S e)
    (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon v f _ (fun y => ⟨⟨Rect.unit off S.size inb, w⟩, List.mem_cons.mpr (Or.inl rfl),
    View.mem_set_unit_zero h inb y⟩), View.canon_cons_unit_zero h]

set_option maxHeartbeats 1000000 in
-- The scratch restarts from zero where the first condition holds; the output is written only where the second does.
theorem run4 (c : Dev nD) (i : grid4.Coords)
    (arg2 : Memref sig .tc .vmem S4096x1 .i32) (harg2 : arg2.IsWhole)
    (arg3 : Memref sig .tc .vmem S4096x1 .f32) (harg3 : arg3.IsWhole)
    (arg4 : Memref sig .tc .vmem S512x40 .bf16) (harg4 : arg4.IsWhole)
    (arg5 : Memref sig .tc .vmem S4096x40 .bf16) (harg5 : arg5.IsWhole)
    (arg6 : Memref sig .tc .vmem S4096x40 .f32) (harg6 : arg6.IsWhole) (h01 : cond4_0 i → ¬k4_cond2 i = 1#1)
    (src : Vec F S4096x1 .i32) (nrm : Vec F S4096x1 .f32) (h : Vec F S512x40 .bf16) (o : Vec F S4096x40 .bf16)
    (s : Vec F S4096x40 .f32)
    (E : Set ℕ) (K : PUnit → sProp 𝕄) :
    iprop(owns (c : Thread nD τ) arg2 fullShare src ∗ owns (c : Thread nD τ) arg3 fullShare nrm
        ∗ owns (c : Thread nD τ) arg4 fullShare h ∗ owns (c : Thread nD τ) arg5 fullShare o
        ∗ owns (c : Thread nD τ) arg6 fullShare s
        ∗ (iprop(owns (c : Thread nD τ) arg2 fullShare src ∗ owns (c : Thread nD τ) arg3 fullShare nrm
            ∗ owns (c : Thread nD τ) arg4 fullShare h
            ∗ owns (c : Thread nD τ) arg5 fullShare (if k4_cond2 i = 1#1 then
                k4_pay3 (k4_pay2 i src (if cond4_0 i then k4_pay1 else s) h) nrm else o)
            ∗ owns (c : Thread nD τ) arg6 fullShare (k4_pay2 i src (if cond4_0 i then k4_pay1 else s) h)) -∗ K ⟨⟩))
      ⊢ wp frame (wpE (defs₀ (F := F)) Variants.none c none) E
          (cc4__gather_kernel i arg2 harg2 arg3 harg3 arg4 harg4 arg5 harg5 arg6 harg6) K := by
  by_cases hc0 : cond4_0 i <;> by_cases hc1 : k4_cond2 i = 1#1
  · exact absurd hc1 (h01 hc0)
  all_goals
    first | rw [if_pos hc0] | rw [if_neg hc0]
    first | rw [if_pos hc1] | rw [if_neg hc1]
    simp only [cc4__gather_kernel_eq_skeleton]; unfold cc4__gather_kernel_skel owns
    iintro ⟨⟨%f2, %hf2, H2⟩, ⟨%f3, %hf3, H3⟩, ⟨%f4, %hf4, H4⟩, ⟨%f5, %hf5, H5⟩, ⟨%f6, %hf6, H6⟩, Hk⟩
    obtain rfl := harg2.eq_unread hf2; obtain rfl := harg3.eq_unread hf3; obtain rfl := harg4.eq_unread hf4
    obtain rfl := harg5.eq_unread hf5; obtain rfl := harg6.eq_unread hf6
    sl_exec
    sl_step
    iapply Hk
    isplitl [H2]; swap; isplitl [H3]; swap; isplitl [H4]; swap; isplitl [H5]; swap
    all_goals
      iexists _; isplitr; swap; · iassumption
      ipureintro
      first
      | sl_unfold_words
        rw [read_last_r4 (S := S4096x40) _ _ hz_r4]
        simp only [View.readAt_eq_ld, harg2.read_unread, harg3.read_unread, harg4.read_unread, harg6.read_unread,
          View.ld_unit_zero (S := S4096x1) hz_r4, View.ld_unit_zero (S := S512x40) hz_r4,
          View.ld_unit_zero (S := S4096x40) hz_r4, View.readCov_unit_zero (S := S4096x40) _ hz_r4]
      | exact Memref.IsWhole.read_unread _ _

-- The scratch after a point is the product added to zero at a first node block, else to what the point before left.
theorem scAt4_eq (c : Dev nD) (t : Fin cfg4.N) (s : Vec F S4096x40 .f32)
    (hs : ∀ h0 : t.val ≠ 0, s = scAt4 V c (t.val - 1) (Nat.lt_of_le_of_lt (Nat.sub_le _ _) t.isLt)) :
    scAt4 V c t.val t.isLt
      = k4_pay2 (grid4.coords t) (iblk4 V c 0 t) (if cond4_0 (grid4.coords t) then k4_pay1 else s) (iblk4 V c 2 t) := by
  obtain ⟨n, hn⟩ := t
  cases n with
  | zero => rw [if_pos ((hcond4_0 ⟨0, hn⟩).mpr rfl)]; rfl
  | succ n =>
    show scAt4 V c (n + 1) hn = _
    rw [scAt4, hs (Nat.succ_ne_zero n)]
    exact congrArg (fun x => k4_pay2 _ _ x _) (if_congr (hcond4_0 ⟨n + 1, hn⟩).symm rfl rfl)

theorem PhiA4_eq (c : Dev nD) :
    (Pipeline.ΦA spec4 c : sProp 𝕄)
      = iprop(iprop((∃ d, owns (c : Thread nD τ) scM4 fullShare d) ∗ rest4 c) ∗ (∃ r, prngReg c r)) := by
  unfold Pipeline.ΦA; rw [scopedRest4_split]; simp only [scM4, owns_whole]; try rfl

-- Before any point the scratch holds something; after the first point, what the point before left.
theorem PhiS4_elim (c : Dev nD) (n : ℕ) (h : n ≤ cfg4.N) :
    PhiS4 V c n h ⊢ iprop(∃ s, ⌜∀ h0 : n ≠ 0, s = scAt4 V c (n - 1) (by omega)⌝
      ∗ owns (c : Thread nD τ) scM4 fullShare s ∗ rest4 c ∗ (∃ r, prngReg c r)) := by
  cases n with
  | zero =>
    show Pipeline.ΦA spec4 c ⊢ _
    rw [PhiA4_eq]
    iintro ⟨⟨⟨%s, HS⟩, HR⟩, Hg⟩
    iexists s; isplitr; · ipureintro; exact fun h0 => absurd rfl h0
    isplitl [HS]; · iexact HS
    isplitl [HR]; · iexact HR
    iexact Hg
  | succ n =>
    show iprop(owns (c : Thread nD τ) scM4 fullShare (scAt4 V c n h) ∗ rest4 c ∗ (∃ r, prngReg c r)) ⊢ _
    iintro H
    iexists (scAt4 V c n h); isplitr; · ipureintro; exact fun _ => rfl
    iexact H

theorem before4_0 (c : Dev nD) (t : Fin cfg4.N) (d) : (dat4 V c).before 0 t d = iblk4 V c 0 t :=
  ((dat4 V c).before_in_eq_fetched 0 rfl (fun _ => rfl) (fun _ _ _ => rfl) (fun _ => rfl) t d).trans rfl
theorem before4_1 (c : Dev nD) (t : Fin cfg4.N) (d) : (dat4 V c).before 1 t d = iblk4 V c 1 t :=
  ((dat4 V c).before_in_eq_fetched 1 rfl (fun _ => rfl) (fun _ _ _ => rfl) (fun _ => rfl) t d).trans rfl
theorem before4_2 (c : Dev nD) (t : Fin cfg4.N) (d) : (dat4 V c).before 2 t d = iblk4 V c 2 t :=
  ((dat4 V c).before_in_eq_fetched 2 rfl (fun _ => rfl) (fun _ _ _ => rfl) (fun _ => rfl) t d).trans rfl

abbrev ms4_0 (t : Fin cfg4.N) : Memref sig .tc .vmem S4096x1 .i32 := win4_0.stage (cfg4.slots t 0)
abbrev ms4_1 (t : Fin cfg4.N) : Memref sig .tc .vmem S4096x1 .f32 := win4_1.stage (cfg4.slots t 1)
abbrev ms4_2 (t : Fin cfg4.N) : Memref sig .tc .vmem S512x40 .bf16 := win4_2.stage (cfg4.slots t 2)
abbrev ms4_3 (t : Fin cfg4.N) : Memref sig .tc .vmem S4096x40 .bf16 := win4_3.stage (cfg4.slots t 3)

-- The output block changes exactly where the second condition holds.
theorem leaves4_3 (c : Dev nD) (t : Fin cfg4.N) :
    (dat4 V c).leavesExact 3 t = if k4_cond2 (grid4.coords t) = 1#1
      then owns (c : Thread nD τ) (ms4_3 t) fullShare ((dat4 V c).after 3 t)
      else iprop(∃ d, owns (c : Thread nD τ) (ms4_3 t) fullShare ((dat4 V c).before 3 t d)) := by
  by_cases h : k4_cond2 (grid4.coords t) = 1#1
  · rw [if_pos h]; unfold Dat.leavesExact
    rw [show cfg4.idle 3 (grid4.coords t) = false from by
      show (!(k4_cond2 (grid4.coords t) == 1#1)) = false; simpa using h]
  · rw [if_neg h]
    exact Dat.leavesExact_idle _ 3 t (by show (!(k4_cond2 (grid4.coords t) == 1#1)) = true; simpa using h)
      (Bool.eq_false_iff.mpr fun hf => h ((hcond4_1 t).mpr ((flush4_3 t).mp hf)))

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

-- The invariant hands the body the scratch and takes it back at this point's contents; all else passes through.
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl, leaves4_3,
    show (dat4 V c).Φ t.succ = iprop(owns (c : Thread nD τ) scM4 fullShare (scAt4 V c t.val t.isLt) ∗ rest4 c
      ∗ (∃ r, prngReg c r)) from rfl]
  refine (sep_mono_left (PhiS4_elim V c t.castSucc.val (Nat.le_of_lt_succ t.castSucc.isLt))).trans ?_
  iintro ⟨⟨%s, %hs, HS, HR⟩, Ho, ⟨%d0, H0⟩, ⟨%d1, H1⟩, ⟨%d2, H2⟩, ⟨%d3, H3⟩⟩
  rw [after4_3, scAt4_eq V c t s hs]
  iapply (run4 c _ _ _ _ _ _ _ _ _ _ _
    (fun h0 h1 => by have := (hcond4_0 t).mp h0; have := (hcond4_1 t).mp h1; omega) (iblk4 V c 0 t) (iblk4 V c 1 t) (iblk4 V c 2 t) _ s Set.univ _)
  isplitl [H0]; · iexact H0
  isplitl [H1]; · iexact H1
  isplitl [H2]; · iexact H2
  isplitl [H3]; · iexact H3
  isplitl [HS]; · iexact HS
  iintro ⟨H0, H1, H2, H3, HS⟩
  isplitl [HS HR]
  · isplitl [HS]; · iexact HS
    iexact HR
  isplitl [Ho]; · iexact Ho
  isplitl [H0]; · iexact H0
  isplitl [H1]; · iexact H1
  isplitl [H2]; · iexact H2
  by_cases h1 : k4_cond2 (grid4.coords t) = 1#1
  · rw [if_pos h1, if_pos h1]; iexact H3
  · rw [if_neg h1, if_neg h1]; iexists _; iexact H3

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := Idealize.SL.BI.Entails.refl _

-- Forgetting what the scratch holds gives back the entry invariant.
theorem hout4 (c : Dev nD) : (dat4 V c).Φ (Fin.last cfg4.N) ⊢ Pipeline.ΦA spec4 c := by
  refine (PhiS4_elim V c (Fin.last cfg4.N).val (Nat.le_of_lt_succ (Fin.last cfg4.N).isLt)).trans ?_
  rw [PhiA4_eq]
  iintro ⟨%s, -, HS, HR, Hg⟩
  isplitl [HS HR]; swap; · iexact Hg
  isplitl [HS]; · iexists _; iexact HS
  iexact HR

end Cert.KernelIdeal.Hand

end
-- ==== Proof.KI.R5.lean ====
import proofs.«137339_j11914239279184_1_alg».proof.Proof.Gen.KernelIdeal.Launch
import proofs.«137339_j11914239279184_1_alg».proof.Proof.Gen.KernelIdeal.Skeleton
import proofs.«137339_j11914239279184_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev scM5 : Memref sig .tc .vmem S512x40 .f32 := Memref.whole cc5_scratch0

def scAt5 (c : Dev nD) : (n : ℕ) → n < cfg5.N → Vec F S512x40 .f32
  | 0, hn => k5_pay2 (grid5.coords ⟨0, hn⟩) (iblk5 V c 0 ⟨0, hn⟩) k5_pay1 (iblk5 V c 1 ⟨0, hn⟩)
  | n + 1, hn => k5_pay2 (grid5.coords ⟨n + 1, hn⟩) (iblk5 V c 0 ⟨n + 1, hn⟩)
      (if (n + 1) % 208 = 0 then k5_pay1 else scAt5 c n (Nat.lt_of_succ_lt hn)) (iblk5 V c 1 ⟨n + 1, hn⟩)

abbrev rest5 (c : Dev nD) : sProp 𝕄 :=
  Pipeline.scopedRestBut (Ix := Unit) (Name := ℕ) (U := UR sig nD τ) (Lvl := ℕ) (Val := Elt F) spec5 c [cc5_scratch0]

def PhiS5 (c : Dev nD) : (n : ℕ) → n ≤ cfg5.N → sProp 𝕄
  | 0, _ => Pipeline.ΦA spec5 c
  | n + 1, hn => iprop(owns (c : Thread nD τ) scM5 fullShare (scAt5 V c n hn) ∗ rest5 c ∗ (∃ r, prngReg c r))

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => k5_pay3 (scAt5 V c t.val t.isLt) (iblk5 V c 2 t)
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]
theorem after5_3 (c : Dev nD) (t : Fin cfg5.N) :
    (dat5 V c).after 3 t = k5_pay3 (scAt5 V c t.val t.isLt) (iblk5 V c 2 t) := by dsimp only [dat5]

theorem coords5_1 (t : Fin cfg5.N) : ((grid5.coords t) 1).val = t.val % 208 := by
  show t.val / grid5.stride 1 % 208 = t.val % 208
  rw [show grid5.stride 1 = 1 from by decide, Nat.div_one]

abbrev cond5_0 (i : grid5.Coords) : Prop :=
  (Scalar.cmpi .ne (Scalar.extui (Scalar.cmpi .eq (BitVec.ofNat 32 (i 1).val) 0#32)) 0#32) = 1#1

-- The two conditions compare the edge-block coordinate, a number below 208, with 0 and with 207.
theorem hcond5_0 (t : Fin cfg5.N) : cond5_0 (grid5.coords t) ↔ t.val % 208 = 0 :=
  ((by decide +kernel : ∀ k : Fin 208, ((Scalar.cmpi .ne (Scalar.extui (Scalar.cmpi .eq (BitVec.ofNat 32 k.val) 0#32)) 0#32) = 1#1)
    ↔ k.val = 0) (grid5.coords t 1)).trans (by rw [coords5_1 t])

theorem hcond5_1 (t : Fin cfg5.N) : k5_cond2 (grid5.coords t) = 1#1 ↔ t.val % 208 = 207 :=
  ((by decide +kernel : ∀ k : Fin 208, ((Scalar.cmpi .ne (Scalar.extui (Scalar.cmpi .eq (BitVec.ofNat 32 k.val) 207#32)) 0#32) = 1#1)
    ↔ k.val = 207) (grid5.coords t 1)).trans (by rw [coords5_1 t])

theorem hz_r5 : (![0, 0] : Fin 2 → Nat) = fun _ => 0 := funext fun a => by fin_cases a <;> rfl

-- Every point of the buffer lies in the last store's rectangle, so earlier stores and contents are not read.
theorem read_last_r5 {sg : RefSig} {κ : Kind} {sp : Space} {S : Shape} {e : EltTy} (v : View sg κ sp S e)
    (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon v f _ (fun y => ⟨⟨Rect.unit off S.size inb, w⟩, List.mem_cons.mpr (Or.inl rfl),
    View.mem_set_unit_zero h inb y⟩), View.canon_cons_unit_zero h]

set_option maxHeartbeats 1000000 in
-- The scratch restarts from zero where the first condition holds; the output is written only where the second does.
theorem run5 (c : Dev nD) (i : grid5.Coords)
    (arg2 : Memref sig .tc .vmem S1x4096 .i32) (harg2 : arg2.IsWhole)
    (arg3 : Memref sig .tc .vmem S4096x40 .bf16) (harg3 : arg3.IsWhole)
    (arg4 : Memref sig .tc .vmem S1x40 .f32) (harg4 : arg4.IsWhole)
    (arg5 : Memref sig .tc .vmem S512x40 .f32) (harg5 : arg5.IsWhole)
    (arg6 : Memref sig .tc .vmem S512x40 .f32) (harg6 : arg6.IsWhole) (h01 : cond5_0 i → ¬k5_cond2 i = 1#1)
    (dst : Vec F S1x4096 .i32) (msg : Vec F S4096x40 .bf16) (bias : Vec F S1x40 .f32) (o s : Vec F S512x40 .f32)
    (E : Set ℕ) (K : PUnit → sProp 𝕄) :
    iprop(owns (c : Thread nD τ) arg2 fullShare dst ∗ owns (c : Thread nD τ) arg3 fullShare msg
        ∗ owns (c : Thread nD τ) arg4 fullShare bias ∗ owns (c : Thread nD τ) arg5 fullShare o
        ∗ owns (c : Thread nD τ) arg6 fullShare s
        ∗ (iprop(owns (c : Thread nD τ) arg2 fullShare dst ∗ owns (c : Thread nD τ) arg3 fullShare msg
            ∗ owns (c : Thread nD τ) arg4 fullShare bias
            ∗ owns (c : Thread nD τ) arg5 fullShare (if k5_cond2 i = 1#1 then
                k5_pay3 (k5_pay2 i dst (if cond5_0 i then k5_pay1 else s) msg) bias else o)
            ∗ owns (c : Thread nD τ) arg6 fullShare (k5_pay2 i dst (if cond5_0 i then k5_pay1 else s) msg)) -∗ K ⟨⟩))
      ⊢ wp frame (wpE (defs₀ (F := F)) Variants.none c none) E
          (cc5__scatter_kernel i arg2 harg2 arg3 harg3 arg4 harg4 arg5 harg5 arg6 harg6) K := by
  by_cases hc0 : cond5_0 i <;> by_cases hc1 : k5_cond2 i = 1#1
  · exact absurd hc1 (h01 hc0)
  all_goals
    first | rw [if_pos hc0] | rw [if_neg hc0]
    first | rw [if_pos hc1] | rw [if_neg hc1]
    simp only [cc5__scatter_kernel_eq_skeleton]; unfold cc5__scatter_kernel_skel owns
    iintro ⟨⟨%f2, %hf2, H2⟩, ⟨%f3, %hf3, H3⟩, ⟨%f4, %hf4, H4⟩, ⟨%f5, %hf5, H5⟩, ⟨%f6, %hf6, H6⟩, Hk⟩
    obtain rfl := harg2.eq_unread hf2; obtain rfl := harg3.eq_unread hf3; obtain rfl := harg4.eq_unread hf4
    obtain rfl := harg5.eq_unread hf5; obtain rfl := harg6.eq_unread hf6
    sl_exec
    sl_step
    iapply Hk
    isplitl [H2]; swap; isplitl [H3]; swap; isplitl [H4]; swap; isplitl [H5]; swap
    all_goals
      iexists _; isplitr; swap; · iassumption
      ipureintro
      first
      | sl_unfold_run_names
        rw [read_last_r5 (S := S512x40) _ _ hz_r5]
        simp only [View.readAt_eq_ld, harg2.read_unread, harg3.read_unread, harg4.read_unread, harg6.read_unread,
          View.ld_unit_zero (S := S1x4096) hz_r5, View.ld_unit_zero (S := S4096x40) hz_r5,
          View.ld_unit_zero (S := S1x40) hz_r5, View.ld_unit_zero (S := S512x40) hz_r5,
          View.readCov_unit_zero (S := S512x40) _ hz_r5]
      | exact Memref.IsWhole.read_unread _ _

-- The scratch after a point is the product added to zero at a first edge block, else to what the point before left.
theorem scAt5_eq (c : Dev nD) (t : Fin cfg5.N) (s : Vec F S512x40 .f32)
    (hs : ∀ h0 : t.val ≠ 0, s = scAt5 V c (t.val - 1) (Nat.lt_of_le_of_lt (Nat.sub_le _ _) t.isLt)) :
    scAt5 V c t.val t.isLt
      = k5_pay2 (grid5.coords t) (iblk5 V c 0 t) (if cond5_0 (grid5.coords t) then k5_pay1 else s) (iblk5 V c 1 t) := by
  obtain ⟨n, hn⟩ := t
  cases n with
  | zero => rw [if_pos ((hcond5_0 ⟨0, hn⟩).mpr rfl)]; rfl
  | succ n =>
    show scAt5 V c (n + 1) hn = _
    rw [scAt5, hs (Nat.succ_ne_zero n)]
    exact congrArg (fun x => k5_pay2 _ _ x _) (if_congr (hcond5_0 ⟨n + 1, hn⟩).symm rfl rfl)

theorem PhiA5_eq (c : Dev nD) :
    (Pipeline.ΦA spec5 c : sProp 𝕄)
      = iprop(iprop((∃ d, owns (c : Thread nD τ) scM5 fullShare d) ∗ rest5 c) ∗ (∃ r, prngReg c r)) := by
  unfold Pipeline.ΦA; rw [scopedRest5_split]; simp only [scM5, owns_whole]; try rfl

-- Before any point the scratch holds something; after the first point, what the point before left.
theorem PhiS5_elim (c : Dev nD) (n : ℕ) (h : n ≤ cfg5.N) :
    PhiS5 V c n h ⊢ iprop(∃ s, ⌜∀ h0 : n ≠ 0, s = scAt5 V c (n - 1) (by omega)⌝
      ∗ owns (c : Thread nD τ) scM5 fullShare s ∗ rest5 c ∗ (∃ r, prngReg c r)) := by
  cases n with
  | zero =>
    show Pipeline.ΦA spec5 c ⊢ _
    rw [PhiA5_eq]
    iintro ⟨⟨⟨%s, HS⟩, HR⟩, Hg⟩
    iexists s; isplitr; · ipureintro; exact fun h0 => absurd rfl h0
    isplitl [HS]; · iexact HS
    isplitl [HR]; · iexact HR
    iexact Hg
  | succ n =>
    show iprop(owns (c : Thread nD τ) scM5 fullShare (scAt5 V c n h) ∗ rest5 c ∗ (∃ r, prngReg c r)) ⊢ _
    iintro H
    iexists (scAt5 V c n h); isplitr; · ipureintro; exact fun _ => rfl
    iexact H

theorem before5_0 (c : Dev nD) (t : Fin cfg5.N) (d) : (dat5 V c).before 0 t d = iblk5 V c 0 t :=
  ((dat5 V c).before_in_eq_fetched 0 rfl (fun _ => rfl) (fun _ _ _ => rfl) (fun _ => rfl) t d).trans rfl
theorem before5_1 (c : Dev nD) (t : Fin cfg5.N) (d) : (dat5 V c).before 1 t d = iblk5 V c 1 t :=
  ((dat5 V c).before_in_eq_fetched 1 rfl (fun _ => rfl) (fun _ _ _ => rfl) (fun _ => rfl) t d).trans rfl
theorem before5_2 (c : Dev nD) (t : Fin cfg5.N) (d) : (dat5 V c).before 2 t d = iblk5 V c 2 t :=
  ((dat5 V c).before_in_eq_fetched 2 rfl (fun _ => rfl) (fun _ _ _ => rfl) (fun _ => rfl) t d).trans rfl

abbrev ms5_0 (t : Fin cfg5.N) : Memref sig .tc .vmem S1x4096 .i32 := win5_0.stage (cfg5.slots t 0)
abbrev ms5_1 (t : Fin cfg5.N) : Memref sig .tc .vmem S4096x40 .bf16 := win5_1.stage (cfg5.slots t 1)
abbrev ms5_2 (t : Fin cfg5.N) : Memref sig .tc .vmem S1x40 .f32 := win5_2.stage (cfg5.slots t 2)
abbrev ms5_3 (t : Fin cfg5.N) : Memref sig .tc .vmem S512x40 .f32 := win5_3.stage (cfg5.slots t 3)

-- The output block changes exactly where the second condition holds.
theorem leaves5_3 (c : Dev nD) (t : Fin cfg5.N) :
    (dat5 V c).leavesExact 3 t = if k5_cond2 (grid5.coords t) = 1#1
      then owns (c : Thread nD τ) (ms5_3 t) fullShare ((dat5 V c).after 3 t)
      else iprop(∃ d, owns (c : Thread nD τ) (ms5_3 t) fullShare ((dat5 V c).before 3 t d)) := by
  by_cases h : k5_cond2 (grid5.coords t) = 1#1
  · rw [if_pos h]; unfold Dat.leavesExact
    rw [show cfg5.idle 3 (grid5.coords t) = false from by
      show (!(k5_cond2 (grid5.coords t) == 1#1)) = false; simpa using h]
  · rw [if_neg h]
    exact Dat.leavesExact_idle _ 3 t (by show (!(k5_cond2 (grid5.coords t) == 1#1)) = true; simpa using h)
      (Bool.eq_false_iff.mpr fun hf => h ((hcond5_1 t).mpr ((flush5_3 t).mp hf)))

def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t)

-- The invariant hands the body the scratch and takes it back at this point's contents; all else passes through.
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).owesAt () t.succ = (dat5 V c).owesAt () t.castSucc from rfl, leaves5_3,
    show (dat5 V c).Φ t.succ = iprop(owns (c : Thread nD τ) scM5 fullShare (scAt5 V c t.val t.isLt) ∗ rest5 c
      ∗ (∃ r, prngReg c r)) from rfl]
  refine (sep_mono_left (PhiS5_elim V c t.castSucc.val (Nat.le_of_lt_succ t.castSucc.isLt))).trans ?_
  iintro ⟨⟨%s, %hs, HS, HR⟩, Ho, ⟨%d0, H0⟩, ⟨%d1, H1⟩, ⟨%d2, H2⟩, ⟨%d3, H3⟩⟩
  rw [after5_3, scAt5_eq V c t s hs]
  iapply (run5 c _ _ _ _ _ _ _ _ _ _ _
    (fun h0 h1 => by have := (hcond5_0 t).mp h0; have := (hcond5_1 t).mp h1; omega) (iblk5 V c 0 t) (iblk5 V c 1 t) (iblk5 V c 2 t) _ s Set.univ _)
  isplitl [H0]; · iexact H0
  isplitl [H1]; · iexact H1
  isplitl [H2]; · iexact H2
  isplitl [H3]; · iexact H3
  isplitl [HS]; · iexact HS
  iintro ⟨H0, H1, H2, H3, HS⟩
  isplitl [HS HR]
  · isplitl [HS]; · iexact HS
    iexact HR
  isplitl [Ho]; · iexact Ho
  isplitl [H0]; · iexact H0
  isplitl [H1]; · iexact H1
  isplitl [H2]; · iexact H2
  by_cases h1 : k5_cond2 (grid5.coords t) = 1#1
  · rw [if_pos h1, if_pos h1]; iexact H3
  · rw [if_neg h1, if_neg h1]; iexists _; iexact H3

theorem body_obligation5 (c : Dev nD) : BodyObligation (dat5 (F := F) V c) (defs₀ (F := F)) Variants.none () Set.univ := fun t => by
  rw [bigSep_W5, bigSep_W5]
  exact sound_body5 V c t

theorem hin5 (c : Dev nD) : Pipeline.ΦA spec5 c ⊢ (dat5 V c).Φ 0 := Idealize.SL.BI.Entails.refl _

-- Forgetting what the scratch holds gives back the entry invariant.
theorem hout5 (c : Dev nD) : (dat5 V c).Φ (Fin.last cfg5.N) ⊢ Pipeline.ΦA spec5 c := by
  refine (PhiS5_elim V c (Fin.last cfg5.N).val (Nat.le_of_lt_succ (Fin.last cfg5.N).isLt)).trans ?_
  rw [PhiA5_eq]
  iintro ⟨%s, -, HS, HR, Hg⟩
  isplitl [HS HR]; swap; · iexact Hg
  isplitl [HS]; · iexists _; iexact HS
  iexact HR

end Cert.KernelIdeal.Hand

end
-- ==== Proof.KI.Run.lean ====
import proofs.«137339_j11914239279184_1_alg».proof.Proof.Gen.KernelIdeal.Regions
import proofs.«137339_j11914239279184_1_alg».proof.Proof.KI.R0
import proofs.«137339_j11914239279184_1_alg».proof.Proof.KI.R1
import proofs.«137339_j11914239279184_1_alg».proof.Proof.KI.R2
import proofs.«137339_j11914239279184_1_alg».proof.Proof.KI.R3
import proofs.«137339_j11914239279184_1_alg».proof.Proof.KI.R4
import proofs.«137339_j11914239279184_1_alg».proof.Proof.KI.R5

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- A valuation read at the core's references.
abbrev tcv (W : Dev nD → Valuation τ sig (Elt F)) : (c : Dev nD) → (b : Ref sig .tc) → Buf (Elt F) ((c : Thread nD τ).loc b) :=
  fun c b => W c b

-- After a region every buffer is as before it, except the region's output array, which holds what its write-backs left.
def X12 (c : Dev nD) : Valuation τ sig (Elt F) :=
  Function.update (V11 m c) main_v40 ((dat0 (tcv (V11 m)) c).arrAt 2 cfg0.N)

def X13 (c : Dev nD) : Valuation τ sig (Elt F) :=
  Function.update (X12 m c) main_v41 ((dat1 (tcv (X12 m)) c).arrAt 3 cfg1.N)

def X14 (c : Dev nD) : Valuation τ sig (Elt F) :=
  Function.update (X13 m c) main_v42 ((dat2 (tcv (X13 m)) c).arrAt 3 cfg2.N)

def X15 (c : Dev nD) : Valuation τ sig (Elt F) :=
  Function.update (X14 m c) main_v43 ((dat3 (tcv (X14 m)) c).arrAt 2 cfg3.N)

def X16 (c : Dev nD) : Valuation τ sig (Elt F) :=
  Function.update (X15 m c) main_v44 ((dat4 (tcv (X15 m)) c).arrAt 3 cfg4.N)

def X17 (c : Dev nD) : Valuation τ sig (Elt F) :=
  Function.update (X16 m c) main_v45 ((dat5 (tcv (X16 m)) c).arrAt 3 cfg5.N)

def outs : Outs (F := F) := fun J r c =>
  match J with
  | 12 => X12 m c r
  | 13 => X13 m c r
  | 14 => X14 m c r
  | 15 => X15 m c r
  | 16 => X16 m c r
  | _ => X17 m c r

theorem X12_of (c : Dev nD) (r : Ref sig .tc) (h : r ≠ main_v40) : X12 m c r = V11 m c r := by
  unfold X12
  exact Function.update_of_ne (StableHlo.devRef_ne_of_ne h) _ _

theorem X12_out (c : Dev nD) : X12 m c main_v40 = (dat0 (tcv (V11 m)) c).arrAt 2 cfg0.N := by
  unfold X12
  exact Function.update_self _ _ _

theorem X13_of (c : Dev nD) (r : Ref sig .tc) (h : r ≠ main_v41) : X13 m c r = X12 m c r := by
  unfold X13
  exact Function.update_of_ne (StableHlo.devRef_ne_of_ne h) _ _

theorem X13_out (c : Dev nD) : X13 m c main_v41 = (dat1 (tcv (X12 m)) c).arrAt 3 cfg1.N := by
  unfold X13
  exact Function.update_self _ _ _

theorem X14_of (c : Dev nD) (r : Ref sig .tc) (h : r ≠ main_v42) : X14 m c r = X13 m c r := by
  unfold X14
  exact Function.update_of_ne (StableHlo.devRef_ne_of_ne h) _ _

theorem X14_out (c : Dev nD) : X14 m c main_v42 = (dat2 (tcv (X13 m)) c).arrAt 3 cfg2.N := by
  unfold X14
  exact Function.update_self _ _ _

theorem X15_of (c : Dev nD) (r : Ref sig .tc) (h : r ≠ main_v43) : X15 m c r = X14 m c r := by
  unfold X15
  exact Function.update_of_ne (StableHlo.devRef_ne_of_ne h) _ _

theorem X15_out (c : Dev nD) : X15 m c main_v43 = (dat3 (tcv (X14 m)) c).arrAt 2 cfg3.N := by
  unfold X15
  exact Function.update_self _ _ _

theorem X16_of (c : Dev nD) (r : Ref sig .tc) (h : r ≠ main_v44) : X16 m c r = X15 m c r := by
  unfold X16
  exact Function.update_of_ne (StableHlo.devRef_ne_of_ne h) _ _

theorem X16_out (c : Dev nD) : X16 m c main_v44 = (dat4 (tcv (X15 m)) c).arrAt 3 cfg4.N := by
  unfold X16
  exact Function.update_self _ _ _

theorem X17_of (c : Dev nD) (r : Ref sig .tc) (h : r ≠ main_v45) : X17 m c r = X16 m c r := by
  unfold X17
  exact Function.update_of_ne (StableHlo.devRef_ne_of_ne h) _ _

theorem X17_out (c : Dev nD) : X17 m c main_v45 = (dat5 (tcv (X16 m)) c).arrAt 3 cfg5.N := by
  unfold X17
  exact Function.update_self _ _ _

theorem V12_eq (c : Dev nD) : V12 m (outs m) c = X12 m c := by
  show Function.update (V11 m c) main_v40 (X12 m c main_v40) = X12 m c
  rw [X12_out m c]
  rfl

theorem V13_eq (c : Dev nD) : V13 m (outs m) c = X13 m c := by
  show Function.update (V12 m (outs m) c) main_v41 (X13 m c main_v41) = X13 m c
  rw [V12_eq m c, X13_out m c]
  rfl

theorem V14_eq (c : Dev nD) : V14 m (outs m) c = X14 m c := by
  show Function.update (V13 m (outs m) c) main_v42 (X14 m c main_v42) = X14 m c
  rw [V13_eq m c, X14_out m c]
  rfl

theorem V15_eq (c : Dev nD) : V15 m (outs m) c = X15 m c := by
  show Function.update (V14 m (outs m) c) main_v43 (X15 m c main_v43) = X15 m c
  rw [V14_eq m c, X15_out m c]
  rfl

theorem V16_eq (c : Dev nD) : V16 m (outs m) c = X16 m c := by
  show Function.update (V15 m (outs m) c) main_v44 (X16 m c main_v44) = X16 m c
  rw [V15_eq m c, X16_out m c]
  rfl

theorem V17_eq (c : Dev nD) : V17 m (outs m) c = X17 m c := by
  show Function.update (V16 m (outs m) c) main_v45 (X17 m c main_v45) = X17 m c
  rw [V16_eq m c, X17_out m c]
  rfl

set_option maxHeartbeats 1000000 in
-- At its exit a region's input arrays are unchanged and its output array is the updated buffer; no other buffer moves.
theorem hF0 (c : Dev nD) : ∀ w : Fin 3,
    (dat0 (tcv (V11 m)) c).arrAt w cfg0.N = tcv (X12 m) c (Pipeline.arrRef spec0 w)
  | ⟨0, _⟩ => ((dat0 (tcv (V11 m)) c).arrAt_in 0 rfl _).trans ((A_eq0 (tcv (V11 m)) c 0).trans (X12_of m c main_v37 (by decide)).symm)
  | ⟨1, _⟩ => ((dat0 (tcv (V11 m)) c).arrAt_in 1 rfl _).trans ((A_eq0 (tcv (V11 m)) c 1).trans (X12_of m c main_arg2 (by decide)).symm)
  | ⟨2, _⟩ => (X12_out m c).symm
theorem hrest0 (c : Dev nD) : ∀ b, b ∉ Finset.univ.image (Pipeline.arrRef spec0) → tcv (X12 m) c b = tcv (V11 m) c b :=
  fun b hb => X12_of m c b (fun e => hb (Finset.mem_image.mpr ⟨2, Finset.mem_univ _, e.symm⟩))

set_option maxHeartbeats 1000000 in
theorem hF1 (c : Dev nD) : ∀ w : Fin 4,
    (dat1 (tcv (X12 m)) c).arrAt w cfg1.N = tcv (X13 m) c (Pipeline.arrRef spec1 w)
  | ⟨0, _⟩ => ((dat1 (tcv (X12 m)) c).arrAt_in 0 rfl _).trans ((A_eq1 (tcv (X12 m)) c 0).trans (X13_of m c main_v34 (by decide)).symm)
  | ⟨1, _⟩ => ((dat1 (tcv (X12 m)) c).arrAt_in 1 rfl _).trans ((A_eq1 (tcv (X12 m)) c 1).trans (X13_of m c main_v36 (by decide)).symm)
  | ⟨2, _⟩ => ((dat1 (tcv (X12 m)) c).arrAt_in 2 rfl _).trans ((A_eq1 (tcv (X12 m)) c 2).trans (X13_of m c main_v40 (by decide)).symm)
  | ⟨3, _⟩ => (X13_out m c).symm
theorem hrest1 (c : Dev nD) : ∀ b, b ∉ Finset.univ.image (Pipeline.arrRef spec1) → tcv (X13 m) c b = tcv (X12 m) c b :=
  fun b hb => X13_of m c b (fun e => hb (Finset.mem_image.mpr ⟨3, Finset.mem_univ _, e.symm⟩))

set_option maxHeartbeats 1000000 in
theorem hF2 (c : Dev nD) : ∀ w : Fin 4,
    (dat2 (tcv (X13 m)) c).arrAt w cfg2.N = tcv (X14 m) c (Pipeline.arrRef spec2 w)
  | ⟨0, _⟩ => ((dat2 (tcv (X13 m)) c).arrAt_in 0 rfl _).trans ((A_eq2 (tcv (X13 m)) c 0).trans (X14_of m c main_v35 (by decide)).symm)
  | ⟨1, _⟩ => ((dat2 (tcv (X13 m)) c).arrAt_in 1 rfl _).trans ((A_eq2 (tcv (X13 m)) c 1).trans (X14_of m c main_v41 (by decide)).symm)
  | ⟨2, _⟩ => ((dat2 (tcv (X13 m)) c).arrAt_in 2 rfl _).trans ((A_eq2 (tcv (X13 m)) c 2).trans (X14_of m c main_v38 (by decide)).symm)
  | ⟨3, _⟩ => (X14_out m c).symm
theorem hrest2 (c : Dev nD) : ∀ b, b ∉ Finset.univ.image (Pipeline.arrRef spec2) → tcv (X14 m) c b = tcv (X13 m) c b :=
  fun b hb => X14_of m c b (fun e => hb (Finset.mem_image.mpr ⟨3, Finset.mem_univ _, e.symm⟩))

set_option maxHeartbeats 1000000 in
theorem hF3 (c : Dev nD) : ∀ w : Fin 3,
    (dat3 (tcv (X14 m)) c).arrAt w cfg3.N = tcv (X15 m) c (Pipeline.arrRef spec3 w)
  | ⟨0, _⟩ => ((dat3 (tcv (X14 m)) c).arrAt_in 0 rfl _).trans ((A_eq3 (tcv (X14 m)) c 0).trans (X15_of m c main_v42 (by decide)).symm)
  | ⟨1, _⟩ => ((dat3 (tcv (X14 m)) c).arrAt_in 1 rfl _).trans ((A_eq3 (tcv (X14 m)) c 1).trans (X15_of m c main_arg4 (by decide)).symm)
  | ⟨2, _⟩ => (X15_out m c).symm
theorem hrest3 (c : Dev nD) : ∀ b, b ∉ Finset.univ.image (Pipeline.arrRef spec3) → tcv (X15 m) c b = tcv (X14 m) c b :=
  fun b hb => X15_of m c b (fun e => hb (Finset.mem_image.mpr ⟨2, Finset.mem_univ _, e.symm⟩))

set_option maxHeartbeats 1000000 in
theorem hF4 (c : Dev nD) : ∀ w : Fin 4,
    (dat4 (tcv (X15 m)) c).arrAt w cfg4.N = tcv (X16 m) c (Pipeline.arrRef spec4 w)
  | ⟨0, _⟩ => ((dat4 (tcv (X15 m)) c).arrAt_in 0 rfl _).trans ((A_eq4 (tcv (X15 m)) c 0).trans (X16_of m c main_v34 (by decide)).symm)
  | ⟨1, _⟩ => ((dat4 (tcv (X15 m)) c).arrAt_in 1 rfl _).trans ((A_eq4 (tcv (X15 m)) c 1).trans (X16_of m c main_v36 (by decide)).symm)
  | ⟨2, _⟩ => ((dat4 (tcv (X15 m)) c).arrAt_in 2 rfl _).trans ((A_eq4 (tcv (X15 m)) c 2).trans (X16_of m c main_v43 (by decide)).symm)
  | ⟨3, _⟩ => (X16_out m c).symm
theorem hrest4 (c : Dev nD) : ∀ b, b ∉ Finset.univ.image (Pipeline.arrRef spec4) → tcv (X16 m) c b = tcv (X15 m) c b :=
  fun b hb => X16_of m c b (fun e => hb (Finset.mem_image.mpr ⟨3, Finset.mem_univ _, e.symm⟩))

set_option maxHeartbeats 1000000 in
theorem hF5 (c : Dev nD) : ∀ w : Fin 4,
    (dat5 (tcv (X16 m)) c).arrAt w cfg5.N = tcv (X17 m) c (Pipeline.arrRef spec5 w)
  | ⟨0, _⟩ => ((dat5 (tcv (X16 m)) c).arrAt_in 0 rfl _).trans ((A_eq5 (tcv (X16 m)) c 0).trans (X17_of m c main_v35 (by decide)).symm)
  | ⟨1, _⟩ => ((dat5 (tcv (X16 m)) c).arrAt_in 1 rfl _).trans ((A_eq5 (tcv (X16 m)) c 1).trans (X17_of m c main_v44 (by decide)).symm)
  | ⟨2, _⟩ => ((dat5 (tcv (X16 m)) c).arrAt_in 2 rfl _).trans ((A_eq5 (tcv (X16 m)) c 2).trans (X17_of m c main_v39 (by decide)).symm)
  | ⟨3, _⟩ => (X17_out m c).symm
theorem hrest5 (c : Dev nD) : ∀ b, b ∉ Finset.univ.image (Pipeline.arrRef spec5) → tcv (X17 m) c b = tcv (X16 m) c b :=
  fun b hb => X17_of m c b (fun e => hb (Finset.mem_image.mpr ⟨3, Finset.mem_univ _, e.symm⟩))

def pdats : (p : Fin 6) → (c : Dev nD) → Dat τ (Elt F) Unit ℕ (UR sig nD τ) ℕ (cfgs p) c
  | ⟨0, _⟩ => fun c => dat0 (tcv (V11 m)) c
  | ⟨1, _⟩ => fun c => dat1 (tcv (X12 m)) c
  | ⟨2, _⟩ => fun c => dat2 (tcv (X13 m)) c
  | ⟨3, _⟩ => fun c => dat3 (tcv (X14 m)) c
  | ⟨4, _⟩ => fun c => dat4 (tcv (X15 m)) c
  | ⟨5, _⟩ => fun c => dat5 (tcv (X16 m)) c

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

set_option backward.isDefEq.respectTransparency.types false in

-- A region as a segment: its arrays are split out of the unscoped buffers at `Vb` and put back at `Va`; nothing is owed.
def regOf (p : Fin 6) (ln : Pipeline.LaunchFacts (nD := nD) (τ := τ) cfgs p) (Vb Va : Dev nD → Valuation τ sig (Elt F))
    (hb : ∀ c, BodyObligation (pdats m p c) (defs₀ (F := F)) 𝒱₀ () Set.univ)
    (hq : ∀ c w, (pdats m p c).q w = fullShare) (ho : ∀ c t, (pdats m p c).owed t = 0)
    (hR : ∀ c x, x ∈ (pdats m p c).recorded 0)
    (hA : ∀ c w, (pdats m p c).A w = tcv Vb c (Pipeline.arrRef (cfgs p).spec w))
    (hi : ∀ c, (Pipeline.ΦA (cfgs p).spec c : sProp 𝕄) ⊢ (pdats m p c).Φ 0)
    (hu : ∀ c, (pdats m p c).Φ (Fin.last (cfgs p).N) ⊢ (Pipeline.ΦA (cfgs p).spec c : sProp 𝕄))
    (hF : ∀ c w, (pdats m p c).arrAt w (cfgs p).N = tcv Va c (Pipeline.arrRef (cfgs p).spec w))
    (hr : ∀ c b, b ∉ Finset.univ.image (Pipeline.arrRef (cfgs p).spec) → tcv Va c b = tcv Vb c b) :
    Pipeline.RegionSeg (pcfgs (F := F)) adm (pdats m) () defs₀ 𝒱₀ L lv p where
  win := ln.win.to₀
  block_pos := ln.block_pos
  stage_whole := ln.stage_whole
  K := PEmpty
  osem k := k.elim
  ho := Pipeline.OwnSemFacts.none _
  hbody c := (hb c).loose
  hwaits := Pipeline.hwaits_of_owed_zero _ _ _ _ L lv p ho
  pre c := iprop(StableHlo.held (c : Thread nD τ) (Pipeline.ucRefs τ sig) (Vb c) ∗ R c)
  post c := iprop(StableHlo.held (c : Thread nD τ) (Pipeline.ucRefs τ sig) (Va c) ∗ R c)
  X c := iprop(∃ r, prngReg c r)
  Y c := iprop(∃ r, prngReg c r)
  Z c := Pipeline.unscopedRest (Ix := Unit) (Name := ℕ) (U := UR sig nD τ) (Lvl := ℕ) (cfgs p).spec c (tcv Vb c)
  hentry c := by
    rw [Pipeline.ownSems0_none]
    have hsplit := Pipeline.arrays_of_unscopedBufs (p := p) (pcfgs (F := F)) adm (pdats m) ln.win ln.arr_whole c
      ((pdats m p c).share_full (hq c)) (tcv Vb c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [ho c 0]
      icases HO with ⟨%W, HO⟩; iexists W; isplitr; · ipureintro; exact fun x _ => Or.inl (hR c x)
      iexact HO
    isplitl [Hp]; · iexact Hp
    iexact Hrest
  hin c := by
    refine BIBase.Entails.trans ?_ (hi c)
    unfold Pipeline.ΦA
    iintro ⟨Hp, -, Hr⟩
    isplitl [Hr]; · iexact Hr
    iexact Hp
  hout c := by
    rw [Pipeline.ownSems0_none]
    refine BIBase.Entails.trans (hu c) ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      ln.win ln.arr_whole c (pdats m) ((pdats m p c).share_full (hq c))
      (tcv Vb c) (tcv Va c) ((pdats m p c).arrAt · (cfgs p).N) (hF c) (hr c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [ho c]
    icases HO with ⟨%W, -, HO⟩; iexists W; iexact HO

def reg0 := regOf m 0 launch0 (V11 m) (X12 m) (body_obligation0 (tcv (V11 m))) (fun _ _ => rfl) (fun _ _ => rfl) (fun _ _ => trivial)
  (fun _ _ => rfl) (fun _ => .rfl) (fun _ => .rfl) (hF0 m) (hrest0 m)
def reg1 := regOf m 1 launch1 (X12 m) (X13 m) (body_obligation1 (tcv (X12 m))) (fun _ _ => rfl) (fun _ _ => rfl) (fun _ _ => trivial)
  (fun _ _ => rfl) (hin1 (tcv (X12 m))) (hout1 (tcv (X12 m))) (hF1 m) (hrest1 m)
def reg2 := regOf m 2 launch2 (X13 m) (X14 m) (body_obligation2 (tcv (X13 m))) (fun _ _ => rfl) (fun _ _ => rfl) (fun _ _ => trivial)
  (fun _ _ => rfl) (hin2 (tcv (X13 m))) (hout2 (tcv (X13 m))) (hF2 m) (hrest2 m)
def reg3 := regOf m 3 launch3 (X14 m) (X15 m) (body_obligation3 (tcv (X14 m))) (fun _ _ => rfl) (fun _ _ => rfl) (fun _ _ => trivial)
  (fun _ _ => rfl) (fun _ => .rfl) (fun _ => .rfl) (hF3 m) (hrest3 m)
def reg4 := regOf m 4 launch4 (X15 m) (X16 m) (body_obligation4 (tcv (X15 m))) (fun _ _ => rfl) (fun _ _ => rfl) (fun _ _ => trivial)
  (fun _ _ => rfl) (hin4 (tcv (X15 m))) (hout4 (tcv (X15 m))) (hF4 m) (hrest4 m)
def reg5 := regOf m 5 launch5 (X16 m) (X17 m) (body_obligation5 (tcv (X16 m))) (fun _ _ => rfl) (fun _ _ => rfl) (fun _ _ => trivial)
  (fun _ _ => rfl) (hin5 (tcv (X16 m))) (hout5 (tcv (X16 m))) (hF5 m) (hrest5 m)

end Cert.KernelIdeal.Hand

end
-- ==== Proof.KI.Launch.lean ====
import proofs.«137339_j11914239279184_1_alg».proof.Proof.KI.Run
import proofs.«137339_j11914239279184_1_alg».proof.Proof.KI.RunCond

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- The program runs to the end, its arguments unchanged, the result buffer at what the last host stretch reads off the regions' outputs.
theorem run_val : θ_run defs (onTc (τ := τ) (main (F := F))) ⟨m, fun _ => 0, ρ⟩ (fun r => ∀ c : Dev nD,
      r.2.mem ((c.tc : Thread nD τ).loc main_v46) = V18 m (outs m) c main_v46
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  run_cond m emb₁ () 𝒱₀ L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (by
      have hcore : ∀ c : Dev nD, (iprop(unscopedSems0 c ∗ owes (c : Thread nD τ) ((0 : Dev nD → CellTallies nD τ sig Unit) c) ∅
            ∗ Pipeline.launchCred (0 : Dev nD → CellTallies nD τ sig Unit) c ∗ prngReg c (ρ c) ∗ emp) : sProp 𝕄) ⊢ R c := fun c => by
        iintro ⟨-, HO, -, Hp, -⟩
        isplitl [Hp]; · iexists _; iexact Hp
        iexists ∅; iexact HO
      have hmono : (bigSep Finset.univ fun c : Dev nD => iprop(unscopedSems0 c ∗ owes (c : Thread nD τ) ((0 : Dev nD → CellTallies nD τ sig Unit) c) ∅
            ∗ Pipeline.launchCred (0 : Dev nD → CellTallies nD τ sig Unit) c ∗ prngReg c (ρ c) ∗ emp))
          ⊢ (bigSep Finset.univ (fun c : Dev nD => R c) : sProp 𝕄) :=
        bigSep_mono fun c _ => hcore c
      iintro ⟨H, -⟩
      imodintro
      iapply hmono
      iexact H)
    (fun c => by iintro ⟨-, HO⟩; iexact HO)
    (reg0 m) (fun c => .rfl) (fun c => by rw [V12_eq m c]; exact .rfl)
    (reg1 m) (fun c => by rw [V12_eq m c]; exact .rfl) (fun c => by rw [V13_eq m c]; exact .rfl)
    (reg2 m) (fun c => by rw [V13_eq m c]; exact .rfl) (fun c => by rw [V14_eq m c]; exact .rfl)
    (reg3 m) (fun c => by rw [V14_eq m c]; exact .rfl) (fun c => by rw [V15_eq m c]; exact .rfl)
    (reg4 m) (fun c => by rw [V15_eq m c]; exact .rfl) (fun c => by rw [V16_eq m c]; exact .rfl)
    (reg5 m) (fun c => by rw [V16_eq m c]; exact .rfl) (fun c => by rw [V17_eq m c]; exact .rfl)

end Cert.KernelIdeal.Hand

end
-- ==== Proof.Val.PayVal.lean ====
import proofs.«137339_j11914239279184_1_alg».proof.Proof.Gen.KernelIdeal.Skeleton
import Idealize.ShloMosaic.Lib.ValueIdx
import Idealize.ShloMosaic.Lib.ValueLayout
import Idealize.ShloMosaic.Lib.StableHlo.Predicate
import Idealize.ShloMosaic.PureOps.Ideal.Laws

noncomputable section

open scoped BigOperators

namespace Cert.KernelIdeal.PayVal

open Cert.KernelIdeal Cert.KernelIdeal.Gen Idealize.ShloMosaic Idealize.ShloMosaic.ValueIdx

theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

section Plain
variable {M K N : ℕ} (D : DotDims ⟨2, ![M, K]⟩ ⟨2, ![K, N]⟩ ⟨2, ![M, N]⟩)

theorem lhsIdx_row (hlb : D.lhsBatch = []) (hln : D.lhsNonContracting = [0]) (j : (⟨2, ![M, N]⟩ : Shape).Idx)
    (q : D.contr.Idx) : (D.lhsIdx j q 0).val = (j 0).val := by
  have hb : (0 : Fin (⟨2, ![M, K]⟩ : Shape).rank) ∉ D.lhsBatch := by rw [hlb]; exact List.not_mem_nil
  have hn : (0 : Fin (⟨2, ![M, K]⟩ : Shape).rank) ∈ D.lhsNonContracting := by rw [hln]; exact List.mem_singleton.mpr rfl
  unfold DotDims.lhsIdx
  rw [dif_neg hb, dif_pos hn]
  simp only [Fin.val_cast]
  have key : ∀ (p p' : Nat) (hp : p < 2) (hp' : p' < 2), p = p' → (j ⟨p, hp⟩).val = (j ⟨p', hp'⟩).val :=
    fun p p' hp hp' h => by subst h; rfl
  exact key _ 0 _ (by omega) (by simp [hlb, hln])

theorem rhsIdx_col (hlb : D.lhsBatch = []) (hln : D.lhsNonContracting = [0]) (hrb : D.rhsBatch = [])
    (hrn : D.rhsNonContracting = [1]) (j : (⟨2, ![M, N]⟩ : Shape).Idx) (q : D.contr.Idx) :
    (D.rhsIdx j q 1).val = (j 1).val := by
  have hb : (1 : Fin (⟨2, ![K, N]⟩ : Shape).rank) ∉ D.rhsBatch := by rw [hrb]; exact List.not_mem_nil
  have hn : (1 : Fin (⟨2, ![K, N]⟩ : Shape).rank) ∈ D.rhsNonContracting := by rw [hrn]; exact List.mem_singleton.mpr rfl
  unfold DotDims.rhsIdx
  rw [dif_neg hb, dif_pos hn]
  simp only [Fin.val_cast]
  have key : ∀ (p p' : Nat) (hp : p < 2) (hp' : p' < 2), p = p' → (j ⟨p, hp⟩).val = (j ⟨p', hp'⟩).val :=
    fun p p' hp hp' h => by subst h; rfl
  exact key _ 1 _ (by omega) (by simp [hlb, hln, hrn])

theorem matmul_plain_apply {φ₁ φ₂ : FTy} (hlc : D.lhsContracting = [1]) (hrc : D.rhsContracting = [0])
    (hln : D.lhsNonContracting = [0]) (hrn : D.rhsNonContracting = [1]) (hlb : D.lhsBatch = []) (hrb : D.rhsBatch = [])
    (A : FVec Ideal ⟨2, ![M, K]⟩ φ₁) (B : FVec Ideal ⟨2, ![K, N]⟩ φ₂) (r : Fin M) (f : Fin N) :
    matmul D none A B (constant ⟨2, ![M, N]⟩ .f32 0x00000000#32) (ix2 r f) = ∑ k : Fin K, A (ix2 r k) * B (ix2 k f) := by
  have hr : D.contr.rank = 1 := by rw [D.rank_contr, hlc]; rfl
  have hs : D.contr.size ⟨0, by omega⟩ = K := by
    rw [D.size_contr 0 (by rw [hlc]; exact Nat.one_pos), List.getElem_of_eq hlc]; rfl
  show FloatOps.matmul D none A B (constant ⟨2, ![M, N]⟩ .f32 0x00000000#32) (ix2 r f) = _
  rw [Ideal.matmul_constant_zero_apply, ← Equiv.sum_comp (contrEquiv1 D K hr hs).symm]
  refine Finset.sum_congr rfl fun k _ => ?_
  have hk := contrEquiv1_symm_val D K hr hs k
  have el : D.lhsIdx (ix2 r f) ((contrEquiv1 D K hr hs).symm k) = ix2 r k := funext fun a => Fin.ext (by
    match a with
    | ⟨0, _⟩ => exact lhsIdx_row D hlb hln _ _
    | ⟨1, _⟩ => exact (D.lhsIdx_val_of_single hlc _ _).trans hk)
  have er : D.rhsIdx (ix2 r f) ((contrEquiv1 D K hr hs).symm k) = ix2 k f := funext fun a => Fin.ext (by
    match a with
    | ⟨0, _⟩ => exact (D.rhsIdx_val_of_single hrc _ _).trans hk
    | ⟨1, _⟩ => exact rhsIdx_col D hlb hln hrb hrn _ _)
  rw [el, er]

end Plain

theorem eq_row_word_iff (n : ℕ) (hn : n < 98) (j : ℕ) (hj : j < 512) (w : BitVec 32) :
    w = IntOp.addi (BitVec.ofNat 32 j) (Scalar.muli (BitVec.ofNat 32 n) 512#32) ↔ w.toNat = n * 512 + j := by
  have hv : (IntOp.addi (BitVec.ofNat 32 j) (Scalar.muli (BitVec.ofNat 32 n) 512#32)).toNat = n * 512 + j := by
    show (BitVec.ofNat 32 j + BitVec.ofNat 32 n * 512#32).toNat = _
    rw [BitVec.toNat_add, BitVec.toNat_mul, BitVec.toNat_ofNat, BitVec.toNat_ofNat, BitVec.toNat_ofNat]
    omega
  exact ⟨fun h => h ▸ hv, fun h => BitVec.eq_of_toNat_eq (h.trans hv.symm)⟩

theorem sitofp_extui_cmpi_eq (a b : BitVec 32) (φ : FTy) :
    (FloatOps.sitofp (F := Ideal) φ ((IntOp.cmpi .eq a b).setWidth 32) : EReal) = if a = b then 1 else 0 := by
  by_cases h : a = b
  · rw [if_pos h, StableHlo.Predicate.cmpi_eq_iff.mpr h]
    show (((1#1 : BitVec 1).setWidth 32).toInt : ℝ) = (1 : EReal)
    norm_num
  · rw [if_neg h, eq_zero_of_ne_one (fun h1 => h (StableHlo.Predicate.cmpi_eq_iff.mp h1))]
    show (((0#1 : BitVec 1).setWidth 32).toInt : ℝ) = (0 : EReal)
    norm_num

theorem gather_onehot_apply (n : ℕ) (hn : n < 98) (src : IVec S4096x1 32) (hb : S4096x1.Broadcasts S4096x512)
    (hio : S4096x512.Iotas .tc 32 [1]) (hw : 1 < 32) (hφ : FTy.bits .bf16 < FTy.bits .f32) (r : Fin 4096) (j : Fin 512) :
    (truncf .bf16 (sitofp (F := Ideal) .f32 (extui 32 (cmpi .eq (broadcastTo S4096x512 src hb)
        (addi (iota .tc S4096x512 32 [1] hio) (broadcast S4096x512 (Scalar.muli (BitVec.ofNat 32 n) 512#32)))) hw)) hφ
      : FVec Ideal S4096x512 .bf16) (ix2 r j)
      = if (src (ix2 r 0)).toNat = n * 512 + j.val then 1 else 0 := by
  rw [truncf_apply, sitofp_apply, extui_apply]
  show FloatOps.sitofp (F := Ideal) .f32 ((IntOp.cmpi .eq (broadcastTo S4096x512 src hb (ix2 r j))
    (IntOp.addi (iota .tc S4096x512 32 [1] hio (ix2 r j)) (Scalar.muli (BitVec.ofNat 32 n) 512#32))).setWidth 32) = _
  rw [sitofp_extui_cmpi_eq, broadcastTo_a1_ab_apply, iota_single_apply]
  exact if_congr (eq_row_word_iff n hn j.val j.isLt _) rfl rfl

theorem scatter_onehot_apply (n : ℕ) (hn : n < 98) (dst : IVec S1x4096 32) (hb : S1x4096.Broadcasts S512x4096)
    (hio : S512x4096.Iotas .tc 32 [0]) (hw : 1 < 32) (hφ : FTy.bits .bf16 < FTy.bits .f32) (r : Fin 512) (e : Fin 4096) :
    (truncf .bf16 (sitofp (F := Ideal) .f32 (extui 32 (cmpi .eq
        (addi (iota .tc S512x4096 32 [0] hio) (broadcast S512x4096 (Scalar.muli (BitVec.ofNat 32 n) 512#32)))
        (broadcastTo S512x4096 dst hb)) hw)) hφ
      : FVec Ideal S512x4096 .bf16) (ix2 r e)
      = if (dst (ix2 0 e)).toNat = n * 512 + r.val then 1 else 0 := by
  rw [truncf_apply, sitofp_apply, extui_apply]
  show FloatOps.sitofp (F := Ideal) .f32 ((IntOp.cmpi .eq
    (IntOp.addi (iota .tc S512x4096 32 [0] hio (ix2 r e)) (Scalar.muli (BitVec.ofNat 32 n) 512#32))
    (broadcastTo S512x4096 dst hb (ix2 r e))).setWidth 32) = _
  rw [sitofp_extui_cmpi_eq, broadcastTo_1b_ab_apply, iota_single_apply]
  exact if_congr (eq_comm.trans (eq_row_word_iff n hn r.val r.isLt _)) rfl rfl

theorem gather_step_apply {d : ℕ} (D : DotDims S4096x512 ⟨2, ![512, d]⟩ ⟨2, ![4096, d]⟩)
    (hlc : D.lhsContracting = [1]) (hrc : D.rhsContracting = [0]) (hln : D.lhsNonContracting = [0])
    (hrn : D.rhsNonContracting = [1]) (hlb : D.lhsBatch = []) (hrb : D.rhsBatch = [])
    (n : ℕ) (hn : n < 98) (src : IVec S4096x1 32) (hb : S4096x1.Broadcasts S4096x512)
    (hio : S4096x512.Iotas .tc 32 [1]) (hw : 1 < 32) (hφ : FTy.bits .bf16 < FTy.bits .f32)
    (acc : FVec Ideal ⟨2, ![4096, d]⟩ .f32) (h : FVec Ideal ⟨2, ![512, d]⟩ .bf16) (r : Fin 4096) (f : Fin d) :
    addf acc (matmul D none
        (truncf .bf16 (sitofp (F := Ideal) .f32 (extui 32 (cmpi .eq (broadcastTo S4096x512 src hb)
          (addi (iota .tc S4096x512 32 [1] hio) (broadcast S4096x512 (Scalar.muli (BitVec.ofNat 32 n) 512#32)))) hw)) hφ)
        h (constant ⟨2, ![4096, d]⟩ .f32 0x00000000#32)) (ix2 r f)
      = acc (ix2 r f) + ∑ j : Fin 512, (if (src (ix2 r 0)).toNat = n * 512 + j.val then (1 : EReal) else 0) * h (ix2 j f) := by
  rw [addf_apply, matmul_plain_apply D hlc hrc hln hrn hlb hrb]
  refine congrArg (acc (ix2 r f) + ·) (Finset.sum_congr rfl fun j _ => ?_)
  rw [gather_onehot_apply n hn]

theorem scatter_step_apply {d : ℕ} (D : DotDims S512x4096 ⟨2, ![4096, d]⟩ ⟨2, ![512, d]⟩)
    (hlc : D.lhsContracting = [1]) (hrc : D.rhsContracting = [0]) (hln : D.lhsNonContracting = [0])
    (hrn : D.rhsNonContracting = [1]) (hlb : D.lhsBatch = []) (hrb : D.rhsBatch = [])
    (n : ℕ) (hn : n < 98) (dst : IVec S1x4096 32) (hb : S1x4096.Broadcasts S512x4096)
    (hio : S512x4096.Iotas .tc 32 [0]) (hw : 1 < 32) (hφ : FTy.bits .bf16 < FTy.bits .f32)
    (acc : FVec Ideal ⟨2, ![512, d]⟩ .f32) (msg : FVec Ideal ⟨2, ![4096, d]⟩ .bf16) (r : Fin 512) (f : Fin d) :
    addf acc (matmul D none
        (truncf .bf16 (sitofp (F := Ideal) .f32 (extui 32 (cmpi .eq
          (addi (iota .tc S512x4096 32 [0] hio) (broadcast S512x4096 (Scalar.muli (BitVec.ofNat 32 n) 512#32)))
          (broadcastTo S512x4096 dst hb)) hw)) hφ)
        msg (constant ⟨2, ![512, d]⟩ .f32 0x00000000#32)) (ix2 r f)
      = acc (ix2 r f) + ∑ e : Fin 4096, (if (dst (ix2 0 e)).toNat = n * 512 + r.val then (1 : EReal) else 0) * msg (ix2 e f) := by
  rw [addf_apply, matmul_plain_apply D hlc hrc hln hrn hlb hrb]
  refine congrArg (acc (ix2 r f) + ·) (Finset.sum_congr rfl fun e _ => ?_)
  rw [scatter_onehot_apply n hn]

theorem k0_pay1_apply (x : Vec Ideal S512x128 .f32) (w : Vec Ideal S128x128 .f32) (r : Fin 512) (f : Fin 128) :
    k0_pay1 (F := Ideal) x w (ix2 r f) = ∑ k : Fin 128, x (ix2 r k) * w (ix2 k f) := by
  unfold k0_pay1
  simp only [shapeCast_self]
  rw [truncf_apply, matmul_plain_apply _ rfl rfl rfl rfl rfl rfl]
  rfl

theorem k3_pay1_apply (x : Vec Ideal S512x128 .f32) (w : Vec Ideal S128x40 .f32) (r : Fin 512) (f : Fin 40) :
    k3_pay1 (F := Ideal) x w (ix2 r f) = ∑ k : Fin 128, max (x (ix2 r k)) 0 * w (ix2 k f) := by
  unfold k3_pay1
  simp only [shapeCast_self]
  rw [truncf_apply, matmul_plain_apply _ rfl rfl rfl rfl rfl rfl]
  refine Finset.sum_congr rfl fun k _ => ?_
  show max (x (ix2 r k)) (Ideal.ofBits .f32 0x00000000#32) * w (ix2 k f) = _
  rw [Ideal.ofBits_zero_f32]

theorem k1_pay1_apply (r : Fin 4096) (f : Fin 128) : k1_pay1 (F := Ideal) (ix2 r f) = 0 := by
  unfold k1_pay1
  simp only [shapeCast_self]
  exact Ideal.ofBits_zero_f32

theorem k1_pay2_apply (i : grid1.Coords) (src : Vec Ideal S4096x1 .i32) (acc : Vec Ideal S4096x128 .f32)
    (h : Vec Ideal S512x128 .bf16) (r : Fin 4096) (f : Fin 128) :
    k1_pay2 (F := Ideal) i src acc h (ix2 r f)
      = acc (ix2 r f) + ∑ j : Fin 512, (if (src (ix2 r 0)).toNat = (i 1).val * 512 + j.val then (1 : EReal) else 0) * h (ix2 j f) := by
  unfold k1_pay2
  simp only [shapeCast_self]
  exact gather_step_apply _ rfl rfl rfl rfl rfl rfl (i 1).val (i 1).isLt src _ _ _ _ acc h r f

theorem k1_pay3_apply (acc : Vec Ideal S4096x128 .f32) (nrm : Vec Ideal S4096x1 .f32) (r : Fin 4096) (f : Fin 128) :
    k1_pay3 (F := Ideal) acc nrm (ix2 r f) = acc (ix2 r f) * nrm (ix2 r 0) := by
  unfold k1_pay3
  simp only [shapeCast_self]
  rw [truncf_apply, mulf_apply, broadcastTo_a1_ab_apply]

theorem k2_pay1_apply (r : Fin 512) (f : Fin 128) : k2_pay1 (F := Ideal) (ix2 r f) = 0 := by
  unfold k2_pay1
  simp only [shapeCast_self]
  exact Ideal.ofBits_zero_f32

theorem k2_pay2_apply (i : grid2.Coords) (dst : Vec Ideal S1x4096 .i32) (acc : Vec Ideal S512x128 .f32)
    (msg : Vec Ideal S4096x128 .bf16) (r : Fin 512) (f : Fin 128) :
    k2_pay2 (F := Ideal) i dst acc msg (ix2 r f)
      = acc (ix2 r f) + ∑ e : Fin 4096, (if (dst (ix2 0 e)).toNat = (i 0).val * 512 + r.val then (1 : EReal) else 0) * msg (ix2 e f) := by
  unfold k2_pay2
  simp only [shapeCast_self]
  exact scatter_step_apply _ rfl rfl rfl rfl rfl rfl (i 0).val (i 0).isLt dst _ _ _ _ acc msg r f

theorem k2_pay3_apply (acc : Vec Ideal S512x128 .f32) (bias : Vec Ideal S1x128 .f32) (r : Fin 512) (f : Fin 128) :
    k2_pay3 (F := Ideal) acc bias (ix2 r f) = acc (ix2 r f) + bias (ix2 0 f) := by
  unfold k2_pay3
  simp only [shapeCast_self]
  rw [addf_apply, broadcastTo_1b_ab_apply]

theorem k4_pay1_apply (r : Fin 4096) (f : Fin 40) : k4_pay1 (F := Ideal) (ix2 r f) = 0 := by
  unfold k4_pay1
  simp only [shapeCast_self]
  exact Ideal.ofBits_zero_f32

theorem k4_pay2_apply (i : grid4.Coords) (src : Vec Ideal S4096x1 .i32) (acc : Vec Ideal S4096x40 .f32)
    (h : Vec Ideal S512x40 .bf16) (r : Fin 4096) (f : Fin 40) :
    k4_pay2 (F := Ideal) i src acc h (ix2 r f)
      = acc (ix2 r f) + ∑ j : Fin 512, (if (src (ix2 r 0)).toNat = (i 1).val * 512 + j.val then (1 : EReal) else 0) * h (ix2 j f) := by
  unfold k4_pay2
  simp only [shapeCast_self]
  exact gather_step_apply _ rfl rfl rfl rfl rfl rfl (i 1).val (i 1).isLt src _ _ _ _ acc h r f

theorem k4_pay3_apply (acc : Vec Ideal S4096x40 .f32) (nrm : Vec Ideal S4096x1 .f32) (r : Fin 4096) (f : Fin 40) :
    k4_pay3 (F := Ideal) acc nrm (ix2 r f) = acc (ix2 r f) * nrm (ix2 r 0) := by
  unfold k4_pay3
  simp only [shapeCast_self]
  rw [truncf_apply, mulf_apply, broadcastTo_a1_ab_apply]

theorem k5_pay1_apply (r : Fin 512) (f : Fin 40) : k5_pay1 (F := Ideal) (ix2 r f) = 0 := by
  unfold k5_pay1
  simp only [shapeCast_self]
  exact Ideal.ofBits_zero_f32

theorem k5_pay2_apply (i : grid5.Coords) (dst : Vec Ideal S1x4096 .i32) (acc : Vec Ideal S512x40 .f32)
    (msg : Vec Ideal S4096x40 .bf16) (r : Fin 512) (f : Fin 40) :
    k5_pay2 (F := Ideal) i dst acc msg (ix2 r f)
      = acc (ix2 r f) + ∑ e : Fin 4096, (if (dst (ix2 0 e)).toNat = (i 0).val * 512 + r.val then (1 : EReal) else 0) * msg (ix2 e f) := by
  unfold k5_pay2
  simp only [shapeCast_self]
  exact scatter_step_apply _ rfl rfl rfl rfl rfl rfl (i 0).val (i 0).isLt dst _ _ _ _ acc msg r f

theorem k5_pay3_apply (acc : Vec Ideal S512x40 .f32) (bias : Vec Ideal S1x40 .f32) (r : Fin 512) (f : Fin 40) :
    k5_pay3 (F := Ideal) acc bias (ix2 r f) = acc (ix2 r f) + bias (ix2 0 f) := by
  unfold k5_pay3
  simp only [shapeCast_self]
  rw [addf_apply, broadcastTo_1b_ab_apply]

end Cert.KernelIdeal.PayVal

end
-- ==== Proof.Val.Arr0.lean ====
import proofs.«137339_j11914239279184_1_alg».proof.Proof.KI.R0
import proofs.«137339_j11914239279184_1_alg».proof.Proof.Val.PayVal
import Idealize.ShloMosaic.Lib.Pipeline.Value
import Idealize.ShloMosaic.Lib.ValueIdx

noncomputable section

open scoped BigOperators

namespace Cert.KernelIdeal.Arr

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

def prod0 (c : Dev nD) (n : Fin 50176) (f : Fin 128) : EReal :=
  ∑ k : Fin 128, HMul.hMul (α := EReal) (V c main_v37 (ix2 n k)) (V c main_arg2 (ix2 k f))

def G0 (c : Dev nD) : S50176x128.Idx → Elt Ideal .bf16 := fun i => prod0 V c (i 0) (i 1)

theorem index0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

def rowOf0 (t : Fin cfg0.N) (r : Fin 512) : Fin 50176 :=
  ⟨t.val * 512 + r.val, by
    have h : t.val < cfg0.N := t.isLt
    have hN : cfg0.N = 98 := N_0
    have hr : r.val < 512 := r.isLt
    omega⟩

theorem emb0_2 (t : Fin cfg0.N) (r : Fin 512) (f : Fin 128) :
    ((cfg0.win 2).blk t).view.emb (ix2 r f) = ix2 (rowOf0 t r) f := by
  obtain ⟨-, -, -, -, e0, e1⟩ := index0 t
  funext a; apply Fin.ext
  match a with
  | ⟨0, _⟩ => show win0_2.index t (0 : Fin 2) * 512 + 1 * r.val = t.val * 512 + r.val; rw [e0]; omega
  | ⟨1, _⟩ => show win0_2.index t (1 : Fin 2) * 128 + 1 * f.val = f.val; rw [e1]; omega

theorem iblk0_0_apply (c : Dev nD) (t : Fin cfg0.N) (r : Fin 512) (k : Fin 128) :
    iblk0 V c 0 t (ix2 r k) = V c main_v37 (ix2 (rowOf0 t r) k) := by
  obtain ⟨e0, e1, -⟩ := index0 t
  show V c main_v37 (((cfg0.win 0).blk t).view.emb (ix2 r k)) = _
  congr 1
  funext a; apply Fin.ext
  match a with
  | ⟨0, _⟩ => show win0_0.index t (0 : Fin 2) * 512 + 1 * r.val = t.val * 512 + r.val; rw [e0]; omega
  | ⟨1, _⟩ => show win0_0.index t (1 : Fin 2) * 128 + 1 * k.val = k.val; rw [e1]; omega

theorem iblk0_1_apply (c : Dev nD) (t : Fin cfg0.N) (k : Fin 128) (f : Fin 128) :
    iblk0 V c 1 t (ix2 k f) = V c main_arg2 (ix2 k f) := by
  obtain ⟨-, -, e0, e1, -⟩ := index0 t
  show V c main_arg2 (((cfg0.win 1).blk t).view.emb (ix2 k f)) = _
  congr 1
  funext a; apply Fin.ext
  match a with
  | ⟨0, _⟩ => show win0_1.index t (0 : Fin 2) * 128 + 1 * k.val = k.val; rw [e0]; omega
  | ⟨1, _⟩ => show win0_1.index t (1 : Fin 2) * 128 + 1 * f.val = f.val; rw [e1]; omega

theorem flushed0_eq (c : Dev nD) (t : Fin cfg0.N) :
    (dat0 (F := Ideal) V c).flushed 2 t = ((cfg0.win 2).blk t).view.read (Elt Ideal) (G0 V c) := by
  show (cfg0.win 2).cut (grid0.coords t) ((dat0 (F := Ideal) V c).after 2 t) = _
  rw [after0_2]
  refine funext fun (j : S512x128.Idx) => ?_
  obtain ⟨r, f, rfl⟩ : ∃ (r : Fin 512) (f : Fin 128), j = ix2 r f := ⟨j 0, j 1, eq_ix2 j⟩
  show k0_pay1 (F := Ideal) (iblk0 V c 0 t) (iblk0 V c 1 t) (ix2 r f)
    = G0 V c (((cfg0.win 2).blk t).view.emb (ix2 r f))
  refine (PayVal.k0_pay1_apply (iblk0 V c 0 t) (iblk0 V c 1 t) r f).trans ?_
  rw [emb0_2]
  show _ = prod0 V c (rowOf0 t r) f
  unfold prod0
  refine Finset.sum_congr rfl fun k _ => ?_
  rw [iblk0_0_apply, iblk0_1_apply]

theorem mem_blk0 (t : Fin cfg0.N) (i : S50176x128.Idx) :
    i ∈ ((cfg0.win 2).blk t).view.set ↔ ∀ a : Fin 2, win0_2.index t a * S512x128.size a ≤ (i a).val
      ∧ (i a).val < win0_2.index t a * S512x128.size a + S512x128.size a := by
  show i ∈ ((View.whole main_v40).slice (win0_2.rect t)).set ↔ _
  rw [View.set_slice_whole, Rect.mem_set_unit]
  exact Iff.rfl

theorem cover0 (i : S50176x128.Idx) :
    ∃ t : Fin cfg0.N, (cfg0.win 2).flush t = true ∧ i ∈ ((cfg0.win 2).blk t).view.set := by
  have hi0 : (i 0).val < 50176 := (i 0).isLt
  have hi1 : (i 1).val < 128 := (i 1).isLt
  have hN : cfg0.N = 98 := N_0
  obtain ⟨t, ht⟩ : ∃ t : Fin cfg0.N, t.val = (i 0).val / 512 := ⟨⟨(i 0).val / 512, by omega⟩, rfl⟩
  obtain ⟨-, -, -, -, e0, e1⟩ := index0 t
  refine ⟨t, flush0_2 t, ?_⟩
  rw [mem_blk0]
  intro a
  match a with
  | ⟨0, _⟩ =>
    show win0_2.index t (0 : Fin 2) * 512 ≤ (i 0).val ∧ (i 0).val < win0_2.index t (0 : Fin 2) * 512 + 512
    rw [e0]; omega
  | ⟨1, _⟩ =>
    show win0_2.index t (1 : Fin 2) * 128 ≤ (i 1).val ∧ (i 1).val < win0_2.index t (1 : Fin 2) * 128 + 128
    rw [e1]; omega

theorem final0 (c : Dev nD) : (dat0 (F := Ideal) V c).arrAt 2 cfg0.N = G0 V c :=
  (dat0 (F := Ideal) V c).arrAt_eq_of_cover 2 (G0 V c) (fun t _ => flushed0_eq V c t) cover0

theorem arr0 (c : Dev nD) (n : Fin 50176) (f : Fin 128) :
    (Cert.KernelIdeal.Hand.dat0 (F := Ideal) V c).arrAt 2 cfg0.N (ix2 n f)
      = ∑ k : Fin 128, HMul.hMul (α := EReal) (V c main_v37 (ix2 n k)) (V c main_arg2 (ix2 k f)) := by
  rw [final0]
  rfl

end Cert.KernelIdeal.Arr

end
-- ==== Proof.Val.Arr1.lean ====
import proofs.«137339_j11914239279184_1_alg».proof.Proof.KI.R1
import proofs.«137339_j11914239279184_1_alg».proof.Proof.Val.PayVal
import Idealize.ShloMosaic.Lib.Pipeline.Value
import Idealize.ShloMosaic.Lib.ValueIdx
import Mathlib.Algebra.BigOperators.Fin
import Mathlib.Data.Fintype.BigOperators
import Mathlib.Logic.Equiv.Fin.Basic

set_option maxRecDepth 16384

noncomputable section

open scoped BigOperators

namespace Cert.KernelIdeal.Arr

open Cert.KernelIdeal Cert.KernelIdeal.Gen Cert.KernelIdeal.Hand Cert.KernelIdeal.PayVal
open Idealize.ShloMosaic Idealize.ShloMosaic.TcCoe Idealize.ShloMosaic.ValueIdx
open Idealize.ShloMosaic.Pipeline (Dat)

theorem blk_lt {A B s j : ℕ} (hs : s < A) (hj : j < B) : s * B + j < A * B :=
  calc s * B + j < s * B + B := Nat.add_lt_add_left hj _
    _ = (s + 1) * B := (Nat.succ_mul s B).symm
    _ ≤ A * B := Nat.mul_le_mul_right B hs

theorem sum_blocks {M : Type*} [AddCommMonoid M] {A B N : ℕ} (hN : A * B = N) (T : Fin N → M) :
    ∑ n : Fin N, T n = ∑ s : Fin A, ∑ j : Fin B, T ⟨s.val * B + j.val, hN ▸ blk_lt s.isLt j.isLt⟩ := by
  subst hN
  rw [← Equiv.sum_comp finProdFinEquiv T, Fintype.sum_prod_type]
  refine Finset.sum_congr rfl fun s _ => Finset.sum_congr rfl fun j _ => congrArg T (Fin.ext ?_)
  show j.val + B * s.val = s.val * B + j.val
  rw [Nat.mul_comm, Nat.add_comm]

theorem sum_rows_eq_blocks {M : Type*} [AddCommMonoid M] (T : Fin 50176 → M) :
    ∑ n : Fin 50176, T n
      = ∑ s : Fin 98, ∑ j : Fin 512, T ⟨s.val * 512 + j.val, by have := s.isLt; have := j.isLt; omega⟩ :=
  sum_blocks (A := 98) (B := 512) (by norm_num) T

theorem coords1 (t : Fin grid1.N) : (grid1.coords t 0).val = t.val / 98 ∧ (grid1.coords t 1).val = t.val % 98 := by
  have ht : t.val < 20384 := lt_of_lt_of_eq t.isLt N_1
  have s0 : grid1.stride 0 = 98 := by decide
  have s1 : grid1.stride 1 = 1 := by decide
  constructor
  · show t.val / grid1.stride 0 % 208 = t.val / 98
    rw [s0]; omega
  · show t.val / grid1.stride 1 % 98 = t.val % 98
    rw [s1]; omega

theorem idx1_0 (t : Fin cfg1.N) : win1_0.index t (0 : Fin 2) = t.val / 98 ∧ win1_0.index t (1 : Fin 2) = 0 := by
  have ht : t.val < 20384 := lt_of_lt_of_eq t.isLt N_1
  obtain ⟨h0, h1⟩ := coords1 t
  constructor
  · show (BitVec.ofNat 32 (grid1.coords t 0).val).toNat = t.val / 98
    rw [h0, BitVec.toNat_ofNat]; omega
  · rfl

theorem idx1_1 (t : Fin cfg1.N) : win1_1.index t (0 : Fin 2) = t.val / 98 ∧ win1_1.index t (1 : Fin 2) = 0 := by
  have ht : t.val < 20384 := lt_of_lt_of_eq t.isLt N_1
  obtain ⟨h0, h1⟩ := coords1 t
  constructor
  · show (BitVec.ofNat 32 (grid1.coords t 0).val).toNat = t.val / 98
    rw [h0, BitVec.toNat_ofNat]; omega
  · rfl

theorem idx1_2 (t : Fin cfg1.N) : win1_2.index t (0 : Fin 2) = t.val % 98 ∧ win1_2.index t (1 : Fin 2) = 0 := by
  have ht : t.val < 20384 := lt_of_lt_of_eq t.isLt N_1
  obtain ⟨h0, h1⟩ := coords1 t
  constructor
  · show (BitVec.ofNat 32 (grid1.coords t 1).val).toNat = t.val % 98
    rw [h1, BitVec.toNat_ofNat]; omega
  · rfl

theorem idx1_3 (t : Fin cfg1.N) : win1_3.index t (0 : Fin 2) = t.val / 98 ∧ win1_3.index t (1 : Fin 2) = 0 := by
  have ht : t.val < 20384 := lt_of_lt_of_eq t.isLt N_1
  obtain ⟨h0, h1⟩ := coords1 t
  constructor
  · show (BitVec.ofNat 32 (grid1.coords t 0).val).toNat = t.val / 98
    rw [h0, BitVec.toNat_ofNat]; omega
  · rfl

section Region
variable (V : (c : Dev nD) → (b : Ref sig .tc) → Buf (Elt Ideal) ((c : Thread nD τ).loc b)) (c : Dev nD)

theorem iblk1_0_apply (t : Fin cfg1.N) (r : Fin 4096) (e : Fin 851968) (he : e.val = t.val / 98 * 4096 + r.val) :
    (iblk1 (F := Ideal) V c 0 t : Vec Ideal S4096x1 .i32) (ix2 r 0) = V c main_v34 (ix2 e 0) := by
  unfold iblk1
  show V c main_v34 (((cfg1.win 0).blk t).view.emb (ix2 r 0)) = V c main_v34 (ix2 e 0)
  refine congrArg (V c main_v34) (funext fun a => Fin.ext ?_)
  match a with
  | ⟨0, _⟩ => show win1_0.index t (0 : Fin 2) * 4096 + 1 * r.val = e.val; rw [(idx1_0 t).1]; omega
  | ⟨1, _⟩ => show win1_0.index t (1 : Fin 2) * 1 + 1 * 0 = 0; rw [(idx1_0 t).2]

theorem iblk1_1_apply (t : Fin cfg1.N) (r : Fin 4096) (e : Fin 851968) (he : e.val = t.val / 98 * 4096 + r.val) :
    (iblk1 (F := Ideal) V c 1 t : Vec Ideal S4096x1 .f32) (ix2 r 0) = V c main_v36 (ix2 e 0) := by
  unfold iblk1
  show V c main_v36 (((cfg1.win 1).blk t).view.emb (ix2 r 0)) = V c main_v36 (ix2 e 0)
  refine congrArg (V c main_v36) (funext fun a => Fin.ext ?_)
  match a with
  | ⟨0, _⟩ => show win1_1.index t (0 : Fin 2) * 4096 + 1 * r.val = e.val; rw [(idx1_1 t).1]; omega
  | ⟨1, _⟩ => show win1_1.index t (1 : Fin 2) * 1 + 1 * 0 = 0; rw [(idx1_1 t).2]

theorem iblk1_2_apply (t : Fin cfg1.N) (j : Fin 512) (f : Fin 128) (n : Fin 50176) (hn : n.val = t.val % 98 * 512 + j.val) :
    (iblk1 (F := Ideal) V c 2 t : Vec Ideal S512x128 .bf16) (ix2 j f) = V c main_v40 (ix2 n f) := by
  unfold iblk1
  show V c main_v40 (((cfg1.win 2).blk t).view.emb (ix2 j f)) = V c main_v40 (ix2 n f)
  refine congrArg (V c main_v40) (funext fun a => Fin.ext ?_)
  match a with
  | ⟨0, _⟩ => show win1_2.index t (0 : Fin 2) * 512 + 1 * j.val = n.val; rw [(idx1_2 t).1]; omega
  | ⟨1, _⟩ => show win1_2.index t (1 : Fin 2) * 128 + 1 * f.val = f.val; rw [(idx1_2 t).2]; omega

def term1 (e : Fin 851968) (f : Fin 128) (n : Fin 50176) : EReal :=
  (if (V c main_v34 (ix2 e 0)).toNat = n.val then (1 : EReal) else 0) * V c main_v40 (ix2 n f)

def blockTerm1 (e : Fin 851968) (f : Fin 128) (s : ℕ) : EReal :=
  if hs : s < 98 then ∑ j : Fin 512, term1 V c e f ⟨s * 512 + j.val, by have := j.isLt; omega⟩ else 0

theorem step1 (t : Fin cfg1.N) (acc : Vec Ideal S4096x128 .f32) (r : Fin 4096) (f : Fin 128) (e : Fin 851968)
    (he : e.val = t.val / 98 * 4096 + r.val) :
    k1_pay2 (F := Ideal) (grid1.coords t) (iblk1 V c 0 t) acc (iblk1 V c 2 t) (ix2 r f)
      = acc (ix2 r f) + blockTerm1 V c e f (t.val % 98) := by
  have hk : t.val % 98 < 98 := Nat.mod_lt _ (by decide)
  rw [k1_pay2_apply (grid1.coords t) (iblk1 V c 0 t) acc (iblk1 V c 2 t) r f, iblk1_0_apply V c t r e he, (coords1 t).2]
  unfold blockTerm1
  rw [dif_pos hk]
  refine congrArg (acc (ix2 r f) + ·) (Finset.sum_congr rfl fun j _ => ?_)
  rw [iblk1_2_apply V c t j f ⟨t.val % 98 * 512 + j.val, by have := j.isLt; omega⟩ rfl]
  rfl

theorem scAt1_apply : ∀ (n : ℕ) (hn : n < cfg1.N) (r : Fin 4096) (f : Fin 128) (e : Fin 851968)
    (he : e.val = n / 98 * 4096 + r.val),
    scAt1 (F := Ideal) V c n hn (ix2 r f) = ∑ s ∈ Finset.range (n % 98 + 1), blockTerm1 V c e f s
  | 0, hn, r, f, e, he => by
    rw [scAt1, step1 V c ⟨0, hn⟩ _ r f e he, k1_pay1_apply, zero_add]
    show blockTerm1 V c e f 0 = ∑ s ∈ Finset.range 1, blockTerm1 V c e f s
    rw [Finset.sum_range_one]
  | n + 1, hn, r, f, e, he => by
    rw [scAt1, step1 V c ⟨n + 1, hn⟩ _ r f e he]
    show _ + blockTerm1 V c e f ((n + 1) % 98) = _
    by_cases h0 : (n + 1) % 98 = 0
    · rw [if_pos h0, k1_pay1_apply, zero_add, h0, Nat.zero_add, Finset.sum_range_one]
    · rw [if_neg h0, scAt1_apply n (Nat.lt_of_succ_lt hn) r f e (by omega),
        show (n + 1) % 98 = n % 98 + 1 from by omega, Finset.sum_range_succ _ (n % 98 + 1)]

def msg1 (e : Fin 851968) (f : Fin 128) : EReal :=
  (∑ n : Fin 50176, (if (V c main_v34 (ix2 e 0)).toNat = n.val then (1 : EReal) else 0) * V c main_v40 (ix2 n f))
    * V c main_v36 (ix2 e 0)

def G1 : Buf (Elt Ideal) ((cfg1.win 3).arr.view.loc (c.tc : Thread nD τ)) :=
  fun i => msg1 V c (i 0) (i 1)

theorem flushed1_at (t : Fin cfg1.N) (h97 : t.val % 98 = 97) (r : Fin 4096) (f : Fin 128) (e : Fin 851968)
    (he : e.val = t.val / 98 * 4096 + r.val) :
    k1_pay3 (F := Ideal) (scAt1 V c t.val t.isLt) (iblk1 V c 1 t) (ix2 r f) = msg1 V c e f := by
  rw [k1_pay3_apply (scAt1 V c t.val t.isLt) (iblk1 V c 1 t) r f, scAt1_apply V c t.val t.isLt r f e he,
    iblk1_1_apply V c t r e he, h97]
  show (∑ s ∈ Finset.range 98, blockTerm1 V c e f s) * V c main_v36 (ix2 e 0) = msg1 V c e f
  rw [Finset.sum_range]
  unfold msg1
  refine congrArg (· * V c main_v36 (ix2 e 0)) ?_
  show ∑ s : Fin 98, blockTerm1 V c e f s.val = ∑ n : Fin 50176, term1 V c e f n
  rw [sum_rows_eq_blocks (term1 V c e f)]
  refine Finset.sum_congr rfl fun s _ => ?_
  unfold blockTerm1
  rw [dif_pos s.isLt]

theorem mem_blk1 (t : Fin cfg1.N) (i : S851968x128.Idx) :
    i ∈ ((cfg1.win 3).blk t).view.set ↔ ∀ a : Fin 2, win1_3.index t a * S4096x128.size a ≤ (i a).val
      ∧ (i a).val < win1_3.index t a * S4096x128.size a + S4096x128.size a := by
  show i ∈ ((View.whole main_v41).slice (win1_3.rect t)).set ↔ _
  rw [View.set_slice_whole, Rect.mem_set_unit]
  exact Iff.rfl

theorem flushed1_pt (t : Fin cfg1.N) (h97 : t.val % 98 = 97) (r : Fin 4096) (f : Fin 128) :
    k1_pay3 (F := Ideal) (scAt1 V c t.val t.isLt) (iblk1 V c 1 t) (ix2 r f)
      = G1 V c (((cfg1.win 3).blk t).view.emb (ix2 r f)) := by
  have ht : t.val < 20384 := lt_of_lt_of_eq t.isLt N_1
  have hr : r.val < 4096 := r.isLt
  have he : t.val / 98 * 4096 + r.val < 851968 := by omega
  rw [flushed1_at V c t h97 r f ⟨t.val / 98 * 4096 + r.val, he⟩ rfl]
  have hemb : ((cfg1.win 3).blk t).view.emb (ix2 r f) = ix2 (⟨t.val / 98 * 4096 + r.val, he⟩ : Fin 851968) f := by
    funext a; apply Fin.ext
    match a with
    | ⟨0, _⟩ => show win1_3.index t (0 : Fin 2) * 4096 + 1 * r.val = t.val / 98 * 4096 + r.val; rw [(idx1_3 t).1]; omega
    | ⟨1, _⟩ => show win1_3.index t (1 : Fin 2) * 128 + 1 * f.val = f.val; rw [(idx1_3 t).2]; omega
  rw [hemb]
  rfl

theorem flushed1_eq (t : Fin cfg1.N) (hf : (cfg1.win 3).flush t = true) :
    (dat1 (F := Ideal) V c).flushed 3 t = ((cfg1.win 3).blk t).view.read (Elt Ideal) (G1 V c) := by
  have h97 : t.val % 98 = 97 := (flush1_3 t).mp hf
  show (cfg1.win 3).cut (grid1.coords t) ((dat1 (F := Ideal) V c).after 3 t) = _
  rw [after1_3]
  funext j
  show k1_pay3 (F := Ideal) (scAt1 V c t.val t.isLt) (iblk1 V c 1 t) j = G1 V c (((cfg1.win 3).blk t).view.emb j)
  have hj : j = ix2 (n0 := 4096) (n1 := 128) (j 0) (j 1) := eq_ix2 j
  rw [hj]
  exact flushed1_pt V c t h97 (j 0) (j 1)

theorem cover1 (i : S851968x128.Idx) :
    ∃ t : Fin cfg1.N, (cfg1.win 3).flush t = true ∧ i ∈ ((cfg1.win 3).blk t).view.set := by
  have hi0 : (i 0).val < 851968 := (i 0).isLt
  have hi1 : (i 1).val < 128 := (i 1).isLt
  have hN : cfg1.N = 20384 := N_1
  have hlt : (i 0).val / 4096 * 98 + 97 < cfg1.N := by rw [hN]; omega
  refine ⟨⟨(i 0).val / 4096 * 98 + 97, hlt⟩, (flush1_3 _).mpr ?_, ?_⟩
  · show ((i 0).val / 4096 * 98 + 97) % 98 = 97
    omega
  · rw [mem_blk1]
    intro a
    match a with
    | ⟨0, _⟩ =>
      show win1_3.index ⟨(i 0).val / 4096 * 98 + 97, hlt⟩ (0 : Fin 2) * 4096 ≤ (i 0).val
        ∧ (i 0).val < win1_3.index ⟨(i 0).val / 4096 * 98 + 97, hlt⟩ (0 : Fin 2) * 4096 + 4096
      rw [(idx1_3 _).1]
      show ((i 0).val / 4096 * 98 + 97) / 98 * 4096 ≤ (i 0).val ∧ (i 0).val < ((i 0).val / 4096 * 98 + 97) / 98 * 4096 + 4096
      omega
    | ⟨1, _⟩ =>
      show win1_3.index ⟨(i 0).val / 4096 * 98 + 97, hlt⟩ (1 : Fin 2) * 128 ≤ (i 1).val
        ∧ (i 1).val < win1_3.index ⟨(i 0).val / 4096 * 98 + 97, hlt⟩ (1 : Fin 2) * 128 + 128
      rw [(idx1_3 _).2]
      omega

theorem arr1_eq : (dat1 (F := Ideal) V c).arrAt 3 cfg1.N = G1 V c :=
  (dat1 (F := Ideal) V c).arrAt_eq_of_cover 3 (G1 V c) (fun t hf => flushed1_eq V c t hf) (cover1)

end Region

theorem arr1 (V : (c : Dev nD) → (b : Ref sig .tc) → Buf (Elt Ideal) ((c : Thread nD τ).loc b)) (c : Dev nD)
    (e : Fin 851968) (f : Fin 128) :
    (Cert.KernelIdeal.Hand.dat1 (F := Ideal) V c).arrAt 3 cfg1.N (ix2 e f)
      = (∑ n : Fin 50176, (if (V c main_v34 (ix2 e 0)).toNat = n.val then (1 : EReal) else 0) * V c main_v40 (ix2 n f))
          * V c main_v36 (ix2 e 0) := by
  rw [arr1_eq V c]
  rfl

end Cert.KernelIdeal.Arr

end
-- ==== Proof.Val.Arr2.lean ====
import proofs.«137339_j11914239279184_1_alg».proof.Proof.KI.R2
import proofs.«137339_j11914239279184_1_alg».proof.Proof.Val.PayVal
import Idealize.ShloMosaic.Lib.Pipeline.Value
import Idealize.ShloMosaic.Lib.ValueIdx

set_option maxRecDepth 16384

noncomputable section

open scoped BigOperators

namespace Cert.KernelIdeal.Arr

open Cert.KernelIdeal Cert.KernelIdeal.Gen Cert.KernelIdeal.Hand
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem stride2_0 : grid2.stride 0 = 208 := by decide
theorem stride2_1 : grid2.stride 1 = 1 := by decide

theorem lt_N2 (t : Fin cfg2.N) : t.val < 20384 := Nat.lt_of_lt_of_eq t.isLt N_2

theorem coords2_0 (t : Fin cfg2.N) : (grid2.coords t 0).val = t.val / 208 := by
  show t.val / grid2.stride 0 % 98 = _
  rw [stride2_0]
  have := lt_N2 t
  omega

theorem coords2_1 (t : Fin cfg2.N) : (grid2.coords t 1).val = t.val % 208 := by
  show t.val / grid2.stride 1 % 208 = _
  rw [stride2_1]
  omega

theorem index2_0 (t : Fin cfg2.N) : win2_0.index t 0 = 0 ∧ win2_0.index t 1 = t.val % 208 := by
  refine ⟨rfl, ?_⟩
  show (BitVec.ofNat 32 (grid2.coords t 1).val).toNat = _
  rw [BitVec.toNat_ofNat, coords2_1]
  omega

theorem index2_1 (t : Fin cfg2.N) : win2_1.index t 0 = t.val % 208 ∧ win2_1.index t 1 = 0 := by
  refine ⟨?_, rfl⟩
  show (BitVec.ofNat 32 (grid2.coords t 1).val).toNat = _
  rw [BitVec.toNat_ofNat, coords2_1]
  omega

theorem index2_2 (t : Fin cfg2.N) : win2_2.index t 0 = 0 ∧ win2_2.index t 1 = 0 := ⟨rfl, rfl⟩

theorem index2_3 (t : Fin cfg2.N) : win2_3.index t 0 = t.val / 208 ∧ win2_3.index t 1 = 0 := by
  refine ⟨?_, rfl⟩
  show (BitVec.ofNat 32 (grid2.coords t 0).val).toNat = _
  rw [BitVec.toNat_ofNat, coords2_0]
  have := lt_N2 t
  omega

theorem dst_blk2 (c : Dev nD) (t : Fin cfg2.N) (e : Fin 4096) (he : t.val % 208 * 4096 + e.val < 851968) :
    (iblk2 V c 0 t : Vec Ideal S1x4096 .i32) (ix2 0 e)
      = V c main_v35 (ix2 0 (⟨t.val % 208 * 4096 + e.val, he⟩ : Fin 851968)) := by
  unfold iblk2
  rw [View.read_apply]
  show V c main_v35 _ = V c main_v35 _
  congr 1
  funext a
  apply Fin.ext
  match a with
  | ⟨0, _⟩ => show win2_0.index t 0 * 1 + 1 * 0 = 0; rw [(index2_0 t).1]
  | ⟨1, _⟩ => show win2_0.index t 1 * 4096 + 1 * e.val = t.val % 208 * 4096 + e.val; rw [(index2_0 t).2]; omega

theorem msg_blk2 (c : Dev nD) (t : Fin cfg2.N) (e : Fin 4096) (f : Fin 128) (he : t.val % 208 * 4096 + e.val < 851968) :
    (iblk2 V c 1 t : Vec Ideal S4096x128 .bf16) (ix2 e f)
      = V c main_v41 (ix2 (⟨t.val % 208 * 4096 + e.val, he⟩ : Fin 851968) f) := by
  unfold iblk2
  rw [View.read_apply]
  show V c main_v41 _ = V c main_v41 _
  congr 1
  funext a
  apply Fin.ext
  match a with
  | ⟨0, _⟩ => show win2_1.index t 0 * 4096 + 1 * e.val = t.val % 208 * 4096 + e.val; rw [(index2_1 t).1]; omega
  | ⟨1, _⟩ => show win2_1.index t 1 * 128 + 1 * f.val = f.val; rw [(index2_1 t).2]; omega

theorem bias_blk2 (c : Dev nD) (t : Fin cfg2.N) (f : Fin 128) :
    (iblk2 V c 2 t : Vec Ideal S1x128 .f32) (ix2 0 f) = V c main_v38 (ix2 0 f) := by
  unfold iblk2
  rw [View.read_apply]
  show V c main_v38 _ = V c main_v38 _
  congr 1
  funext a
  apply Fin.ext
  match a with
  | ⟨0, _⟩ => show win2_2.index t 0 * 1 + 1 * 0 = 0; rw [(index2_2 t).1]
  | ⟨1, _⟩ => show win2_2.index t 1 * 128 + 1 * f.val = f.val; rw [(index2_2 t).2]; omega

def addend2 (c : Dev nD) (m : ℕ) (f : Fin 128) (j : ℕ) : EReal :=
  if h : j < 851968 then
    (if (V c main_v35 (ix2 0 (⟨j, h⟩ : Fin 851968))).toNat = m then (1 : EReal) else 0)
      * V c main_v41 (ix2 (⟨j, h⟩ : Fin 851968) f)
  else 0

theorem sum_addend2 (c : Dev nD) (m : ℕ) (f : Fin 128) :
    ∑ j ∈ Finset.range 851968, addend2 V c m f j
      = ∑ e : Fin 851968, (if (V c main_v35 (ix2 0 e)).toNat = m then (1 : EReal) else 0) * V c main_v41 (ix2 e f) := by
  rw [Finset.sum_range]
  refine Finset.sum_congr rfl fun e _ => ?_
  unfold addend2
  rw [dif_pos e.isLt]

theorem step2 (c : Dev nD) (t : Fin cfg2.N) (acc : Vec Ideal S512x128 .f32) (r : Fin 512) (f : Fin 128) :
    k2_pay2 (F := Ideal) (grid2.coords t) (iblk2 V c 0 t) acc (iblk2 V c 1 t) (ix2 r f)
      = acc (ix2 r f)
        + ∑ j ∈ Finset.range 4096, addend2 V c (t.val / 208 * 512 + r.val) f (t.val % 208 * 4096 + j) := by
  refine (PayVal.k2_pay2_apply (grid2.coords t) (iblk2 V c 0 t) acc (iblk2 V c 1 t) r f).trans ?_
  refine congrArg (fun x => acc (ix2 r f) + x) ?_
  rw [Finset.sum_range]
  refine Finset.sum_congr rfl fun e _ => ?_
  have he : t.val % 208 * 4096 + e.val < 851968 := by
    have h1 := e.isLt
    have h2 := Nat.mod_lt t.val (show 0 < 208 by decide)
    omega
  unfold addend2
  rw [dif_pos he, dst_blk2 V c t e he, msg_blk2 V c t e f he, coords2_0]

theorem carry2 (c : Dev nD) (t : Fin cfg2.N) (acc : Vec Ideal S512x128 .f32) (r : Fin 512) (f : Fin 128)
    (hacc : acc (ix2 r f) = ∑ j ∈ Finset.range (t.val % 208 * 4096), addend2 V c (t.val / 208 * 512 + r.val) f j) :
    k2_pay2 (F := Ideal) (grid2.coords t) (iblk2 V c 0 t) acc (iblk2 V c 1 t) (ix2 r f)
      = ∑ j ∈ Finset.range ((t.val % 208 + 1) * 4096), addend2 V c (t.val / 208 * 512 + r.val) f j := by
  rw [step2, hacc, show (t.val % 208 + 1) * 4096 = t.val % 208 * 4096 + 4096 by omega, Finset.sum_range_add]

theorem scAt2_apply (c : Dev nD) : ∀ (n : ℕ) (hn : n < cfg2.N) (r : Fin 512) (f : Fin 128),
    scAt2 V c n hn (ix2 r f)
      = ∑ j ∈ Finset.range ((n % 208 + 1) * 4096), addend2 V c (n / 208 * 512 + r.val) f j
  | 0, hn, r, f => by
    rw [scAt2]
    refine carry2 V c ⟨0, hn⟩ _ r f ?_
    rw [PayVal.k2_pay1_apply]
    show (0 : EReal) = ∑ j ∈ Finset.range (0 % 208 * 4096), _
    rw [Nat.zero_mod, Nat.zero_mul, Finset.sum_range_zero]
  | n + 1, hn, r, f => by
    rw [scAt2]
    refine carry2 V c ⟨n + 1, hn⟩ _ r f ?_
    show (if (n + 1) % 208 = 0 then k2_pay1 else scAt2 V c n (Nat.lt_of_succ_lt hn)) (ix2 r f)
      = ∑ j ∈ Finset.range ((n + 1) % 208 * 4096), addend2 V c ((n + 1) / 208 * 512 + r.val) f j
    by_cases h0 : (n + 1) % 208 = 0
    · rw [if_pos h0, PayVal.k2_pay1_apply, h0, Nat.zero_mul, Finset.sum_range_zero]
    · rw [if_neg h0, scAt2_apply c n (Nat.lt_of_succ_lt hn) r f,
        show n % 208 + 1 = (n + 1) % 208 by omega, show n / 208 = (n + 1) / 208 by omega]

theorem scAt2_last (c : Dev nD) (t : Fin cfg2.N) (h207 : t.val % 208 = 207) (r : Fin 512) (f : Fin 128) :
    scAt2 V c t.val t.isLt (ix2 r f)
      = ∑ e : Fin 851968, (if (V c main_v35 (ix2 0 e)).toNat = t.val / 208 * 512 + r.val then (1 : EReal) else 0)
          * V c main_v41 (ix2 e f) := by
  rw [scAt2_apply V c t.val t.isLt r f, h207, show (207 + 1) * 4096 = 851968 from rfl]
  exact sum_addend2 V c (t.val / 208 * 512 + r.val) f

def node2 (c : Dev nD) (m : ℕ) (f : Fin 128) : EReal :=
  (∑ e : Fin 851968, (if (V c main_v35 (ix2 0 e)).toNat = m then (1 : EReal) else 0) * V c main_v41 (ix2 e f))
    + V c main_v38 (ix2 0 f)

def out2 (c : Dev nD) : Buf (Elt Ideal) ((c : Thread nD τ).loc main_v42) :=
  fun i => node2 V c (i 0).val (i 1)

theorem stored2 (c : Dev nD) (t : Fin cfg2.N) (h207 : t.val % 208 = 207) (j : S512x128.Idx) :
    k2_pay3 (F := Ideal) (scAt2 V c t.val t.isLt) (iblk2 V c 2 t) j
      = node2 V c (t.val / 208 * 512 + (j 0).val) (j 1) := by
  obtain ⟨r, f, rfl⟩ : ∃ (r : Fin 512) (f : Fin 128), j = ix2 r f := ⟨j 0, j 1, eq_ix2 j⟩
  show _ = node2 V c (t.val / 208 * 512 + r.val) f
  unfold node2
  refine (PayVal.k2_pay3_apply (scAt2 V c t.val t.isLt) (iblk2 V c 2 t) r f).trans ?_
  rw [scAt2_last V c t h207 r f, bias_blk2 V c t f]

theorem blk_read2 (G : S50176x128.Idx → EReal) (t : Fin cfg2.N) (j : S512x128.Idx)
    (hr : t.val / 208 * 512 + (j 0).val < 50176) :
    ((cfg2.win 3).blk t).view.read (Elt Ideal) G j
      = G (ix2 (⟨t.val / 208 * 512 + (j 0).val, hr⟩ : Fin 50176) (j 1)) := by
  rw [View.read_apply]
  show G _ = G _
  congr 1
  funext a
  apply Fin.ext
  match a with
  | ⟨0, _⟩ => show win2_3.index t 0 * 512 + 1 * (j 0).val = t.val / 208 * 512 + (j 0).val; rw [(index2_3 t).1]; omega
  | ⟨1, _⟩ => show win2_3.index t 1 * 128 + 1 * (j 1).val = (j 1).val; rw [(index2_3 t).2]; omega

theorem flushed2_eq (c : Dev nD) (t : Fin cfg2.N) (hf : (cfg2.win 3).flush t = true) :
    (dat2 V c).flushed 3 t = ((cfg2.win 3).blk t).view.read (Elt Ideal) (out2 V c) := by
  have h207 : t.val % 208 = 207 := (flush2_3 t).mp hf
  have hN := lt_N2 t
  show (cfg2.win 3).cut (grid2.coords t) ((dat2 V c).after 3 t) = _
  rw [after2_3]
  funext j
  have hj : ((j 0 : Fin 512) : ℕ) < 512 := (j 0).isLt
  have hr : t.val / 208 * 512 + ((j 0 : Fin 512) : ℕ) < 50176 := by omega
  refine Eq.trans ?_ (blk_read2 (out2 V c) t j hr).symm
  exact stored2 V c t h207 j

theorem cover2 (i : S50176x128.Idx) :
    ∃ t : Fin cfg2.N, (cfg2.win 3).flush t = true ∧ i ∈ ((cfg2.win 3).blk t).view.set := by
  have hi0 : (i 0).val < 50176 := (i 0).isLt
  have hi1 : (i 1).val < 128 := (i 1).isLt
  have hN : cfg2.N = 20384 := N_2
  have hlt : (i 0).val / 512 * 208 + 207 < cfg2.N := by rw [hN]; omega
  refine ⟨⟨(i 0).val / 512 * 208 + 207, hlt⟩, (flush2_3 _).mpr (by show ((i 0).val / 512 * 208 + 207) % 208 = 207; omega), ?_⟩
  show i ∈ ((View.whole main_v42).slice (win2_3.rect ⟨(i 0).val / 512 * 208 + 207, hlt⟩)).set
  rw [View.set_slice_whole, Rect.mem_set_unit]
  intro a
  obtain ⟨e0, e1⟩ := index2_3 ⟨(i 0).val / 512 * 208 + 207, hlt⟩
  have e0' : win2_3.index ⟨(i 0).val / 512 * 208 + 207, hlt⟩ 0 = (i 0).val / 512 := by
    rw [e0]; show ((i 0).val / 512 * 208 + 207) / 208 = _; omega
  match a with
  | ⟨0, _⟩ =>
    show win2_3.index ⟨(i 0).val / 512 * 208 + 207, hlt⟩ 0 * 512 ≤ (i 0).val
      ∧ (i 0).val < win2_3.index ⟨(i 0).val / 512 * 208 + 207, hlt⟩ 0 * 512 + 512
    rw [e0']; omega
  | ⟨1, _⟩ =>
    show win2_3.index ⟨(i 0).val / 512 * 208 + 207, hlt⟩ 1 * 128 ≤ (i 1).val
      ∧ (i 1).val < win2_3.index ⟨(i 0).val / 512 * 208 + 207, hlt⟩ 1 * 128 + 128
    rw [e1]; omega

theorem final2 (c : Dev nD) : (dat2 V c).arrAt 3 cfg2.N = out2 V c :=
  (dat2 V c).arrAt_eq_of_cover 3 (out2 V c) (fun t hf => flushed2_eq V c t hf) cover2

theorem arr2 (V : (c : Dev nD) → (b : Ref sig .tc) → Buf (Elt Ideal) ((c : Thread nD τ).loc b)) (c : Dev nD)
    (n : Fin 50176) (f : Fin 128) :
    (Cert.KernelIdeal.Hand.dat2 (F := Ideal) V c).arrAt 3 cfg2.N (ix2 n f)
      = (∑ e : Fin 851968, (if (V c main_v35 (ix2 0 e)).toNat = n.val then (1 : EReal) else 0) * V c main_v41 (ix2 e f))
        + V c main_v38 (ix2 0 f) := by
  rw [final2 V c]
  show node2 V c n.val f = _
  unfold node2
  rfl

end Cert.KernelIdeal.Arr

end
-- ==== Proof.Val.Arr3.lean ====
import proofs.«137339_j11914239279184_1_alg».proof.Proof.KI.R3
import proofs.«137339_j11914239279184_1_alg».proof.Proof.Val.PayVal
import Idealize.ShloMosaic.Lib.Pipeline.Value
import Idealize.ShloMosaic.Lib.ValueIdx

noncomputable section

open scoped BigOperators

namespace Cert.KernelIdeal.Arr

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

def prod3 (c : Dev nD) (n : Fin 50176) (f : Fin 40) : EReal :=
  ∑ k : Fin 128, max (α := EReal) (V c main_v42 (ix2 n k)) 0 * V c main_arg4 (ix2 k f)

def G3 (c : Dev nD) : S50176x40.Idx → Elt Ideal .bf16 := fun i => prod3 V c (i 0) (i 1)

theorem index3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

def rowOf3 (t : Fin cfg3.N) (r : Fin 512) : Fin 50176 :=
  ⟨t.val * 512 + r.val, by
    have h : t.val < cfg3.N := t.isLt
    have hN : cfg3.N = 98 := N_3
    have hr : r.val < 512 := r.isLt
    omega⟩

theorem emb3_2 (t : Fin cfg3.N) (r : Fin 512) (f : Fin 40) :
    ((cfg3.win 2).blk t).view.emb (ix2 r f) = ix2 (rowOf3 t r) f := by
  obtain ⟨-, -, -, -, e0, e1⟩ := index3 t
  funext a; apply Fin.ext
  match a with
  | ⟨0, _⟩ => show win3_2.index t (0 : Fin 2) * 512 + 1 * r.val = t.val * 512 + r.val; rw [e0]; omega
  | ⟨1, _⟩ => show win3_2.index t (1 : Fin 2) * 40 + 1 * f.val = f.val; rw [e1]; omega

theorem iblk3_0_apply (c : Dev nD) (t : Fin cfg3.N) (r : Fin 512) (k : Fin 128) :
    iblk3 V c 0 t (ix2 r k) = V c main_v42 (ix2 (rowOf3 t r) k) := by
  obtain ⟨e0, e1, -⟩ := index3 t
  show V c main_v42 (((cfg3.win 0).blk t).view.emb (ix2 r k)) = _
  congr 1
  funext a; apply Fin.ext
  match a with
  | ⟨0, _⟩ => show win3_0.index t (0 : Fin 2) * 512 + 1 * r.val = t.val * 512 + r.val; rw [e0]; omega
  | ⟨1, _⟩ => show win3_0.index t (1 : Fin 2) * 128 + 1 * k.val = k.val; rw [e1]; omega

theorem iblk3_1_apply (c : Dev nD) (t : Fin cfg3.N) (k : Fin 128) (f : Fin 40) :
    iblk3 V c 1 t (ix2 k f) = V c main_arg4 (ix2 k f) := by
  obtain ⟨-, -, e0, e1, -⟩ := index3 t
  show V c main_arg4 (((cfg3.win 1).blk t).view.emb (ix2 k f)) = _
  congr 1
  funext a; apply Fin.ext
  match a with
  | ⟨0, _⟩ => show win3_1.index t (0 : Fin 2) * 128 + 1 * k.val = k.val; rw [e0]; omega
  | ⟨1, _⟩ => show win3_1.index t (1 : Fin 2) * 40 + 1 * f.val = f.val; rw [e1]; omega

theorem flushed3_eq (c : Dev nD) (t : Fin cfg3.N) :
    (dat3 (F := Ideal) V c).flushed 2 t = ((cfg3.win 2).blk t).view.read (Elt Ideal) (G3 V c) := by
  show (cfg3.win 2).cut (grid3.coords t) ((dat3 (F := Ideal) V c).after 2 t) = _
  rw [after3_2]
  refine funext fun (j : S512x40.Idx) => ?_
  obtain ⟨r, f, rfl⟩ : ∃ (r : Fin 512) (f : Fin 40), j = ix2 r f := ⟨j 0, j 1, eq_ix2 j⟩
  show k3_pay1 (F := Ideal) (iblk3 V c 0 t) (iblk3 V c 1 t) (ix2 r f)
    = G3 V c (((cfg3.win 2).blk t).view.emb (ix2 r f))
  refine (PayVal.k3_pay1_apply (iblk3 V c 0 t) (iblk3 V c 1 t) r f).trans ?_
  rw [emb3_2]
  show _ = prod3 V c (rowOf3 t r) f
  unfold prod3
  refine Finset.sum_congr rfl fun k _ => ?_
  rw [iblk3_0_apply, iblk3_1_apply]

theorem mem_blk3 (t : Fin cfg3.N) (i : S50176x40.Idx) :
    i ∈ ((cfg3.win 2).blk t).view.set ↔ ∀ a : Fin 2, win3_2.index t a * S512x40.size a ≤ (i a).val
      ∧ (i a).val < win3_2.index t a * S512x40.size a + S512x40.size a := by
  show i ∈ ((View.whole main_v43).slice (win3_2.rect t)).set ↔ _
  rw [View.set_slice_whole, Rect.mem_set_unit]
  exact Iff.rfl

theorem cover3 (i : S50176x40.Idx) :
    ∃ t : Fin cfg3.N, (cfg3.win 2).flush t = true ∧ i ∈ ((cfg3.win 2).blk t).view.set := by
  have hi0 : (i 0).val < 50176 := (i 0).isLt
  have hi1 : (i 1).val < 40 := (i 1).isLt
  have hN : cfg3.N = 98 := N_3
  obtain ⟨t, ht⟩ : ∃ t : Fin cfg3.N, t.val = (i 0).val / 512 := ⟨⟨(i 0).val / 512, by omega⟩, rfl⟩
  obtain ⟨-, -, -, -, e0, e1⟩ := index3 t
  refine ⟨t, flush3_2 t, ?_⟩
  rw [mem_blk3]
  intro a
  match a with
  | ⟨0, _⟩ =>
    show win3_2.index t (0 : Fin 2) * 512 ≤ (i 0).val ∧ (i 0).val < win3_2.index t (0 : Fin 2) * 512 + 512
    rw [e0]; omega
  | ⟨1, _⟩ =>
    show win3_2.index t (1 : Fin 2) * 40 ≤ (i 1).val ∧ (i 1).val < win3_2.index t (1 : Fin 2) * 40 + 40
    rw [e1]; omega

theorem final3 (c : Dev nD) : (dat3 (F := Ideal) V c).arrAt 2 cfg3.N = G3 V c :=
  (dat3 (F := Ideal) V c).arrAt_eq_of_cover 2 (G3 V c) (fun t _ => flushed3_eq V c t) cover3

theorem arr3 (c : Dev nD) (n : Fin 50176) (f : Fin 40) :
    (Cert.KernelIdeal.Hand.dat3 (F := Ideal) V c).arrAt 2 cfg3.N (ix2 n f)
      = ∑ k : Fin 128, max (α := EReal) (V c main_v42 (ix2 n k)) 0 * V c main_arg4 (ix2 k f) := by
  rw [final3]
  rfl

end Cert.KernelIdeal.Arr

end
-- ==== Proof.Val.Arr4.lean ====
import proofs.«137339_j11914239279184_1_alg».proof.Proof.KI.R4
import proofs.«137339_j11914239279184_1_alg».proof.Proof.Val.PayVal
import proofs.«137339_j11914239279184_1_alg».proof.Proof.Val.Arr1
import Idealize.ShloMosaic.Lib.Pipeline.Value
import Idealize.ShloMosaic.Lib.ValueIdx
import Mathlib.Algebra.BigOperators.Fin
import Mathlib.Data.Fintype.BigOperators
import Mathlib.Logic.Equiv.Fin.Basic

set_option maxRecDepth 16384

noncomputable section

open scoped BigOperators

namespace Cert.KernelIdeal.Arr

open Cert.KernelIdeal Cert.KernelIdeal.Gen Cert.KernelIdeal.Hand Cert.KernelIdeal.PayVal
open Idealize.ShloMosaic Idealize.ShloMosaic.TcCoe Idealize.ShloMosaic.ValueIdx
open Idealize.ShloMosaic.Pipeline (Dat)

theorem coords4 (t : Fin grid4.N) : (grid4.coords t 0).val = t.val / 98 ∧ (grid4.coords t 1).val = t.val % 98 := by
  have ht : t.val < 20384 := lt_of_lt_of_eq t.isLt N_4
  have s0 : grid4.stride 0 = 98 := by decide
  have s1 : grid4.stride 1 = 1 := by decide
  constructor
  · show t.val / grid4.stride 0 % 208 = t.val / 98
    rw [s0]; omega
  · show t.val / grid4.stride 1 % 98 = t.val % 98
    rw [s1]; omega

theorem idx4_0 (t : Fin cfg4.N) : win4_0.index t (0 : Fin 2) = t.val / 98 ∧ win4_0.index t (1 : Fin 2) = 0 := by
  have ht : t.val < 20384 := lt_of_lt_of_eq t.isLt N_4
  obtain ⟨h0, h1⟩ := coords4 t
  constructor
  · show (BitVec.ofNat 32 (grid4.coords t 0).val).toNat = t.val / 98
    rw [h0, BitVec.toNat_ofNat]; omega
  · rfl

theorem idx4_1 (t : Fin cfg4.N) : win4_1.index t (0 : Fin 2) = t.val / 98 ∧ win4_1.index t (1 : Fin 2) = 0 := by
  have ht : t.val < 20384 := lt_of_lt_of_eq t.isLt N_4
  obtain ⟨h0, h1⟩ := coords4 t
  constructor
  · show (BitVec.ofNat 32 (grid4.coords t 0).val).toNat = t.val / 98
    rw [h0, BitVec.toNat_ofNat]; omega
  · rfl

theorem idx4_2 (t : Fin cfg4.N) : win4_2.index t (0 : Fin 2) = t.val % 98 ∧ win4_2.index t (1 : Fin 2) = 0 := by
  have ht : t.val < 20384 := lt_of_lt_of_eq t.isLt N_4
  obtain ⟨h0, h1⟩ := coords4 t
  constructor
  · show (BitVec.ofNat 32 (grid4.coords t 1).val).toNat = t.val % 98
    rw [h1, BitVec.toNat_ofNat]; omega
  · rfl

theorem idx4_3 (t : Fin cfg4.N) : win4_3.index t (0 : Fin 2) = t.val / 98 ∧ win4_3.index t (1 : Fin 2) = 0 := by
  have ht : t.val < 20384 := lt_of_lt_of_eq t.isLt N_4
  obtain ⟨h0, h1⟩ := coords4 t
  constructor
  · show (BitVec.ofNat 32 (grid4.coords t 0).val).toNat = t.val / 98
    rw [h0, BitVec.toNat_ofNat]; omega
  · rfl

section Region
variable (V : (c : Dev nD) → (b : Ref sig .tc) → Buf (Elt Ideal) ((c : Thread nD τ).loc b)) (c : Dev nD)

theorem iblk4_0_apply (t : Fin cfg4.N) (r : Fin 4096) (e : Fin 851968) (he : e.val = t.val / 98 * 4096 + r.val) :
    (iblk4 (F := Ideal) V c 0 t : Vec Ideal S4096x1 .i32) (ix2 r 0) = V c main_v34 (ix2 e 0) := by
  unfold iblk4
  show V c main_v34 (((cfg4.win 0).blk t).view.emb (ix2 r 0)) = V c main_v34 (ix2 e 0)
  refine congrArg (V c main_v34) (funext fun a => Fin.ext ?_)
  match a with
  | ⟨0, _⟩ => show win4_0.index t (0 : Fin 2) * 4096 + 1 * r.val = e.val; rw [(idx4_0 t).1]; omega
  | ⟨1, _⟩ => show win4_0.index t (1 : Fin 2) * 1 + 1 * 0 = 0; rw [(idx4_0 t).2]

theorem iblk4_1_apply (t : Fin cfg4.N) (r : Fin 4096) (e : Fin 851968) (he : e.val = t.val / 98 * 4096 + r.val) :
    (iblk4 (F := Ideal) V c 1 t : Vec Ideal S4096x1 .f32) (ix2 r 0) = V c main_v36 (ix2 e 0) := by
  unfold iblk4
  show V c main_v36 (((cfg4.win 1).blk t).view.emb (ix2 r 0)) = V c main_v36 (ix2 e 0)
  refine congrArg (V c main_v36) (funext fun a => Fin.ext ?_)
  match a with
  | ⟨0, _⟩ => show win4_1.index t (0 : Fin 2) * 4096 + 1 * r.val = e.val; rw [(idx4_1 t).1]; omega
  | ⟨1, _⟩ => show win4_1.index t (1 : Fin 2) * 1 + 1 * 0 = 0; rw [(idx4_1 t).2]

theorem iblk4_2_apply (t : Fin cfg4.N) (j : Fin 512) (f : Fin 40) (n : Fin 50176) (hn : n.val = t.val % 98 * 512 + j.val) :
    (iblk4 (F := Ideal) V c 2 t : Vec Ideal S512x40 .bf16) (ix2 j f) = V c main_v43 (ix2 n f) := by
  unfold iblk4
  show V c main_v43 (((cfg4.win 2).blk t).view.emb (ix2 j f)) = V c main_v43 (ix2 n f)
  refine congrArg (V c main_v43) (funext fun a => Fin.ext ?_)
  match a with
  | ⟨0, _⟩ => show win4_2.index t (0 : Fin 2) * 512 + 1 * j.val = n.val; rw [(idx4_2 t).1]; omega
  | ⟨1, _⟩ => show win4_2.index t (1 : Fin 2) * 40 + 1 * f.val = f.val; rw [(idx4_2 t).2]; omega

def term4 (e : Fin 851968) (f : Fin 40) (n : Fin 50176) : EReal :=
  (if (V c main_v34 (ix2 e 0)).toNat = n.val then (1 : EReal) else 0) * V c main_v43 (ix2 n f)

def blockTerm4 (e : Fin 851968) (f : Fin 40) (s : ℕ) : EReal :=
  if hs : s < 98 then ∑ j : Fin 512, term4 V c e f ⟨s * 512 + j.val, by have := j.isLt; omega⟩ else 0

theorem step4 (t : Fin cfg4.N) (acc : Vec Ideal S4096x40 .f32) (r : Fin 4096) (f : Fin 40) (e : Fin 851968)
    (he : e.val = t.val / 98 * 4096 + r.val) :
    k4_pay2 (F := Ideal) (grid4.coords t) (iblk4 V c 0 t) acc (iblk4 V c 2 t) (ix2 r f)
      = acc (ix2 r f) + blockTerm4 V c e f (t.val % 98) := by
  have hk : t.val % 98 < 98 := Nat.mod_lt _ (by decide)
  rw [k4_pay2_apply (grid4.coords t) (iblk4 V c 0 t) acc (iblk4 V c 2 t) r f, iblk4_0_apply V c t r e he, (coords4 t).2]
  unfold blockTerm4
  rw [dif_pos hk]
  refine congrArg (acc (ix2 r f) + ·) (Finset.sum_congr rfl fun j _ => ?_)
  rw [iblk4_2_apply V c t j f ⟨t.val % 98 * 512 + j.val, by have := j.isLt; omega⟩ rfl]
  rfl

theorem scAt4_apply : ∀ (n : ℕ) (hn : n < cfg4.N) (r : Fin 4096) (f : Fin 40) (e : Fin 851968)
    (he : e.val = n / 98 * 4096 + r.val),
    scAt4 (F := Ideal) V c n hn (ix2 r f) = ∑ s ∈ Finset.range (n % 98 + 1), blockTerm4 V c e f s
  | 0, hn, r, f, e, he => by
    rw [scAt4, step4 V c ⟨0, hn⟩ _ r f e he, k4_pay1_apply, zero_add]
    show blockTerm4 V c e f 0 = ∑ s ∈ Finset.range 1, blockTerm4 V c e f s
    rw [Finset.sum_range_one]
  | n + 1, hn, r, f, e, he => by
    rw [scAt4, step4 V c ⟨n + 1, hn⟩ _ r f e he]
    show _ + blockTerm4 V c e f ((n + 1) % 98) = _
    by_cases h0 : (n + 1) % 98 = 0
    · rw [if_pos h0, k4_pay1_apply, zero_add, h0, Nat.zero_add, Finset.sum_range_one]
    · rw [if_neg h0, scAt4_apply n (Nat.lt_of_succ_lt hn) r f e (by omega),
        show (n + 1) % 98 = n % 98 + 1 from by omega, Finset.sum_range_succ _ (n % 98 + 1)]

def msg4 (e : Fin 851968) (f : Fin 40) : EReal :=
  (∑ n : Fin 50176, (if (V c main_v34 (ix2 e 0)).toNat = n.val then (1 : EReal) else 0) * V c main_v43 (ix2 n f))
    * V c main_v36 (ix2 e 0)

def G4 : Buf (Elt Ideal) ((cfg4.win 3).arr.view.loc (c.tc : Thread nD τ)) :=
  fun i => msg4 V c (i 0) (i 1)

theorem flushed4_at (t : Fin cfg4.N) (h97 : t.val % 98 = 97) (r : Fin 4096) (f : Fin 40) (e : Fin 851968)
    (he : e.val = t.val / 98 * 4096 + r.val) :
    k4_pay3 (F := Ideal) (scAt4 V c t.val t.isLt) (iblk4 V c 1 t) (ix2 r f) = msg4 V c e f := by
  rw [k4_pay3_apply (scAt4 V c t.val t.isLt) (iblk4 V c 1 t) r f, scAt4_apply V c t.val t.isLt r f e he,
    iblk4_1_apply V c t r e he, h97]
  show (∑ s ∈ Finset.range 98, blockTerm4 V c e f s) * V c main_v36 (ix2 e 0) = msg4 V c e f
  rw [Finset.sum_range]
  unfold msg4
  refine congrArg (· * V c main_v36 (ix2 e 0)) ?_
  show ∑ s : Fin 98, blockTerm4 V c e f s.val = ∑ n : Fin 50176, term4 V c e f n
  rw [sum_rows_eq_blocks (term4 V c e f)]
  refine Finset.sum_congr rfl fun s _ => ?_
  unfold blockTerm4
  rw [dif_pos s.isLt]

theorem mem_blk4 (t : Fin cfg4.N) (i : S851968x40.Idx) :
    i ∈ ((cfg4.win 3).blk t).view.set ↔ ∀ a : Fin 2, win4_3.index t a * S4096x40.size a ≤ (i a).val
      ∧ (i a).val < win4_3.index t a * S4096x40.size a + S4096x40.size a := by
  show i ∈ ((View.whole main_v44).slice (win4_3.rect t)).set ↔ _
  rw [View.set_slice_whole, Rect.mem_set_unit]
  exact Iff.rfl

theorem flushed4_pt (t : Fin cfg4.N) (h97 : t.val % 98 = 97) (r : Fin 4096) (f : Fin 40) :
    k4_pay3 (F := Ideal) (scAt4 V c t.val t.isLt) (iblk4 V c 1 t) (ix2 r f)
      = G4 V c (((cfg4.win 3).blk t).view.emb (ix2 r f)) := by
  have ht : t.val < 20384 := lt_of_lt_of_eq t.isLt N_4
  have hr : r.val < 4096 := r.isLt
  have he : t.val / 98 * 4096 + r.val < 851968 := by omega
  rw [flushed4_at V c t h97 r f ⟨t.val / 98 * 4096 + r.val, he⟩ rfl]
  have hemb : ((cfg4.win 3).blk t).view.emb (ix2 r f) = ix2 (⟨t.val / 98 * 4096 + r.val, he⟩ : Fin 851968) f := by
    funext a; apply Fin.ext
    match a with
    | ⟨0, _⟩ => show win4_3.index t (0 : Fin 2) * 4096 + 1 * r.val = t.val / 98 * 4096 + r.val; rw [(idx4_3 t).1]; omega
    | ⟨1, _⟩ => show win4_3.index t (1 : Fin 2) * 40 + 1 * f.val = f.val; rw [(idx4_3 t).2]; omega
  rw [hemb]
  rfl

theorem flushed4_eq (t : Fin cfg4.N) (hf : (cfg4.win 3).flush t = true) :
    (dat4 (F := Ideal) V c).flushed 3 t = ((cfg4.win 3).blk t).view.read (Elt Ideal) (G4 V c) := by
  have h97 : t.val % 98 = 97 := (flush4_3 t).mp hf
  show (cfg4.win 3).cut (grid4.coords t) ((dat4 (F := Ideal) V c).after 3 t) = _
  rw [after4_3]
  funext j
  show k4_pay3 (F := Ideal) (scAt4 V c t.val t.isLt) (iblk4 V c 1 t) j = G4 V c (((cfg4.win 3).blk t).view.emb j)
  have hj : j = ix2 (n0 := 4096) (n1 := 40) (j 0) (j 1) := eq_ix2 j
  rw [hj]
  exact flushed4_pt V c t h97 (j 0) (j 1)

theorem cover4 (i : S851968x40.Idx) :
    ∃ t : Fin cfg4.N, (cfg4.win 3).flush t = true ∧ i ∈ ((cfg4.win 3).blk t).view.set := by
  have hi0 : (i 0).val < 851968 := (i 0).isLt
  have hi1 : (i 1).val < 40 := (i 1).isLt
  have hN : cfg4.N = 20384 := N_4
  have hlt : (i 0).val / 4096 * 98 + 97 < cfg4.N := by rw [hN]; omega
  refine ⟨⟨(i 0).val / 4096 * 98 + 97, hlt⟩, (flush4_3 _).mpr ?_, ?_⟩
  · show ((i 0).val / 4096 * 98 + 97) % 98 = 97
    omega
  · rw [mem_blk4]
    intro a
    match a with
    | ⟨0, _⟩ =>
      show win4_3.index ⟨(i 0).val / 4096 * 98 + 97, hlt⟩ (0 : Fin 2) * 4096 ≤ (i 0).val
        ∧ (i 0).val < win4_3.index ⟨(i 0).val / 4096 * 98 + 97, hlt⟩ (0 : Fin 2) * 4096 + 4096
      rw [(idx4_3 _).1]
      show ((i 0).val / 4096 * 98 + 97) / 98 * 4096 ≤ (i 0).val ∧ (i 0).val < ((i 0).val / 4096 * 98 + 97) / 98 * 4096 + 4096
      omega
    | ⟨1, _⟩ =>
      show win4_3.index ⟨(i 0).val / 4096 * 98 + 97, hlt⟩ (1 : Fin 2) * 40 ≤ (i 1).val
        ∧ (i 1).val < win4_3.index ⟨(i 0).val / 4096 * 98 + 97, hlt⟩ (1 : Fin 2) * 40 + 40
      rw [(idx4_3 _).2]
      omega

theorem arr4_eq : (dat4 (F := Ideal) V c).arrAt 3 cfg4.N = G4 V c :=
  (dat4 (F := Ideal) V c).arrAt_eq_of_cover 3 (G4 V c) (fun t hf => flushed4_eq V c t hf) (cover4)

end Region

theorem arr4 (V : (c : Dev nD) → (b : Ref sig .tc) → Buf (Elt Ideal) ((c : Thread nD τ).loc b)) (c : Dev nD)
    (e : Fin 851968) (f : Fin 40) :
    (Cert.KernelIdeal.Hand.dat4 (F := Ideal) V c).arrAt 3 cfg4.N (ix2 e f)
      = (∑ n : Fin 50176, (if (V c main_v34 (ix2 e 0)).toNat = n.val then (1 : EReal) else 0) * V c main_v43 (ix2 n f))
          * V c main_v36 (ix2 e 0) := by
  rw [arr4_eq V c]
  rfl

end Cert.KernelIdeal.Arr

end
-- ==== Proof.Val.Arr5.lean ====
import proofs.«137339_j11914239279184_1_alg».proof.Proof.KI.R5
import proofs.«137339_j11914239279184_1_alg».proof.Proof.Val.PayVal
import Idealize.ShloMosaic.Lib.Pipeline.Value
import Idealize.ShloMosaic.Lib.ValueIdx

set_option maxRecDepth 16384

noncomputable section

open scoped BigOperators

namespace Cert.KernelIdeal.Arr

open Cert.KernelIdeal Cert.KernelIdeal.Gen Cert.KernelIdeal.Hand
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem stride5_0 : grid5.stride 0 = 208 := by decide
theorem stride5_1 : grid5.stride 1 = 1 := by decide

theorem lt_N5 (t : Fin cfg5.N) : t.val < 20384 := Nat.lt_of_lt_of_eq t.isLt N_5

theorem coords5_0 (t : Fin cfg5.N) : (grid5.coords t 0).val = t.val / 208 := by
  show t.val / grid5.stride 0 % 98 = _
  rw [stride5_0]
  have := lt_N5 t
  omega

theorem coords5_1 (t : Fin cfg5.N) : (grid5.coords t 1).val = t.val % 208 := by
  show t.val / grid5.stride 1 % 208 = _
  rw [stride5_1]
  omega

theorem index5_0 (t : Fin cfg5.N) : win5_0.index t 0 = 0 ∧ win5_0.index t 1 = t.val % 208 := by
  refine ⟨rfl, ?_⟩
  show (BitVec.ofNat 32 (grid5.coords t 1).val).toNat = _
  rw [BitVec.toNat_ofNat, coords5_1]
  omega

theorem index5_1 (t : Fin cfg5.N) : win5_1.index t 0 = t.val % 208 ∧ win5_1.index t 1 = 0 := by
  refine ⟨?_, rfl⟩
  show (BitVec.ofNat 32 (grid5.coords t 1).val).toNat = _
  rw [BitVec.toNat_ofNat, coords5_1]
  omega

theorem index5_2 (t : Fin cfg5.N) : win5_2.index t 0 = 0 ∧ win5_2.index t 1 = 0 := ⟨rfl, rfl⟩

theorem index5_3 (t : Fin cfg5.N) : win5_3.index t 0 = t.val / 208 ∧ win5_3.index t 1 = 0 := by
  refine ⟨?_, rfl⟩
  show (BitVec.ofNat 32 (grid5.coords t 0).val).toNat = _
  rw [BitVec.toNat_ofNat, coords5_0]
  have := lt_N5 t
  omega

theorem dst_blk5 (c : Dev nD) (t : Fin cfg5.N) (e : Fin 4096) (he : t.val % 208 * 4096 + e.val < 851968) :
    (iblk5 V c 0 t : Vec Ideal S1x4096 .i32) (ix2 0 e)
      = V c main_v35 (ix2 0 (⟨t.val % 208 * 4096 + e.val, he⟩ : Fin 851968)) := by
  unfold iblk5
  rw [View.read_apply]
  show V c main_v35 _ = V c main_v35 _
  congr 1
  funext a
  apply Fin.ext
  match a with
  | ⟨0, _⟩ => show win5_0.index t 0 * 1 + 1 * 0 = 0; rw [(index5_0 t).1]
  | ⟨1, _⟩ => show win5_0.index t 1 * 4096 + 1 * e.val = t.val % 208 * 4096 + e.val; rw [(index5_0 t).2]; omega

theorem msg_blk5 (c : Dev nD) (t : Fin cfg5.N) (e : Fin 4096) (f : Fin 40) (he : t.val % 208 * 4096 + e.val < 851968) :
    (iblk5 V c 1 t : Vec Ideal S4096x40 .bf16) (ix2 e f)
      = V c main_v44 (ix2 (⟨t.val % 208 * 4096 + e.val, he⟩ : Fin 851968) f) := by
  unfold iblk5
  rw [View.read_apply]
  show V c main_v44 _ = V c main_v44 _
  congr 1
  funext a
  apply Fin.ext
  match a with
  | ⟨0, _⟩ => show win5_1.index t 0 * 4096 + 1 * e.val = t.val % 208 * 4096 + e.val; rw [(index5_1 t).1]; omega
  | ⟨1, _⟩ => show win5_1.index t 1 * 40 + 1 * f.val = f.val; rw [(index5_1 t).2]; omega

theorem bias_blk5 (c : Dev nD) (t : Fin cfg5.N) (f : Fin 40) :
    (iblk5 V c 2 t : Vec Ideal S1x40 .f32) (ix2 0 f) = V c main_v39 (ix2 0 f) := by
  unfold iblk5
  rw [View.read_apply]
  show V c main_v39 _ = V c main_v39 _
  congr 1
  funext a
  apply Fin.ext
  match a with
  | ⟨0, _⟩ => show win5_2.index t 0 * 1 + 1 * 0 = 0; rw [(index5_2 t).1]
  | ⟨1, _⟩ => show win5_2.index t 1 * 40 + 1 * f.val = f.val; rw [(index5_2 t).2]; omega

def addend5 (c : Dev nD) (m : ℕ) (f : Fin 40) (j : ℕ) : EReal :=
  if h : j < 851968 then
    (if (V c main_v35 (ix2 0 (⟨j, h⟩ : Fin 851968))).toNat = m then (1 : EReal) else 0)
      * V c main_v44 (ix2 (⟨j, h⟩ : Fin 851968) f)
  else 0

theorem sum_addend5 (c : Dev nD) (m : ℕ) (f : Fin 40) :
    ∑ j ∈ Finset.range 851968, addend5 V c m f j
      = ∑ e : Fin 851968, (if (V c main_v35 (ix2 0 e)).toNat = m then (1 : EReal) else 0) * V c main_v44 (ix2 e f) := by
  rw [Finset.sum_range]
  refine Finset.sum_congr rfl fun e _ => ?_
  unfold addend5
  rw [dif_pos e.isLt]

theorem step5 (c : Dev nD) (t : Fin cfg5.N) (acc : Vec Ideal S512x40 .f32) (r : Fin 512) (f : Fin 40) :
    k5_pay2 (F := Ideal) (grid5.coords t) (iblk5 V c 0 t) acc (iblk5 V c 1 t) (ix2 r f)
      = acc (ix2 r f)
        + ∑ j ∈ Finset.range 4096, addend5 V c (t.val / 208 * 512 + r.val) f (t.val % 208 * 4096 + j) := by
  refine (PayVal.k5_pay2_apply (grid5.coords t) (iblk5 V c 0 t) acc (iblk5 V c 1 t) r f).trans ?_
  refine congrArg (fun x => acc (ix2 r f) + x) ?_
  rw [Finset.sum_range]
  refine Finset.sum_congr rfl fun e _ => ?_
  have he : t.val % 208 * 4096 + e.val < 851968 := by
    have h1 := e.isLt
    have h2 := Nat.mod_lt t.val (show 0 < 208 by decide)
    omega
  unfold addend5
  rw [dif_pos he, dst_blk5 V c t e he, msg_blk5 V c t e f he, coords5_0]

theorem carry5 (c : Dev nD) (t : Fin cfg5.N) (acc : Vec Ideal S512x40 .f32) (r : Fin 512) (f : Fin 40)
    (hacc : acc (ix2 r f) = ∑ j ∈ Finset.range (t.val % 208 * 4096), addend5 V c (t.val / 208 * 512 + r.val) f j) :
    k5_pay2 (F := Ideal) (grid5.coords t) (iblk5 V c 0 t) acc (iblk5 V c 1 t) (ix2 r f)
      = ∑ j ∈ Finset.range ((t.val % 208 + 1) * 4096), addend5 V c (t.val / 208 * 512 + r.val) f j := by
  rw [step5, hacc, show (t.val % 208 + 1) * 4096 = t.val % 208 * 4096 + 4096 by omega, Finset.sum_range_add]

theorem scAt5_apply (c : Dev nD) : ∀ (n : ℕ) (hn : n < cfg5.N) (r : Fin 512) (f : Fin 40),
    scAt5 V c n hn (ix2 r f)
      = ∑ j ∈ Finset.range ((n % 208 + 1) * 4096), addend5 V c (n / 208 * 512 + r.val) f j
  | 0, hn, r, f => by
    rw [scAt5]
    refine carry5 V c ⟨0, hn⟩ _ r f ?_
    rw [PayVal.k5_pay1_apply]
    show (0 : EReal) = ∑ j ∈ Finset.range (0 % 208 * 4096), _
    rw [Nat.zero_mod, Nat.zero_mul, Finset.sum_range_zero]
  | n + 1, hn, r, f => by
    rw [scAt5]
    refine carry5 V c ⟨n + 1, hn⟩ _ r f ?_
    show (if (n + 1) % 208 = 0 then k5_pay1 else scAt5 V c n (Nat.lt_of_succ_lt hn)) (ix2 r f)
      = ∑ j ∈ Finset.range ((n + 1) % 208 * 4096), addend5 V c ((n + 1) / 208 * 512 + r.val) f j
    by_cases h0 : (n + 1) % 208 = 0
    · rw [if_pos h0, PayVal.k5_pay1_apply, h0, Nat.zero_mul, Finset.sum_range_zero]
    · rw [if_neg h0, scAt5_apply c n (Nat.lt_of_succ_lt hn) r f,
        show n % 208 + 1 = (n + 1) % 208 by omega, show n / 208 = (n + 1) / 208 by omega]

theorem scAt5_last (c : Dev nD) (t : Fin cfg5.N) (h207 : t.val % 208 = 207) (r : Fin 512) (f : Fin 40) :
    scAt5 V c t.val t.isLt (ix2 r f)
      = ∑ e : Fin 851968, (if (V c main_v35 (ix2 0 e)).toNat = t.val / 208 * 512 + r.val then (1 : EReal) else 0)
          * V c main_v44 (ix2 e f) := by
  rw [scAt5_apply V c t.val t.isLt r f, h207, show (207 + 1) * 4096 = 851968 from rfl]
  exact sum_addend5 V c (t.val / 208 * 512 + r.val) f

def node5 (c : Dev nD) (m : ℕ) (f : Fin 40) : EReal :=
  (∑ e : Fin 851968, (if (V c main_v35 (ix2 0 e)).toNat = m then (1 : EReal) else 0) * V c main_v44 (ix2 e f))
    + V c main_v39 (ix2 0 f)

def out5 (c : Dev nD) : Buf (Elt Ideal) ((c : Thread nD τ).loc main_v45) :=
  fun i => node5 V c (i 0).val (i 1)

theorem stored5 (c : Dev nD) (t : Fin cfg5.N) (h207 : t.val % 208 = 207) (j : S512x40.Idx) :
    k5_pay3 (F := Ideal) (scAt5 V c t.val t.isLt) (iblk5 V c 2 t) j
      = node5 V c (t.val / 208 * 512 + (j 0).val) (j 1) := by
  obtain ⟨r, f, rfl⟩ : ∃ (r : Fin 512) (f : Fin 40), j = ix2 r f := ⟨j 0, j 1, eq_ix2 j⟩
  show _ = node5 V c (t.val / 208 * 512 + r.val) f
  unfold node5
  refine (PayVal.k5_pay3_apply (scAt5 V c t.val t.isLt) (iblk5 V c 2 t) r f).trans ?_
  rw [scAt5_last V c t h207 r f, bias_blk5 V c t f]

theorem blk_read5 (G : S50176x40.Idx → EReal) (t : Fin cfg5.N) (j : S512x40.Idx)
    (hr : t.val / 208 * 512 + (j 0).val < 50176) :
    ((cfg5.win 3).blk t).view.read (Elt Ideal) G j
      = G (ix2 (⟨t.val / 208 * 512 + (j 0).val, hr⟩ : Fin 50176) (j 1)) := by
  rw [View.read_apply]
  show G _ = G _
  congr 1
  funext a
  apply Fin.ext
  match a with
  | ⟨0, _⟩ => show win5_3.index t 0 * 512 + 1 * (j 0).val = t.val / 208 * 512 + (j 0).val; rw [(index5_3 t).1]; omega
  | ⟨1, _⟩ => show win5_3.index t 1 * 40 + 1 * (j 1).val = (j 1).val; rw [(index5_3 t).2]; omega

theorem flushed5_eq (c : Dev nD) (t : Fin cfg5.N) (hf : (cfg5.win 3).flush t = true) :
    (dat5 V c).flushed 3 t = ((cfg5.win 3).blk t).view.read (Elt Ideal) (out5 V c) := by
  have h207 : t.val % 208 = 207 := (flush5_3 t).mp hf
  have hN := lt_N5 t
  show (cfg5.win 3).cut (grid5.coords t) ((dat5 V c).after 3 t) = _
  rw [after5_3]
  funext j
  have hj : ((j 0 : Fin 512) : ℕ) < 512 := (j 0).isLt
  have hr : t.val / 208 * 512 + ((j 0 : Fin 512) : ℕ) < 50176 := by omega
  refine Eq.trans ?_ (blk_read5 (out5 V c) t j hr).symm
  exact stored5 V c t h207 j

theorem cover5 (i : S50176x40.Idx) :
    ∃ t : Fin cfg5.N, (cfg5.win 3).flush t = true ∧ i ∈ ((cfg5.win 3).blk t).view.set := by
  have hi0 : (i 0).val < 50176 := (i 0).isLt
  have hi1 : (i 1).val < 40 := (i 1).isLt
  have hN : cfg5.N = 20384 := N_5
  have hlt : (i 0).val / 512 * 208 + 207 < cfg5.N := by rw [hN]; omega
  refine ⟨⟨(i 0).val / 512 * 208 + 207, hlt⟩, (flush5_3 _).mpr (by show ((i 0).val / 512 * 208 + 207) % 208 = 207; omega), ?_⟩
  show i ∈ ((View.whole main_v45).slice (win5_3.rect ⟨(i 0).val / 512 * 208 + 207, hlt⟩)).set
  rw [View.set_slice_whole, Rect.mem_set_unit]
  intro a
  obtain ⟨e0, e1⟩ := index5_3 ⟨(i 0).val / 512 * 208 + 207, hlt⟩
  have e0' : win5_3.index ⟨(i 0).val / 512 * 208 + 207, hlt⟩ 0 = (i 0).val / 512 := by
    rw [e0]; show ((i 0).val / 512 * 208 + 207) / 208 = _; omega
  match a with
  | ⟨0, _⟩ =>
    show win5_3.index ⟨(i 0).val / 512 * 208 + 207, hlt⟩ 0 * 512 ≤ (i 0).val
      ∧ (i 0).val < win5_3.index ⟨(i 0).val / 512 * 208 + 207, hlt⟩ 0 * 512 + 512
    rw [e0']; omega
  | ⟨1, _⟩ =>
    show win5_3.index ⟨(i 0).val / 512 * 208 + 207, hlt⟩ 1 * 40 ≤ (i 1).val
      ∧ (i 1).val < win5_3.index ⟨(i 0).val / 512 * 208 + 207, hlt⟩ 1 * 40 + 40
    rw [e1]; omega

theorem final5 (c : Dev nD) : (dat5 V c).arrAt 3 cfg5.N = out5 V c :=
  (dat5 V c).arrAt_eq_of_cover 3 (out5 V c) (fun t hf => flushed5_eq V c t hf) cover5

theorem arr5 (V : (c : Dev nD) → (b : Ref sig .tc) → Buf (Elt Ideal) ((c : Thread nD τ).loc b)) (c : Dev nD)
    (n : Fin 50176) (f : Fin 40) :
    (Cert.KernelIdeal.Hand.dat5 (F := Ideal) V c).arrAt 3 cfg5.N (ix2 n f)
      = (∑ e : Fin 851968, (if (V c main_v35 (ix2 0 e)).toNat = n.val then (1 : EReal) else 0) * V c main_v44 (ix2 e f))
        + V c main_v39 (ix2 0 f) := by
  rw [final5 V c]
  show node5 V c n.val f = _
  unfold node5
  rfl

end Cert.KernelIdeal.Arr

end
-- ==== Proof.Val.HostVal.lean ====
import proofs.«137339_j11914239279184_1_alg».proof.Proof.Gen.KernelIdeal.Regions
import Idealize.ShloMosaic.Lib.KernelVsHost
import Idealize.ShloMosaic.Lib.ValueLayout

noncomputable section

namespace Cert.KernelIdeal.HostVal

open Idealize.ShloMosaic Idealize.SL.Sem
open Idealize.ShloMosaic.ValueIdx
open Cert.KernelIdeal Cert.KernelIdeal.Gen

section ReadAtIndex
variable {α : Type}

theorem pad_end_apply {N M hi : ℕ} (x : (⟨1, ![N]⟩ : Shape).Idx → α) {u : Shape} (v : u.Idx → α)
    (hp : (⟨1, ![N]⟩ : Shape).Pads (![0] : Fin 1 → ℕ) ![hi] ![0] ⟨1, ![M]⟩) (hu : 0 < u.numel) (e : Fin M) :
    pad ⟨1, ![M]⟩ ![0] ![hi] ![0] x v hp hu (ix1 e)
      = if h : e.val < N then x (ix1 ⟨e.val, h⟩) else v (Shape.Idx.first hu) := by
  by_cases h : e.val < N
  · rw [dif_pos h]
    exact pad_apply_of_inside _ _ _ x v hp hu _ (ix1 (⟨e.val, h⟩ : Fin N)) (by
      intro a
      have ha : a = 0 := Subsingleton.elim _ _
      subst ha
      show e.val = 0 + e.val * (0 + 1); omega)
  · rw [dif_neg h]
    exact pad_apply_of_not_inside _ _ _ x v hp hu _ (0 : Fin 1) (by
      intro hin
      have e3 : (e.val - 0) / (0 + 1) < N := hin.2.2
      rw [Nat.sub_zero, Nat.zero_add, Nat.div_one] at e3
      exact h e3)

theorem pad_rows_apply {N M K hi : ℕ} (x : (⟨2, ![N, K]⟩ : Shape).Idx → α) {u : Shape} (v : u.Idx → α)
    (hp : (⟨2, ![N, K]⟩ : Shape).Pads (![0, 0] : Fin 2 → ℕ) ![hi, 0] ![0, 0] ⟨2, ![M, K]⟩) (hu : 0 < u.numel)
    (n : Fin M) (k : Fin K) :
    pad ⟨2, ![M, K]⟩ ![0, 0] ![hi, 0] ![0, 0] x v hp hu (ix2 n k)
      = if h : n.val < N then x (ix2 ⟨n.val, h⟩ k) else v (Shape.Idx.first hu) := by
  by_cases h : n.val < N
  · rw [dif_pos h]
    exact pad_apply_of_inside _ _ _ x v hp hu _ (ix2 (⟨n.val, h⟩ : Fin N) k) (by
      intro a
      match a with
      | ⟨0, _⟩ => show n.val = 0 + n.val * (0 + 1); omega
      | ⟨1, _⟩ => show k.val = 0 + k.val * (0 + 1); omega)
  · rw [dif_neg h]
    exact pad_apply_of_not_inside _ _ _ x v hp hu _ (0 : Fin 2) (by
      intro hin
      have e3 : (n.val - 0) / (0 + 1) < N := hin.2.2
      rw [Nat.sub_zero, Nat.zero_add, Nat.div_one] at e3
      exact h e3)

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem concat_two_apply {N₁ N₂ T : ℕ} (hT : N₁ + N₂ = T) (x₁ : (⟨1, ![N₁]⟩ : Shape).Idx → α) (x₂ : (⟨1, ![N₂]⟩ : Shape).Idx → α)
    (hc : Shape.Concatenates [(⟨1, ![N₁]⟩ : Shape), ⟨1, ![N₂]⟩] ⟨1, ![T]⟩ 0) (e : Fin T) :
    concatenate ⟨1, ![T]⟩ 0 [⟨⟨1, ![N₁]⟩, x₁⟩, ⟨⟨1, ![N₂]⟩, x₂⟩] hc (ix1 e)
      = if h : e.val < N₁ then x₁ (ix1 ⟨e.val, h⟩) else x₂ (ix1 ⟨e.val - N₁, by have := e.isLt; omega⟩) := by
  by_cases h : e.val < N₁
  · rw [dif_pos h]
    exact concatenate_pair_apply_left (t := ⟨1, ![T]⟩) (s₁ := ⟨1, ![N₁]⟩) (s₂ := ⟨1, ![N₂]⟩) (0 : Fin 1) x₁ x₂ hc (ix1 e) rfl
      (ix1 (⟨e.val, h⟩ : Fin N₁)) (by
        intro b
        have hb : b = 0 := Subsingleton.elim _ _
        subst hb
        rfl)
  · rw [dif_neg h]
    exact concatenate_pair_apply_right (t := ⟨1, ![T]⟩) (s₁ := ⟨1, ![N₁]⟩) (s₂ := ⟨1, ![N₂]⟩) (0 : Fin 1) x₁ x₂ hc (ix1 e) rfl rfl
      (ix1 (⟨e.val - N₁, by have := e.isLt; omega⟩ : Fin N₂)) (by
        intro b hb
        exact absurd (Subsingleton.elim _ _) hb) (by
        show e.val - N₁ + N₁ = e.val; omega)

theorem row_of_two_apply {n : ℕ} (r : Fin 2) (X : (⟨2, ![2, n]⟩ : Shape).Idx → α)
    (hs : (⟨2, ![2, n]⟩ : Shape).Slices ![r.val, 0] ⟨2, ![1, n]⟩) (hc : (⟨2, ![1, n]⟩ : Shape).ShapeCasts ⟨1, ![n]⟩) (e : Fin n) :
    shapeCast ⟨1, ![n]⟩ (extractStridedSlice ⟨2, ![1, n]⟩ ![r.val, 0] X hs) hc (ix1 e) = X (ix2 r e) := by
  refine (shapeCast_1a_a_apply _ hc e).trans ?_
  exact extractStridedSlice_apply _ X hs _ (ix2 r e) (by
    intro a
    match a with
    | ⟨0, _⟩ => show r.val = r.val + 0; omega
    | ⟨1, _⟩ => show e.val = 0 + e.val; omega)

end ReadAtIndex

section Terms
variable {F : FTy → Type} [FloatOps F]
variable (m : (ℓ : Loc nD τ sig) → Buf (Elt F) ℓ) (c : Dev nD)

abbrev edges : S2x800000.Idx → BitVec 32 := m ((c.tc : Thread nD τ).loc main_arg1)

abbrev withLoops (ei : S2x800000.Idx → BitVec 32) (r : Fin 2) (hs : S2x800000.Slices ![r.val, 0] S1x800000) : S850000.Idx → BitVec 32 :=
  concatenate S850000 0
    [⟨S800000, shapeCast S800000 (extractStridedSlice S1x800000 ![r.val, 0] ei hs) Gen.shapeCasts_S1x800000_S800000⟩,
     ⟨S50000, iotaInDim S50000 32 0⟩] Gen.concatenates_S800000_S50000_S850000_d0

theorem v3_term : (V11 m c (Proc.devRef .tc main_v3) : S850000.Idx → BitVec 32)
    = withLoops (edges m c) 0 Gen.slices_S2x800000_S1x800000_0_0 := by
  dsimp only [V11, V10, V9, V8, V7, V6, V5, V4, V3, V2, V1]
  after_results
  rfl

theorem v7_term : (V11 m c (Proc.devRef .tc main_v7) : S850000.Idx → BitVec 32)
    = withLoops (edges m c) 1 Gen.slices_S2x800000_S1x800000_1_0 := by
  dsimp only [V11, V10, V9, V8, V7, V6, V5, V4, V3, V2, V1]
  after_results
  rfl

theorem cast_v34 (W : Valuation τ sig (Elt F)) :
    (StableHlo.after hostOps0_8 W (Proc.devRef .tc main_v34) : S851968x1.Idx → BitVec 32)
      = shapeCast S851968x1 (W (Proc.devRef .tc main_v31) : S851968.Idx → BitVec 32) Gen.shapeCasts_S851968_S851968x1 := by
  after_results
  rfl

theorem cast_v35 (W : Valuation τ sig (Elt F)) :
    (StableHlo.after hostOps0_8 W (Proc.devRef .tc main_v35) : S1x851968.Idx → BitVec 32)
      = shapeCast S1x851968 (W (Proc.devRef .tc main_v32) : S851968.Idx → BitVec 32) Gen.shapeCasts_S851968_S1x851968 := by
  after_results
  rfl

theorem cast_v36 (W : Valuation τ sig (Elt F)) :
    (StableHlo.after hostOps0_8 W (Proc.devRef .tc main_v36) : S851968x1.Idx → Elt F .f32)
      = shapeCast S851968x1 (W (Proc.devRef .tc main_v33) : S851968.Idx → Elt F .f32) Gen.shapeCasts_S851968_S851968x1 := by
  after_results
  rfl

theorem pad_v31 (W : Valuation τ sig (Elt F)) :
    (StableHlo.after hostOps0_3 W (Proc.devRef .tc main_v31) : S851968.Idx → BitVec 32)
      = pad S851968 ![0] ![1968] ![0] (W (Proc.devRef .tc main_v3) : S850000.Idx → BitVec 32)
          (W (Proc.devRef .tc main_c_6) : S_.Idx → BitVec 32) Gen.pads_S850000_S851968_019680 Gen.h_S_ := by
  after_results
  rfl

theorem pad_v32 (W : Valuation τ sig (Elt F)) :
    (StableHlo.after hostOps0_5 W (Proc.devRef .tc main_v32) : S851968.Idx → BitVec 32)
      = pad S851968 ![0] ![1968] ![0] (W (Proc.devRef .tc main_v7) : S850000.Idx → BitVec 32)
          (W (Proc.devRef .tc main_c_7) : S_.Idx → BitVec 32) Gen.pads_S850000_S851968_019680 Gen.h_S_ := by
  after_results
  rfl

theorem pad_v33 (W : Valuation τ sig (Elt F)) :
    (StableHlo.after hostOps0_7 W (Proc.devRef .tc main_v33) : S851968.Idx → Elt F .f32)
      = pad S851968 ![0] ![1968] ![0] (W (Proc.devRef .tc main_v30) : S850000.Idx → Elt F .f32)
          (W (Proc.devRef .tc main_cst_8) : S_.Idx → Elt F .f32) Gen.pads_S850000_S851968_019680 Gen.h_S_ := by
  after_results
  rfl

theorem const_c_6 (W : Valuation τ sig (Elt F)) :
    (StableHlo.after hostOps0_2 W (Proc.devRef .tc main_c_6) : S_.Idx → BitVec 32) = constantI S_ 32 4294967295#32 := by
  after_results
theorem const_c_7 (W : Valuation τ sig (Elt F)) :
    (StableHlo.after hostOps0_4 W (Proc.devRef .tc main_c_7) : S_.Idx → BitVec 32) = constantI S_ 32 4294967295#32 := by
  after_results
theorem const_cst_8 (W : Valuation τ sig (Elt F)) :
    (StableHlo.after hostOps0_6 W (Proc.devRef .tc main_cst_8) : S_.Idx → Elt F .f32) = constant (F := F) S_ .f32 0x00000000#32 := by
  after_results

theorem v34_term : (V11 m c (Proc.devRef .tc main_v34) : S851968x1.Idx → BitVec 32)
    = shapeCast S851968x1 (pad S851968 ![0] ![1968] ![0] (V11 m c (Proc.devRef .tc main_v3) : S850000.Idx → BitVec 32)
        (constantI S_ 32 4294967295#32) Gen.pads_S850000_S851968_019680 Gen.h_S_) Gen.shapeCasts_S851968_S851968x1 := by
  have h1 : V11 m c (Proc.devRef .tc main_v34) = V9 m c (Proc.devRef .tc main_v34) :=
    ((V11_of m c main_v34 (by decide)).trans (V10_of m c main_v34 (by decide)))
  have h2 : (V9 m c (Proc.devRef .tc main_v34) : S851968x1.Idx → BitVec 32)
      = shapeCast S851968x1 (V8 m c (Proc.devRef .tc main_v31) : S851968.Idx → BitVec 32) Gen.shapeCasts_S851968_S851968x1 := cast_v34 (V8 m c)
  have h3 : V8 m c (Proc.devRef .tc main_v31) = V4 m c (Proc.devRef .tc main_v31) :=
    ((V8_of m c main_v31 (by decide)).trans ((V7_of m c main_v31 (by decide)).trans ((V6_of m c main_v31 (by decide)).trans (V5_of m c main_v31 (by decide)))))
  have h4 : (V4 m c (Proc.devRef .tc main_v31) : S851968.Idx → BitVec 32)
      = pad S851968 ![0] ![1968] ![0] (V3 m c (Proc.devRef .tc main_v3) : S850000.Idx → BitVec 32)
          (V3 m c (Proc.devRef .tc main_c_6) : S_.Idx → BitVec 32) Gen.pads_S850000_S851968_019680 Gen.h_S_ := pad_v31 (V3 m c)
  have h5 : (V3 m c (Proc.devRef .tc main_c_6) : S_.Idx → BitVec 32) = constantI S_ 32 4294967295#32 := const_c_6 (V2 m c)
  have h6 : V11 m c (Proc.devRef .tc main_v3) = V3 m c (Proc.devRef .tc main_v3) :=
    ((V11_of m c main_v3 (by decide)).trans ((V10_of m c main_v3 (by decide)).trans ((V9_of m c main_v3 (by decide)).trans ((V8_of m c main_v3 (by decide)).trans ((V7_of m c main_v3 (by decide)).trans ((V6_of m c main_v3 (by decide)).trans ((V5_of m c main_v3 (by decide)).trans (V4_of m c main_v3 (by decide)))))))))
  rw [h6, h1, h2, h3, h4, h5]

theorem v35_term : (V11 m c (Proc.devRef .tc main_v35) : S1x851968.Idx → BitVec 32)
    = shapeCast S1x851968 (pad S851968 ![0] ![1968] ![0] (V11 m c (Proc.devRef .tc main_v7) : S850000.Idx → BitVec 32)
        (constantI S_ 32 4294967295#32) Gen.pads_S850000_S851968_019680 Gen.h_S_) Gen.shapeCasts_S851968_S1x851968 := by
  have h1 : V11 m c (Proc.devRef .tc main_v35) = V9 m c (Proc.devRef .tc main_v35) :=
    ((V11_of m c main_v35 (by decide)).trans (V10_of m c main_v35 (by decide)))
  have h2 : (V9 m c (Proc.devRef .tc main_v35) : S1x851968.Idx → BitVec 32)
      = shapeCast S1x851968 (V8 m c (Proc.devRef .tc main_v32) : S851968.Idx → BitVec 32) Gen.shapeCasts_S851968_S1x851968 := cast_v35 (V8 m c)
  have h3 : V8 m c (Proc.devRef .tc main_v32) = V6 m c (Proc.devRef .tc main_v32) :=
    ((V8_of m c main_v32 (by decide)).trans (V7_of m c main_v32 (by decide)))
  have h4 : (V6 m c (Proc.devRef .tc main_v32) : S851968.Idx → BitVec 32)
      = pad S851968 ![0] ![1968] ![0] (V5 m c (Proc.devRef .tc main_v7) : S850000.Idx → BitVec 32)
          (V5 m c (Proc.devRef .tc main_c_7) : S_.Idx → BitVec 32) Gen.pads_S850000_S851968_019680 Gen.h_S_ := pad_v32 (V5 m c)
  have h5 : (V5 m c (Proc.devRef .tc main_c_7) : S_.Idx → BitVec 32) = constantI S_ 32 4294967295#32 := const_c_7 (V4 m c)
  have h6 : V11 m c (Proc.devRef .tc main_v7) = V5 m c (Proc.devRef .tc main_v7) :=
    ((V11_of m c main_v7 (by decide)).trans ((V10_of m c main_v7 (by decide)).trans ((V9_of m c main_v7 (by decide)).trans ((V8_of m c main_v7 (by decide)).trans ((V7_of m c main_v7 (by decide)).trans (V6_of m c main_v7 (by decide)))))))
  rw [h6, h1, h2, h3, h4, h5]

theorem v36_term : (V11 m c (Proc.devRef .tc main_v36) : S851968x1.Idx → Elt F .f32)
    = shapeCast S851968x1 (pad S851968 ![0] ![1968] ![0] (V11 m c (Proc.devRef .tc main_v30) : S850000.Idx → Elt F .f32)
        (constant (F := F) S_ .f32 0x00000000#32) Gen.pads_S850000_S851968_019680 Gen.h_S_) Gen.shapeCasts_S851968_S851968x1 := by
  have h1 : V11 m c (Proc.devRef .tc main_v36) = V9 m c (Proc.devRef .tc main_v36) :=
    ((V11_of m c main_v36 (by decide)).trans (V10_of m c main_v36 (by decide)))
  have h2 : (V9 m c (Proc.devRef .tc main_v36) : S851968x1.Idx → Elt F .f32)
      = shapeCast S851968x1 (V8 m c (Proc.devRef .tc main_v33) : S851968.Idx → Elt F .f32) Gen.shapeCasts_S851968_S851968x1 := cast_v36 (V8 m c)
  have h4 : (V8 m c (Proc.devRef .tc main_v33) : S851968.Idx → Elt F .f32)
      = pad S851968 ![0] ![1968] ![0] (V7 m c (Proc.devRef .tc main_v30) : S850000.Idx → Elt F .f32)
          (V7 m c (Proc.devRef .tc main_cst_8) : S_.Idx → Elt F .f32) Gen.pads_S850000_S851968_019680 Gen.h_S_ := pad_v33 (V7 m c)
  have h5 : (V7 m c (Proc.devRef .tc main_cst_8) : S_.Idx → Elt F .f32) = constant (F := F) S_ .f32 0x00000000#32 := const_cst_8 (V6 m c)
  have h6 : V11 m c (Proc.devRef .tc main_v30) = V7 m c (Proc.devRef .tc main_v30) :=
    ((V11_of m c main_v30 (by decide)).trans ((V10_of m c main_v30 (by decide)).trans ((V9_of m c main_v30 (by decide)).trans (V8_of m c main_v30 (by decide)))))
  rw [h6, h1, h2, h4, h5]

theorem v37_term : (V11 m c (Proc.devRef .tc main_v37) : S50176x128.Idx → Elt F .f32)
    = pad S50176x128 ![0, 0] ![176, 0] ![0, 0] (m ((c.tc : Thread nD τ).loc main_arg0) : S50000x128.Idx → Elt F .f32)
        (sitofp (F := F) .f32 (constantI S_ 32 0#32)) Gen.pads_S50000x128_S50176x128_01760_000 Gen.h_S_ := by
  dsimp only [V11, V10, V9, V8, V7, V6, V5, V4, V3, V2, V1]
  after_results
  rfl

theorem v38_term : (V11 m c (Proc.devRef .tc main_v38) : S1x128.Idx → Elt F .f32)
    = shapeCast S1x128 (m ((c.tc : Thread nD τ).loc main_arg3) : S128.Idx → Elt F .f32) Gen.shapeCasts_S128_S1x128 := by
  dsimp only [V11, V10, V9, V8, V7, V6, V5, V4, V3, V2, V1]
  after_results
  rfl

theorem v39_term : (V11 m c (Proc.devRef .tc main_v39) : S1x40.Idx → Elt F .f32)
    = shapeCast S1x40 (m ((c.tc : Thread nD τ).loc main_arg5) : S40.Idx → Elt F .f32) Gen.shapeCasts_S40_S1x40 := by
  dsimp only [V11, V10, V9, V8, V7, V6, V5, V4, V3, V2, V1]
  after_results
  rfl

end Terms

section Words
variable {F : FTy → Type} [FloatOps F]
variable (m : (ℓ : Loc nD τ sig) → Buf (Elt F) ℓ) (c : Dev nD)

theorem withLoops_apply (ei : S2x800000.Idx → BitVec 32) (r : Fin 2) (hs : S2x800000.Slices ![r.val, 0] S1x800000) (e : Fin 850000) :
    withLoops ei r hs (ix1 e) = if h : e.val < 800000 then ei (ix2 r ⟨e.val, h⟩) else BitVec.ofNat 32 (e.val - 800000) := by
  refine (concat_two_apply (by decide) _ _ Gen.concatenates_S800000_S50000_S850000_d0 e).trans ?_
  by_cases h : e.val < 800000
  · rw [dif_pos h, dif_pos h]
    exact row_of_two_apply r ei hs Gen.shapeCasts_S1x800000_S800000 ⟨e.val, h⟩
  · rw [dif_neg h, dif_neg h]
    rfl

theorem v3_apply (e : Fin 850000) :
    (V11 m c (Proc.devRef .tc main_v3) : S850000.Idx → BitVec 32) (ix1 e)
      = if h : e.val < 800000 then edges m c (ix2 (0 : Fin 2) ⟨e.val, h⟩) else BitVec.ofNat 32 (e.val - 800000) :=
  (congrFun (v3_term m c) (ix1 e)).trans (withLoops_apply (edges m c) 0 _ e)

theorem v7_apply (e : Fin 850000) :
    (V11 m c (Proc.devRef .tc main_v7) : S850000.Idx → BitVec 32) (ix1 e)
      = if h : e.val < 800000 then edges m c (ix2 (1 : Fin 2) ⟨e.val, h⟩) else BitVec.ofNat 32 (e.val - 800000) :=
  (congrFun (v7_term m c) (ix1 e)).trans (withLoops_apply (edges m c) 1 _ e)

theorem v34_apply (e : Fin 851968) :
    (V11 m c (Proc.devRef .tc main_v34) : S851968x1.Idx → BitVec 32) (ix2 e (0 : Fin 1))
      = if h : e.val < 850000 then (V11 m c (Proc.devRef .tc main_v3) : S850000.Idx → BitVec 32) (ix1 ⟨e.val, h⟩)
        else 4294967295#32 := by
  refine (congrFun (v34_term m c) _).trans ?_
  refine (shapeCast_a_a1_apply _ Gen.shapeCasts_S851968_S851968x1 e 0).trans ?_
  exact pad_end_apply _ _ Gen.pads_S850000_S851968_019680 Gen.h_S_ e

theorem v35_apply (e : Fin 851968) :
    (V11 m c (Proc.devRef .tc main_v35) : S1x851968.Idx → BitVec 32) (ix2 (0 : Fin 1) e)
      = if h : e.val < 850000 then (V11 m c (Proc.devRef .tc main_v7) : S850000.Idx → BitVec 32) (ix1 ⟨e.val, h⟩)
        else 4294967295#32 := by
  refine (congrFun (v35_term m c) _).trans ?_
  refine (shapeCast_a_1a_apply _ Gen.shapeCasts_S851968_S1x851968 0 e).trans ?_
  exact pad_end_apply _ _ Gen.pads_S850000_S851968_019680 Gen.h_S_ e

end Words

section Reals
variable (m : (ℓ : Loc nD τ sig) → Buf (Elt Ideal) ℓ) (c : Dev nD)

theorem v36_apply (e : Fin 851968) :
    (V11 m c (Proc.devRef .tc main_v36) : S851968x1.Idx → EReal) (ix2 e (0 : Fin 1))
      = if h : e.val < 850000 then (V11 m c (Proc.devRef .tc main_v30) : S850000.Idx → EReal) (ix1 ⟨e.val, h⟩) else (0 : EReal) := by
  refine (congrFun (v36_term m c) _).trans ?_
  refine (shapeCast_a_a1_apply _ Gen.shapeCasts_S851968_S851968x1 e 0).trans ?_
  refine (pad_end_apply _ _ Gen.pads_S850000_S851968_019680 Gen.h_S_ e).trans ?_
  rw [constant_apply, Ideal.ofBits_zero_f32]

theorem v37_apply (n : Fin 50176) (k : Fin 128) :
    (V11 m c (Proc.devRef .tc main_v37) : S50176x128.Idx → EReal) (ix2 n k)
      = if h : n.val < 50000 then (m ((c.tc : Thread nD τ).loc main_arg0) : S50000x128.Idx → EReal) (ix2 ⟨n.val, h⟩ k) else (0 : EReal) := by
  refine (congrFun (v37_term m c) _).trans ?_
  refine (pad_rows_apply _ _ Gen.pads_S50000x128_S50176x128_01760_000 Gen.h_S_ n k).trans ?_
  have hz : (sitofp (F := Ideal) .f32 (constantI S_ 32 0#32) : FVec Ideal S_ .f32) (Shape.Idx.first Gen.h_S_) = 0 := by
    show ((((0#32 : BitVec 32).toInt : ℤ) : ℝ) : EReal) = 0
    simp
  rw [hz]

theorem v38_apply (f : Fin 128) :
    (V11 m c (Proc.devRef .tc main_v38) : S1x128.Idx → EReal) (ix2 (0 : Fin 1) f)
      = (m ((c.tc : Thread nD τ).loc main_arg3) : S128.Idx → EReal) (ix1 f) :=
  (congrFun (v38_term m c) _).trans (shapeCast_a_1a_apply _ Gen.shapeCasts_S128_S1x128 0 f)

theorem v39_apply (f : Fin 40) :
    (V11 m c (Proc.devRef .tc main_v39) : S1x40.Idx → EReal) (ix2 (0 : Fin 1) f)
      = (m ((c.tc : Thread nD τ).loc main_arg5) : S40.Idx → EReal) (ix1 f) :=
  (congrFun (v39_term m c) _).trans (shapeCast_a_1a_apply _ Gen.shapeCasts_S40_S1x40 0 f)

end Reals

end Cert.KernelIdeal.HostVal
-- ==== Proof.Val.SliceVal.lean ====
import proofs.«137339_j11914239279184_1_alg».proof.Proof.Gen.KernelIdeal.Regions
import Idealize.ShloMosaic.Lib.Pipeline.Value
import Idealize.ShloMosaic.Lib.ValueIdx

noncomputable section

namespace Cert.KernelIdeal.HostVal

open Idealize.ShloMosaic Idealize.SL.Sem
open Idealize.ShloMosaic.ValueIdx
open Cert.KernelIdeal Cert.KernelIdeal.Gen

variable {F : FTy → Type} [FloatOps F]

theorem slice_v46 (W : Valuation τ sig (Elt F)) :
    (StableHlo.after hostOps6 W (Proc.devRef .tc main_v46) : S50000x40.Idx → Elt F .f32)
      = extractStridedSlice S50000x40 ![0, 0] (W (Proc.devRef .tc main_v45) : S50176x40.Idx → Elt F .f32)
          Gen.slices_S50176x40_S50000x40_0_0 := by
  after_results

theorem v46_apply (m : (ℓ : Loc nD τ sig) → Buf (Elt F) ℓ) (outs : Outs (F := F)) (c : Dev nD) (n : Fin 50000) (f : Fin 40) :
    (V18 m outs c (Proc.devRef .tc main_v46) : S50000x40.Idx → Elt F .f32) (ix2 n f)
      = (V17 m outs c (Proc.devRef .tc main_v45) : S50176x40.Idx → Elt F .f32)
          (ix2 (⟨n.val, by have := n.isLt; omega⟩ : Fin 50176) f) := by
  refine (congrFun (slice_v46 (V17 m outs c)) _).trans ?_
  exact extractStridedSlice_apply _ _ Gen.slices_S50176x40_S50000x40_0_0 _ _ (by
    intro a
    match a with
    | ⟨0, _⟩ => show n.val = 0 + n.val; omega
    | ⟨1, _⟩ => show f.val = 0 + f.val; omega)

end Cert.KernelIdeal.HostVal
-- ==== Proof.Spec.lean ====
import Idealize.ShloMosaic.PureOps.Ideal

noncomputable section

namespace Cert.Spec

def mm {N K D : ℕ} (a : Fin N → Fin K → EReal) (w : Fin K → Fin D → EReal) (n : Fin N) (f : Fin D) : EReal :=
  ∑ k : Fin K, a n k * w k f

def layer {D : ℕ} (src dst : Fin 850000 → Fin 50000) (nrm : Fin 850000 → EReal) (h : Fin 50000 → Fin D → EReal)
    (b : Fin D → EReal) (n : Fin 50000) (f : Fin D) : EReal :=
  (∑ e : Fin 850000, if dst e = n then h (src e) f * nrm e else 0) + b f

def gcn (src dst : Fin 850000 → Fin 50000) (nrm : Fin 850000 → EReal) (x : Fin 50000 → Fin 128 → EReal)
    (W1 : Fin 128 → Fin 128 → EReal) (b1 : Fin 128 → EReal) (W2 : Fin 128 → Fin 40 → EReal) (b2 : Fin 40 → EReal) :
    Fin 50000 → Fin 40 → EReal :=
  layer src dst nrm (mm (fun n k => max (layer src dst nrm (mm x W1) b1 n k) 0) W2) b2

def node (w : BitVec 32) : Fin 50000 := ⟨min w.toNat 49999, by omega⟩

theorem node_val {w : BitVec 32} (h : w.toNat < 50000) : (node w).val = w.toNat := by
  unfold node; simp only []; omega

end Cert.Spec

end
-- ==== Proof.Val.Chain.lean ====
import proofs.«137339_j11914239279184_1_alg».proof.Proof.KI.Run
import proofs.«137339_j11914239279184_1_alg».proof.Proof.Gen.KernelIdeal.Regions
import proofs.«137339_j11914239279184_1_alg».proof.Proof.Val.Arr0
import proofs.«137339_j11914239279184_1_alg».proof.Proof.Val.Arr1
import proofs.«137339_j11914239279184_1_alg».proof.Proof.Val.Arr2
import proofs.«137339_j11914239279184_1_alg».proof.Proof.Val.Arr3
import proofs.«137339_j11914239279184_1_alg».proof.Proof.Val.Arr4
import proofs.«137339_j11914239279184_1_alg».proof.Proof.Val.Arr5
import proofs.«137339_j11914239279184_1_alg».proof.Proof.Val.HostVal
import proofs.«137339_j11914239279184_1_alg».proof.Proof.Val.SliceVal
import proofs.«137339_j11914239279184_1_alg».proof.Proof.Spec
import Idealize.ShloMosaic.Lib.ValueIdx

noncomputable section

open scoped BigOperators

namespace Cert.KernelIdeal.Chain

open Cert.KernelIdeal Cert.KernelIdeal.Gen
open Cert.KernelIdeal.Hand (X12_of X13_of X14_of X15_of X16_of X12_out X13_out X14_out X15_out X16_out X17_out)
open Idealize.ShloMosaic Idealize.ShloMosaic.TcCoe Idealize.ShloMosaic.ValueIdx Idealize.SL.Sem

theorem pick {N : ℕ} (g : Fin N → EReal) (w : ℕ) :
    ∑ n : Fin N, (if w = n.val then (1 : EReal) else 0) * g n = if h : w < N then g ⟨w, h⟩ else 0 := by
  simp only [ite_mul, one_mul, zero_mul]
  by_cases h : w < N
  · rw [dif_pos h, Finset.sum_eq_single (⟨w, h⟩ : Fin N)]
    · rw [if_pos rfl]
    · intro b _ hb
      rw [if_neg]
      intro e
      exact hb (Fin.ext e.symm)
    · intro h'
      exact absurd (Finset.mem_univ _) h'
  · rw [dif_neg h]
    refine Finset.sum_eq_zero fun b _ => ?_
    rw [if_neg]
    intro e
    exact h (e ▸ b.isLt)

theorem split {A B : ℕ} (hAB : A ≤ B) (t : Fin B → EReal) (hpad : ∀ e : Fin B, A ≤ e.val → t e = 0) :
    ∑ e : Fin B, t e = ∑ e : Fin A, t (Fin.castLE hAB e) := by
  have hmap : ∑ e : Fin A, t (Fin.castLE hAB e) = ∑ e ∈ Finset.univ.map (Fin.castLEEmb hAB), t e :=
    (Finset.sum_map Finset.univ (Fin.castLEEmb hAB) t).symm
  rw [hmap]
  refine (Finset.sum_subset (Finset.subset_univ _) fun e _ he => hpad e ?_).symm
  by_contra hlt
  exact he (Finset.mem_map.mpr ⟨⟨e.val, Nat.lt_of_not_le hlt⟩, Finset.mem_univ _, Fin.ext rfl⟩)

abbrev upN (n : Fin 50000) : Fin 50176 := Fin.castLE (by decide : 50000 ≤ 50176) n

abbrev upE (e : Fin 850000) : Fin 851968 := Fin.castLE (by decide : 850000 ≤ 851968) e

theorem gather_pick (w : BitVec 32) (hw : w.toNat < 50000) (tab : Fin 50176 → EReal) :
    ∑ n : Fin 50176, (if w.toNat = n.val then (1 : EReal) else 0) * tab n = tab (upN (Cert.Spec.node w)) := by
  rw [pick, dif_pos (show w.toNat < 50176 by omega)]
  exact congrArg tab (Fin.ext (Cert.Spec.node_val hw).symm)

theorem scatter_sum (dstw : Fin 850000 → BitVec 32) (hdst : ∀ e, (dstw e).toNat < 50000)
    (tgt : Fin 851968 → BitVec 32) (msgs : Fin 851968 → EReal) (msg : Fin 850000 → EReal)
    (htgt : ∀ e : Fin 850000, tgt (upE e) = dstw e)
    (hmsg : ∀ e : Fin 850000, msgs (upE e) = msg e)
    (hpad : ∀ e : Fin 851968, 850000 ≤ e.val → msgs e = 0) (n : Fin 50000) :
    ∑ e : Fin 851968, (if (tgt e).toNat = n.val then (1 : EReal) else 0) * msgs e
      = ∑ e : Fin 850000, if Cert.Spec.node (dstw e) = n then msg e else 0 := by
  have key := split (by decide : 850000 ≤ 851968)
    (fun e : Fin 851968 => (if (tgt e).toNat = n.val then (1 : EReal) else 0) * msgs e)
    (fun e he => by rw [hpad e he, mul_zero])
  refine key.trans (Finset.sum_congr rfl fun e _ => ?_)
  rw [htgt, hmsg]
  by_cases h : Cert.Spec.node (dstw e) = n
  · rw [if_pos h, if_pos (by rw [← h, Cert.Spec.node_val (hdst e)]), one_mul]
  · rw [if_neg h, if_neg (fun h' => h (Fin.ext ((Cert.Spec.node_val (hdst e)).trans h'))), zero_mul]

theorem selfLoop_lt (e : Fin 850000) : (BitVec.ofNat 32 (e.val - 800000)).toNat < 50000 := by
  rw [BitVec.toNat_ofNat]
  have := e.isLt
  exact lt_of_le_of_lt (Nat.mod_le _ _) (by omega)

variable (m : (ℓ : Loc nD τ sig) → Buf (Elt Ideal) ℓ) (c : Dev nD)

def srcW (e : Fin 850000) : BitVec 32 :=
  if h : e.val < 800000 then m ((c.tc : Thread nD τ).loc main_arg1) (ix2 0 ⟨e.val, h⟩) else BitVec.ofNat 32 (e.val - 800000)

def dstW (e : Fin 850000) : BitVec 32 :=
  if h : e.val < 800000 then m ((c.tc : Thread nD τ).loc main_arg1) (ix2 1 ⟨e.val, h⟩) else BitVec.ofNat 32 (e.val - 800000)

def nrmK (e : Fin 850000) : EReal := V11 m c main_v30 (ix1 e)

theorem srcW_lt (hdom : ∀ i, (m ((c.tc : Thread nD τ).loc main_arg1) i).toNat < 50000) (e : Fin 850000) :
    (srcW m c e).toNat < 50000 := by
  unfold srcW
  by_cases h : e.val < 800000
  · rw [dif_pos h]; exact hdom _
  · rw [dif_neg h]; exact selfLoop_lt e

theorem dstW_lt (hdom : ∀ i, (m ((c.tc : Thread nD τ).loc main_arg1) i).toNat < 50000) (e : Fin 850000) :
    (dstW m c e).toNat < 50000 := by
  unfold dstW
  by_cases h : e.val < 800000
  · rw [dif_pos h]; exact hdom _
  · rw [dif_neg h]; exact selfLoop_lt e

abbrev aX : Fin 50000 → Fin 128 → EReal := fun n k => m ((c.tc : Thread nD τ).loc main_arg0) (ix2 n k)

abbrev aW1 : Fin 128 → Fin 128 → EReal := fun k j => m ((c.tc : Thread nD τ).loc main_arg2) (ix2 k j)

abbrev aB1 : Fin 128 → EReal := fun j => m ((c.tc : Thread nD τ).loc main_arg3) (ix1 j)

abbrev aW2 : Fin 128 → Fin 40 → EReal := fun k j => m ((c.tc : Thread nD τ).loc main_arg4) (ix2 k j)

abbrev aB2 : Fin 40 → EReal := fun j => m ((c.tc : Thread nD τ).loc main_arg5) (ix1 j)

abbrev srcN : Fin 850000 → Fin 50000 := fun e => Cert.Spec.node (srcW m c e)

abbrev dstN : Fin 850000 → Fin 50000 := fun e => Cert.Spec.node (dstW m c e)

abbrev H1 : Fin 50000 → Fin 128 → EReal := Cert.Spec.mm (aX m c) (aW1 m c)

abbrev L1 : Fin 50000 → Fin 128 → EReal := Cert.Spec.layer (srcN m c) (dstN m c) (nrmK m c) (H1 m c) (aB1 m c)

abbrev H2 : Fin 50000 → Fin 40 → EReal := Cert.Spec.mm (fun n k => max (L1 m c n k) 0) (aW2 m c)

abbrev L2 : Fin 50000 → Fin 40 → EReal := Cert.Spec.layer (srcN m c) (dstN m c) (nrmK m c) (H2 m c) (aB2 m c)

theorem v37_at (n : Fin 50000) (k : Fin 128) : V11 m c main_v37 (ix2 (upN n) k) = aX m c n k :=
  (HostVal.v37_apply m c (upN n) k).trans (dif_pos (show (upN n).val < 50000 from n.isLt))

theorem v34_at (e : Fin 850000) : V11 m c main_v34 (ix2 (upE e) (0 : Fin 1)) = srcW m c e :=
  ((HostVal.v34_apply m c (upE e)).trans (dif_pos (show (upE e).val < 850000 from e.isLt))).trans
    (HostVal.v3_apply m c e)

theorem v35_at (e : Fin 850000) : V11 m c main_v35 (ix2 (0 : Fin 1) (upE e)) = dstW m c e :=
  ((HostVal.v35_apply m c (upE e)).trans (dif_pos (show (upE e).val < 850000 from e.isLt))).trans
    (HostVal.v7_apply m c e)

theorem v36_at (e : Fin 850000) : V11 m c main_v36 (ix2 (upE e) (0 : Fin 1)) = nrmK m c e :=
  (HostVal.v36_apply m c (upE e)).trans (dif_pos (show (upE e).val < 850000 from e.isLt))

theorem v36_pad (e : Fin 851968) (he : 850000 ≤ e.val) : V11 m c main_v36 (ix2 e (0 : Fin 1)) = (0 : EReal) :=
  (HostVal.v36_apply m c e).trans (dif_neg (Nat.not_lt.mpr he))

theorem v38_at (f : Fin 128) : V11 m c main_v38 (ix2 (0 : Fin 1) f) = aB1 m c f := HostVal.v38_apply m c f

theorem v39_at (f : Fin 40) : V11 m c main_v39 (ix2 (0 : Fin 1) f) = aB2 m c f := HostVal.v39_apply m c f

theorem V11_arg2 : V11 m c main_arg2 = m ((c.tc : Thread nD τ).loc main_arg2) :=
  (V11_of m c main_arg2 (by decide)).trans <| (V10_of m c main_arg2 (by decide)).trans <| (V9_of m c main_arg2 (by decide)).trans <| (V8_of m c main_arg2 (by decide)).trans <| (V7_of m c main_arg2 (by decide)).trans <| (V6_of m c main_arg2 (by decide)).trans <| (V5_of m c main_arg2 (by decide)).trans <| (V4_of m c main_arg2 (by decide)).trans <| (V3_of m c main_arg2 (by decide)).trans <| (V2_of m c main_arg2 (by decide)).trans <| (V1_of m c main_arg2 (by decide)).trans rfl

theorem V11_arg4 : V11 m c main_arg4 = m ((c.tc : Thread nD τ).loc main_arg4) :=
  (V11_of m c main_arg4 (by decide)).trans <| (V10_of m c main_arg4 (by decide)).trans <| (V9_of m c main_arg4 (by decide)).trans <| (V8_of m c main_arg4 (by decide)).trans <| (V7_of m c main_arg4 (by decide)).trans <| (V6_of m c main_arg4 (by decide)).trans <| (V5_of m c main_arg4 (by decide)).trans <| (V4_of m c main_arg4 (by decide)).trans <| (V3_of m c main_arg4 (by decide)).trans <| (V2_of m c main_arg4 (by decide)).trans <| (V1_of m c main_arg4 (by decide)).trans rfl

theorem X12_v40 (n : Fin 50000) (f : Fin 128) : Hand.X12 m c main_v40 (ix2 (upN n) f) = H1 m c n f := by
  refine ((congrFun (X12_out m c) _).trans (Arr.arr0 (Hand.tcv (V11 m)) c (upN n) f)).trans ?_
  show _ = ∑ k : Fin 128, aX m c n k * aW1 m c k f
  refine Finset.sum_congr rfl fun k _ => ?_
  have h37 : Hand.tcv (V11 m) c main_v37 (ix2 (upN n) k) = aX m c n k := v37_at m c n k
  have hW : Hand.tcv (V11 m) c main_arg2 (ix2 k f) = aW1 m c k f := congrFun (V11_arg2 m c) _
  rw [h37, hW]

theorem X13_v41 (hdom : ∀ i, (m ((c.tc : Thread nD τ).loc main_arg1) i).toNat < 50000) (e : Fin 850000) (f : Fin 128) :
    Hand.X13 m c main_v41 (ix2 (upE e) f) = H1 m c (srcN m c e) f * nrmK m c e := by
  refine ((congrFun (X13_out m c) _).trans (Arr.arr1 (Hand.tcv (Hand.X12 m)) c (upE e) f)).trans ?_
  have h34 : Hand.tcv (Hand.X12 m) c main_v34 (ix2 (upE e) (0 : Fin 1)) = srcW m c e :=
    (congrFun (X12_of m c main_v34 (by decide)) _).trans (v34_at m c e)
  have h36 : Hand.tcv (Hand.X12 m) c main_v36 (ix2 (upE e) (0 : Fin 1)) = nrmK m c e :=
    (congrFun (X12_of m c main_v36 (by decide)) _).trans (v36_at m c e)
  rw [h34, h36, gather_pick (srcW m c e) (srcW_lt m c hdom e) (fun n => Hand.tcv (Hand.X12 m) c main_v40 (ix2 n f))]
  exact congrArg (· * nrmK m c e) (X12_v40 m c (srcN m c e) f)

theorem X13_v41_pad (e : Fin 851968) (he : 850000 ≤ e.val) (f : Fin 128) :
    Hand.X13 m c main_v41 (ix2 e f) = (0 : EReal) := by
  refine ((congrFun (X13_out m c) _).trans (Arr.arr1 (Hand.tcv (Hand.X12 m)) c e f)).trans ?_
  have h36 : Hand.tcv (Hand.X12 m) c main_v36 (ix2 e (0 : Fin 1)) = (0 : EReal) :=
    (congrFun (X12_of m c main_v36 (by decide)) _).trans (v36_pad m c e he)
  rw [h36, mul_zero]

theorem X14_v42 (hdom : ∀ i, (m ((c.tc : Thread nD τ).loc main_arg1) i).toNat < 50000) (n : Fin 50000) (f : Fin 128) :
    Hand.X14 m c main_v42 (ix2 (upN n) f) = L1 m c n f := by
  refine ((congrFun (X14_out m c) _).trans (Arr.arr2 (Hand.tcv (Hand.X13 m)) c (upN n) f)).trans ?_
  show _ = (∑ e : Fin 850000, if dstN m c e = n then H1 m c (srcN m c e) f * nrmK m c e else 0) + aB1 m c f
  have hb : Hand.tcv (Hand.X13 m) c main_v38 (ix2 (0 : Fin 1) f) = aB1 m c f :=
    ((congrFun (X13_of m c main_v38 (by decide)) _).trans (congrFun (X12_of m c main_v38 (by decide)) _)).trans (v38_at m c f)
  rw [hb]
  refine congrArg (· + aB1 m c f) ?_
  exact scatter_sum (dstW m c) (dstW_lt m c hdom)
    (fun e => Hand.tcv (Hand.X13 m) c main_v35 (ix2 (0 : Fin 1) e))
    (fun e => Hand.tcv (Hand.X13 m) c main_v41 (ix2 e f))
    (fun e => H1 m c (srcN m c e) f * nrmK m c e)
    (fun e => ((congrFun (X13_of m c main_v35 (by decide)) _).trans (congrFun (X12_of m c main_v35 (by decide)) _)).trans (v35_at m c e))
    (fun e => X13_v41 m c hdom e f)
    (fun e he => X13_v41_pad m c e he f) n

theorem X15_v43 (hdom : ∀ i, (m ((c.tc : Thread nD τ).loc main_arg1) i).toNat < 50000) (n : Fin 50000) (f : Fin 40) :
    Hand.X15 m c main_v43 (ix2 (upN n) f) = H2 m c n f := by
  refine ((congrFun (X15_out m c) _).trans (Arr.arr3 (Hand.tcv (Hand.X14 m)) c (upN n) f)).trans ?_
  show _ = ∑ k : Fin 128, max (L1 m c n k) 0 * aW2 m c k f
  refine Finset.sum_congr rfl fun k _ => ?_
  have h42 : Hand.tcv (Hand.X14 m) c main_v42 (ix2 (upN n) k) = L1 m c n k := X14_v42 m c hdom n k
  have hW : Hand.tcv (Hand.X14 m) c main_arg4 (ix2 k f) = aW2 m c k f :=
    (((congrFun (X14_of m c main_arg4 (by decide)) _).trans (congrFun (X13_of m c main_arg4 (by decide)) _)).trans
      (congrFun (X12_of m c main_arg4 (by decide)) _)).trans (congrFun (V11_arg4 m c) _)
  rw [h42, hW]

theorem X16_v44 (hdom : ∀ i, (m ((c.tc : Thread nD τ).loc main_arg1) i).toNat < 50000) (e : Fin 850000) (f : Fin 40) :
    Hand.X16 m c main_v44 (ix2 (upE e) f) = H2 m c (srcN m c e) f * nrmK m c e := by
  refine ((congrFun (X16_out m c) _).trans (Arr.arr4 (Hand.tcv (Hand.X15 m)) c (upE e) f)).trans ?_
  have h34 : Hand.tcv (Hand.X15 m) c main_v34 (ix2 (upE e) (0 : Fin 1)) = srcW m c e :=
    ((((congrFun (X15_of m c main_v34 (by decide)) _).trans (congrFun (X14_of m c main_v34 (by decide)) _)).trans
      (congrFun (X13_of m c main_v34 (by decide)) _)).trans (congrFun (X12_of m c main_v34 (by decide)) _)).trans (v34_at m c e)
  have h36 : Hand.tcv (Hand.X15 m) c main_v36 (ix2 (upE e) (0 : Fin 1)) = nrmK m c e :=
    ((((congrFun (X15_of m c main_v36 (by decide)) _).trans (congrFun (X14_of m c main_v36 (by decide)) _)).trans
      (congrFun (X13_of m c main_v36 (by decide)) _)).trans (congrFun (X12_of m c main_v36 (by decide)) _)).trans (v36_at m c e)
  rw [h34, h36, gather_pick (srcW m c e) (srcW_lt m c hdom e) (fun n => Hand.tcv (Hand.X15 m) c main_v43 (ix2 n f))]
  exact congrArg (· * nrmK m c e) (X15_v43 m c hdom (srcN m c e) f)

theorem X16_v44_pad (e : Fin 851968) (he : 850000 ≤ e.val) (f : Fin 40) :
    Hand.X16 m c main_v44 (ix2 e f) = (0 : EReal) := by
  refine ((congrFun (X16_out m c) _).trans (Arr.arr4 (Hand.tcv (Hand.X15 m)) c e f)).trans ?_
  have h36 : Hand.tcv (Hand.X15 m) c main_v36 (ix2 e (0 : Fin 1)) = (0 : EReal) :=
    ((((congrFun (X15_of m c main_v36 (by decide)) _).trans (congrFun (X14_of m c main_v36 (by decide)) _)).trans
      (congrFun (X13_of m c main_v36 (by decide)) _)).trans (congrFun (X12_of m c main_v36 (by decide)) _)).trans (v36_pad m c e he)
  rw [h36, mul_zero]

theorem X17_v45 (hdom : ∀ i, (m ((c.tc : Thread nD τ).loc main_arg1) i).toNat < 50000) (n : Fin 50000) (f : Fin 40) :
    Hand.X17 m c main_v45 (ix2 (upN n) f) = L2 m c n f := by
  refine ((congrFun (X17_out m c) _).trans (Arr.arr5 (Hand.tcv (Hand.X16 m)) c (upN n) f)).trans ?_
  show _ = (∑ e : Fin 850000, if dstN m c e = n then H2 m c (srcN m c e) f * nrmK m c e else 0) + aB2 m c f
  have hb : Hand.tcv (Hand.X16 m) c main_v39 (ix2 (0 : Fin 1) f) = aB2 m c f :=
    (((((congrFun (X16_of m c main_v39 (by decide)) _).trans (congrFun (X15_of m c main_v39 (by decide)) _)).trans
      (congrFun (X14_of m c main_v39 (by decide)) _)).trans (congrFun (X13_of m c main_v39 (by decide)) _)).trans
      (congrFun (X12_of m c main_v39 (by decide)) _)).trans (v39_at m c f)
  rw [hb]
  refine congrArg (· + aB2 m c f) ?_
  exact scatter_sum (dstW m c) (dstW_lt m c hdom)
    (fun e => Hand.tcv (Hand.X16 m) c main_v35 (ix2 (0 : Fin 1) e))
    (fun e => Hand.tcv (Hand.X16 m) c main_v44 (ix2 e f))
    (fun e => H2 m c (srcN m c e) f * nrmK m c e)
    (fun e => (((((congrFun (X16_of m c main_v35 (by decide)) _).trans (congrFun (X15_of m c main_v35 (by decide)) _)).trans
      (congrFun (X14_of m c main_v35 (by decide)) _)).trans (congrFun (X13_of m c main_v35 (by decide)) _)).trans
      (congrFun (X12_of m c main_v35 (by decide)) _)).trans (v35_at m c e))
    (fun e => X16_v44 m c hdom e f)
    (fun e he => X16_v44_pad m c e he f) n

theorem V18_v46 (n : Fin 50000) (f : Fin 40) :
    V18 m (Hand.outs m) c main_v46 (ix2 n f) = Hand.X17 m c main_v45 (ix2 (upN n) f) :=
  (HostVal.v46_apply m (Hand.outs m) c n f).trans (congrFun (congrFun (Hand.V17_eq m c) _) _)

theorem result_eq (hdom : ∀ i, (m ((c.tc : Thread nD τ).loc main_arg1) i).toNat < 50000) (n : Fin 50000) (f : Fin 40) :
    V18 m (Cert.KernelIdeal.Hand.outs m) c main_v46 (ix2 n f)
      = Cert.Spec.gcn (fun e => Cert.Spec.node (srcW m c e)) (fun e => Cert.Spec.node (dstW m c e)) (nrmK m c)
          (fun n k => m ((c.tc : Thread nD τ).loc main_arg0) (ix2 n k)) (fun k j => m ((c.tc : Thread nD τ).loc main_arg2) (ix2 k j)) (fun j => m ((c.tc : Thread nD τ).loc main_arg3) (ix1 j))
          (fun k j => m ((c.tc : Thread nD τ).loc main_arg4) (ix2 k j)) (fun j => m ((c.tc : Thread nD τ).loc main_arg5) (ix1 j)) n f :=
  (V18_v46 m c n f).trans (X17_v45 m c hdom n f)

end Cert.KernelIdeal.Chain

end
-- ==== Proof.Ref.Base.lean ====
import proofs.«137339_j11914239279184_1_alg».proof.Proof.Ref.Run
import proofs.«137339_j11914239279184_1_alg».proof.Proof.Ref.Read
-- ==== Proof.Ref.RefVal.lean ====
import proofs.«137339_j11914239279184_1_alg».proof.Proof.Ref.Base
import proofs.«137339_j11914239279184_1_alg».proof.Proof.Spec
import Idealize.ShloMosaic.Lib.StableHlo.Predicate
import Idealize.ShloMosaic.Lib.Pipeline.Value
import Idealize.ShloMosaic.Lib.ValueIdx
import Idealize.ShloMosaic.PureOps.Ideal.Laws

noncomputable section

namespace Cert.ReferenceIdeal.RefVal

open Cert.ReferenceIdeal Cert.ReferenceIdeal.Gen Cert.ReferenceIdeal.Read
open Idealize.ShloMosaic Idealize.ShloMosaic.ValueIdx

theorem kept2_one : (List.finRange 2).filter (fun x : Fin 2 => decide (x ∉ [(1 : Fin 2)])) = [0] := by decide

theorem kept2_zero : (List.finRange 2).filter (fun x : Fin 2 => decide (x ∉ [(0 : Fin 2)])) = [1] := by decide

theorem getElem_singleton_of_eq {β : Type} {l : List β} {b : β} (h : l = [b]) (k : Nat) (hk : k < l.length) :
    l[k] = b := by
  subst h
  have hk0 : k = 0 := by simpa using hk
  subst hk0
  rfl

section Gather
variable {α : Type} {N D n w : Nat}

theorem gather_rows (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1)
    (x : (⟨2, ![N, D]⟩ : Shape).Idx → α) (idx : IVec ⟨2, ![n, 1]⟩ w) (e : Fin n) (f : Fin D) (m : Fin N)
    (hm : m.val = min (idx (ix2 e (0 : Fin 1))).toInt.toNat (N - 1)) :
    Host.gather d x idx (ix2 e f) = x (ix2 m f) := by
  unfold Host.gather
  congr 1
  funext a
  apply Fin.ext
  have hb : ∀ a : Fin 2, a ∉ d.operandBatchingDims := fun a => by rw [hob]; exact List.not_mem_nil
  match a with
  | ⟨0, _⟩ =>

    have hk : (0 : Fin 2) ∉ d.sKept := by rw [GatherDims.mem_sKept, hcoll]; simp
    have hm0 : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 e f) idx 0 + d.batchCoord (ix2 e f) 0 + d.offCoord (ix2 e f) 0 = m.val
    rw [hm, GatherDims.batchCoord_eq_zero _ _ _ (hb 0), GatherDims.offCoord_eq_zero _ _ _ hk, Nat.add_zero]
    unfold GatherDims.start
    rw [dif_pos hm0]
    show min (idx _).toInt.toNat (N - d.sliceSizes 0) = _
    rw [hsl]
    congr 3
    congr 1
    funext b
    apply Fin.ext
    match b with
    | ⟨0, _⟩ =>

      unfold GatherDims.siIdx
      rw [dif_neg (by rw [hivd]; simp)]
      unfold GatherDims.siCoord
      simp only [Fin.val_cast]
      have hbd : d.batchDims = [0] := by
        unfold GatherDims.batchDims Shape.kept; rw [hoff]; exact kept2_one
      rw [getElem_singleton_of_eq hbd]
      rfl
    | ⟨1, _⟩ =>
      unfold GatherDims.siIdx
      rw [dif_pos (by rw [hivd])]
      show List.idxOf (0 : Fin 2) d.startIndexMap = 0
      rw [hsim]; simp
  | ⟨1, _⟩ =>

    have hk : (1 : Fin 2) ∈ d.sKept := by rw [GatherDims.mem_sKept, hcoll, hob]; simp
    have hm1 : (1 : Fin 2) ∉ d.startIndexMap := by rw [hsim]; simp
    show d.start (ix2 e f) idx 1 + d.batchCoord (ix2 e f) 1 + d.offCoord (ix2 e f) 1 = f.val
    rw [GatherDims.batchCoord_eq_zero _ _ _ (hb 1), Nat.add_zero]
    unfold GatherDims.start GatherDims.offCoord
    rw [dif_neg hm1, dif_pos hk, Nat.zero_add]
    rw [getElem_singleton_of_eq hoff]
    rfl

end Gather

section Scatter
variable {N D n w : Nat}

theorem scatter_rows_resultIdx (d : ScatterDims ⟨2, ![N, D]⟩ ⟨2, ![n, 1]⟩ ⟨2, ![n, D]⟩)
    (huw : d.updateWindowDims = [1]) (hiw : d.insertedWindowDims = [0])
    (hsd : d.scatterDimsToOperandDims = [0]) (hivd : d.indexVectorDim = 1)
    (idx : IVec ⟨2, ![n, 1]⟩ w) (e : Fin n) (f' : Fin D) (i : Fin N) (f : Fin D) :
    d.resultIdx? (ix2 e f') idx = some (ix2 i f) ↔ (idx (ix2 e (0 : Fin 1))).toInt = (i.val : Int) ∧ f' = f := by
  have hsk : d.sKept = [1] := by
    unfold ScatterDims.sKept Shape.kept; rw [hiw]; exact kept2_zero
  have hk0 : (0 : Fin 2) ∉ d.sKept := by rw [hsk]; simp
  have hk1 : (1 : Fin 2) ∈ d.sKept := by rw [hsk]; simp
  have hm0 : (0 : Fin 2) ∈ d.scatterDimsToOperandDims := by rw [hsd]; exact List.mem_singleton.mpr rfl
  have hm1 : (1 : Fin 2) ∉ d.scatterDimsToOperandDims := by rw [hsd]; simp
  have hus : d.uScatter = [0] := by
    unfold ScatterDims.uScatter Shape.kept; rw [huw]; exact kept2_one

  have hs0 : d.start (ix2 e f') idx 0 = (idx (ix2 e (0 : Fin 1))).toInt := by
    unfold ScatterDims.start
    rw [dif_pos hm0]
    congr 2
    funext b
    apply Fin.ext
    match b with
    | ⟨0, _⟩ =>
      unfold ScatterDims.siIdx
      rw [dif_neg (by rw [hivd]; simp)]
      unfold ScatterDims.siCoord
      simp only [Fin.val_cast]
      rw [getElem_singleton_of_eq hus]
      rfl
    | ⟨1, _⟩ =>
      unfold ScatterDims.siIdx
      rw [dif_pos (by rw [hivd])]
      show List.idxOf (0 : Fin 2) d.scatterDimsToOperandDims = 0
      rw [hsd]; simp
  have hs1 : d.start (ix2 e f') idx 1 = 0 := by
    unfold ScatterDims.start; rw [dif_neg hm1]
  have hw0 : d.window (ix2 e f') 0 = 0 := by
    unfold ScatterDims.window; rw [dif_neg hk0]
  have hw1 : d.window (ix2 e f') 1 = f'.val := by
    unfold ScatterDims.window; rw [dif_pos hk1]
    rw [getElem_singleton_of_eq huw]
    rfl
  unfold ScatterDims.resultIdx?
  split
  · next h =>
    rw [Option.some.injEq]
    constructor
    · intro hEq
      have h0 := congrArg (fun j : (⟨2, ![N, D]⟩ : Shape).Idx => (j 0).val) hEq
      have h1 := congrArg (fun j : (⟨2, ![N, D]⟩ : Shape).Idx => (j 1).val) hEq
      simp only [] at h0 h1
      have h00 := h 0
      rw [hs0, hw0] at h00
      change ((d.start (ix2 e f') idx 0 + ((d.window (ix2 e f') 0 : Nat) : Int)).toNat) = i.val at h0
      change ((d.start (ix2 e f') idx 1 + ((d.window (ix2 e f') 1 : Nat) : Int)).toNat) = f.val at h1
      rw [hs0, hw0] at h0
      rw [hs1, hw1] at h1
      refine ⟨by omega, Fin.ext (by omega)⟩
    · rintro ⟨hi, hf⟩
      funext a
      apply Fin.ext
      match a with
      | ⟨0, _⟩ =>
        show ((d.start (ix2 e f') idx 0 + ((d.window (ix2 e f') 0 : Nat) : Int)).toNat) = i.val
        rw [hs0, hw0]; omega
      | ⟨1, _⟩ =>
        show ((d.start (ix2 e f') idx 1 + ((d.window (ix2 e f') 1 : Nat) : Int)).toNat) = f.val
        rw [hs1, hw1, hf]; omega
  · next h =>
    constructor
    · intro hEq; exact absurd hEq (by simp)
    · rintro ⟨hi, hf⟩
      exfalso
      apply h
      intro a
      match a with
      | ⟨0, _⟩ =>
        show 0 ≤ d.start (ix2 e f') idx 0 + ((d.window (ix2 e f') 0 : Nat) : Int)
          ∧ d.start (ix2 e f') idx 0 + ((d.window (ix2 e f') 0 : Nat) : Int) < ((N : Nat) : Int)
        rw [hs0, hw0, hi]; have := i.isLt; omega
      | ⟨1, _⟩ =>
        show 0 ≤ d.start (ix2 e f') idx 1 + ((d.window (ix2 e f') 1 : Nat) : Int)
          ∧ d.start (ix2 e f') idx 1 + ((d.window (ix2 e f') 1 : Nat) : Int) < ((D : Nat) : Int)
        rw [hs1, hw1]; have := f'.isLt; omega

theorem scatterAdd_rows_apply (d : ScatterDims ⟨2, ![N, D]⟩ ⟨2, ![n, 1]⟩ ⟨2, ![n, D]⟩)
    (huw : d.updateWindowDims = [1]) (hiw : d.insertedWindowDims = [0])
    (hsd : d.scatterDimsToOperandDims = [0]) (hivd : d.indexVectorDim = 1)
    (x : (⟨2, ![N, D]⟩ : Shape).Idx → EReal) (idx : IVec ⟨2, ![n, 1]⟩ w)
    (upd : (⟨2, ![n, D]⟩ : Shape).Idx → EReal) (i : Fin N) (f : Fin D) :
    Ideal.hostScatterAdd d x idx upd (ix2 i f)
      = x (ix2 i f) + ∑ e : Fin n, if (idx (ix2 e (0 : Fin 1))).toInt = (i.val : Int) then upd (ix2 e f) else 0 := by
  unfold Ideal.hostScatterAdd
  congr 1
  rw [Finset.sum_filter, sum_idx2]
  refine Finset.sum_congr rfl fun e _ => ?_
  have key := fun f' => scatter_rows_resultIdx d huw hiw hsd hivd idx e f' i f
  by_cases hA : (idx (ix2 e (0 : Fin 1))).toInt = (i.val : Int)
  · rw [if_pos hA, Finset.sum_eq_single f]
    · rw [if_pos ((key f).mpr ⟨hA, rfl⟩)]
    · intro f' _ hne
      rw [if_neg (fun h => hne ((key f').mp h).2)]
    · intro h; exact absurd (Finset.mem_univ _) h
  · rw [if_neg hA]
    refine Finset.sum_eq_zero fun f' _ => ?_
    rw [if_neg (fun h => hA ((key f').mp h).1)]

end Scatter

theorem scatterAdd_ideal {s si u : Shape} {w : Nat} {φ : FTy} (d : ScatterDims s si u) (x : FVec Ideal s φ)
    (idx : IVec si w) (upd : FVec Ideal u φ) :
    Host.scatterAdd d x idx upd = Ideal.hostScatterAdd d x idx upd := rfl

theorem conv_read {D : Nat}
    (dg : GatherDims ⟨2, ![50000, D]⟩ ⟨2, ![850000, 1]⟩ ⟨2, ![850000, D]⟩)
    (hg1 : dg.offsetDims = [1]) (hg2 : dg.collapsedSliceDims = [0]) (hg3 : dg.operandBatchingDims = [])
    (hg4 : dg.startIndexMap = [0]) (hg5 : dg.indexVectorDim = 1)
    (ds : ScatterDims ⟨2, ![50000, D]⟩ ⟨2, ![850000, 1]⟩ ⟨2, ![850000, D]⟩)
    (hs1 : ds.updateWindowDims = [1]) (hs2 : ds.insertedWindowDims = [0])
    (hs3 : ds.scatterDimsToOperandDims = [0]) (hs4 : ds.indexVectorDim = 1)
    (h z : (⟨2, ![50000, D]⟩ : Shape).Idx → EReal) (sc dc : IVec ⟨2, ![850000, 1]⟩ 32)
    (nr upd : (⟨2, ![850000, D]⟩ : Shape).Idx → EReal)
    (src dst : Fin 850000 → BitVec 32) (nrm : Fin 850000 → EReal)
    (hupd : ∀ e f, upd (ix2 e f) = Host.gather dg h sc (ix2 e f) * nr (ix2 e f))
    (hsc : ∀ e, sc (ix2 e (0 : Fin 1)) = src e) (hdc : ∀ e, dc (ix2 e (0 : Fin 1)) = dst e)
    (hnr : ∀ e f, nr (ix2 e f) = nrm e) (hz : ∀ i, z i = 0)
    (hsrc : ∀ e, (src e).toNat < 50000) (hdst : ∀ e, (dst e).toNat < 50000) (n : Fin 50000) (f : Fin D) :
    Ideal.hostScatterAdd ds z dc upd (ix2 n f)
      = ∑ e : Fin 850000, if Cert.Spec.node (dst e) = n then h (ix2 (Cert.Spec.node (src e)) f) * nrm e else 0 := by
  rw [scatterAdd_rows_apply ds hs1 hs2 hs3 hs4, hz, zero_add]
  refine Finset.sum_congr rfl fun e _ => ?_
  rw [hdc e]
  have hd := hdst e
  have hs := hsrc e

  have hcond : ((dst e).toInt = (n.val : Int)) ↔ Cert.Spec.node (dst e) = n := by
    rw [StableHlo.Predicate.toInt_eq_toNat_of_lt (by omega)]
    constructor
    · intro h1; apply Fin.ext; rw [Cert.Spec.node_val hd]; exact_mod_cast h1
    · intro h1; rw [← h1, Cert.Spec.node_val hd]
  by_cases hc : Cert.Spec.node (dst e) = n
  · rw [if_pos hc, if_pos (hcond.mpr hc), hupd e f, hnr e f]

    rw [gather_rows dg hg1 hg2 hg3 hg4 hg5 h sc e f (Cert.Spec.node (src e))
      (by rw [hsc e, StableHlo.Predicate.toInt_eq_toNat_of_lt (by omega), Int.toNat_natCast]; rfl)]
  · rw [if_neg hc, if_neg (fun h1 => hc (hcond.mp h1))]

def srcW (ei : IVec S2x800000 32) (e : Fin 850000) : BitVec 32 :=
  if h : e.val < 800000 then ei (ix2 (0 : Fin 2) (⟨e.val, h⟩ : Fin 800000)) else BitVec.ofNat 32 (e.val - 800000)

def dstW (ei : IVec S2x800000 32) (e : Fin 850000) : BitVec 32 :=
  if h : e.val < 800000 then ei (ix2 (1 : Fin 2) (⟨e.val, h⟩ : Fin 800000)) else BitVec.ofNat 32 (e.val - 800000)

def nrmR (ei : IVec S2x800000 32) (e : Fin 850000) : EReal :=
  val_main_v29 (F := Ideal) ei (ix1 e)

theorem srcW_lt {ei : IVec S2x800000 32} (hdom : ∀ i, (ei i).toNat < 50000) (e : Fin 850000) :
    (srcW ei e).toNat < 50000 := by
  unfold srcW
  split
  · exact hdom _
  · rw [BitVec.toNat_ofNat]
    have := e.isLt
    exact lt_of_le_of_lt (Nat.mod_le _ _) (by omega)

theorem dstW_lt {ei : IVec S2x800000 32} (hdom : ∀ i, (ei i).toNat < 50000) (e : Fin 850000) :
    (dstW ei e).toNat < 50000 := by
  unfold dstW
  split
  · exact hdom _
  · rw [BitVec.toNat_ofNat]
    have := e.isLt
    exact lt_of_le_of_lt (Nat.mod_le _ _) (by omega)

theorem concat_read (r : Fin 2) (a : (⟨S800000, .i32⟩ : BufTy).Contents (Elt Ideal)) (ei : IVec S2x800000 32)
    (ha : ∀ k : Fin 800000, a (ix1 k) = ei (ix2 r k)) (e : Fin 850000) :
    concatenate S850000 0 [⟨S800000, a⟩, ⟨S50000, val_main_v0 (F := Ideal)⟩] concatenates_S800000_S50000_S850000_d0 (ix1 e)
      = if h : e.val < 800000 then ei (ix2 r (⟨e.val, h⟩ : Fin 800000)) else BitVec.ofNat 32 (e.val - 800000) := by
  by_cases h : e.val < 800000
  · rw [dif_pos h]
    refine (concatenate_pair_apply_left (0 : Fin 1) a (val_main_v0 (F := Ideal))
      concatenates_S800000_S50000_S850000_d0 (ix1 e) rfl (ix1 (⟨e.val, h⟩ : Fin 800000)) (fun b => ?_)).trans (ha _)
    match b with
    | ⟨0, _⟩ => rfl
  · rw [dif_neg h]
    have h2 : e.val - 800000 < 50000 := by have := e.isLt; omega
    refine (concatenate_pair_apply_right (0 : Fin 1) a (val_main_v0 (F := Ideal))
      concatenates_S800000_S50000_S850000_d0 (ix1 e) rfl rfl (ix1 (⟨e.val - 800000, h2⟩ : Fin 50000)) (fun b hb => ?_) ?_).trans ?_
    · exact absurd (Fin.ext (Nat.lt_one_iff.mp b.isLt)) hb
    · show e.val - 800000 + 800000 = e.val
      omega
    · rfl

theorem v3_read (ei : IVec S2x800000 32) (e : Fin 850000) : val_main_v3 (F := Ideal) ei (ix1 e) = srcW ei e := by
  unfold val_main_v3 srcW
  refine concat_read 0 _ ei (fun k => ?_) e
  rw [val_main_v2_apply, val_main_v1_apply]
  congr 1
  funext a
  apply Fin.ext
  match a with
  | ⟨0, _⟩ => rfl
  | ⟨1, _⟩ => exact Nat.mod_eq_of_lt k.isLt

theorem v6_read (ei : IVec S2x800000 32) (e : Fin 850000) : val_main_v6 (F := Ideal) ei (ix1 e) = dstW ei e := by
  unfold val_main_v6 dstW
  refine concat_read 1 _ ei (fun k => ?_) e
  rw [val_main_v5_apply, val_main_v4_apply]
  congr 1
  funext a
  apply Fin.ext
  match a with
  | ⟨0, _⟩ => rfl
  | ⟨1, _⟩ => exact Nat.mod_eq_of_lt k.isLt

theorem wrap_id (w : BitVec 32) (h : w.toNat < 50000) :
    Scalar.select (IntOp.cmpi .slt w 0#32) (IntOp.addi w 50000#32) w = w := by
  have hn : ¬ IntOp.cmpi .slt w 0#32 = 1#1 := by
    rw [StableHlo.Predicate.slt_iff_toNat (by omega) (by decide)]
    exact Nat.not_lt_zero _
  rw [eq_zero_of_ne_one hn, select_zero]

theorem v36_read {ei : IVec S2x800000 32} (hdom : ∀ i, (ei i).toNat < 50000) (e : Fin 850000) :
    val_main_v36 (F := Ideal) ei (ix2 e (0 : Fin 1)) = srcW ei e := by
  rw [val_main_v36_apply]
  have hi : idx_main_v36 (ix2 e (0 : Fin 1)) = ix1 e := funext fun a => by match a with | ⟨0, _⟩ => rfl
  rw [hi, val_main_v35_apply, val_main_v32_apply, val_main_v34_apply, val_main_v31_apply, val_main_v33_apply,
    val_main_c_6_apply, val_main_c_7_apply, v3_read]
  exact wrap_id _ (srcW_lt hdom e)

theorem v54_read {ei : IVec S2x800000 32} (hdom : ∀ i, (ei i).toNat < 50000) (e : Fin 850000) :
    val_main_v54 (F := Ideal) ei (ix2 e (0 : Fin 1)) = srcW ei e := by
  rw [val_main_v54_apply]
  have hi : idx_main_v54 (ix2 e (0 : Fin 1)) = ix1 e := funext fun a => by match a with | ⟨0, _⟩ => rfl
  rw [hi, val_main_v53_apply, val_main_v50_apply, val_main_v52_apply, val_main_v49_apply, val_main_v51_apply,
    val_main_c_9_apply, val_main_c_10_apply, v3_read]
  exact wrap_id _ (srcW_lt hdom e)

theorem v42_read (ei : IVec S2x800000 32) (e : Fin 850000) :
    val_main_v42 (F := Ideal) ei (ix2 e (0 : Fin 1)) = dstW ei e := by
  rw [val_main_v42_apply]
  have hi : idx_main_v42 (ix2 e (0 : Fin 1)) = ix1 e := funext fun a => by match a with | ⟨0, _⟩ => rfl
  rw [hi, v6_read]

theorem v60_read (ei : IVec S2x800000 32) (e : Fin 850000) :
    val_main_v60 (F := Ideal) ei (ix2 e (0 : Fin 1)) = dstW ei e := by
  rw [val_main_v60_apply]
  have hi : idx_main_v60 (ix2 e (0 : Fin 1)) = ix1 e := funext fun a => by match a with | ⟨0, _⟩ => rfl
  rw [hi, v6_read]

theorem v39_read (ei : IVec S2x800000 32) (e : Fin 850000) (f : Fin 128) :
    val_main_v39 (F := Ideal) ei (ix2 e f) = nrmR ei e := by
  rw [val_main_v39_apply, val_main_v38_apply]
  unfold nrmR
  congr 1
  funext a
  match a with
  | ⟨0, _⟩ => rfl

theorem v57_read (ei : IVec S2x800000 32) (e : Fin 850000) (f : Fin 40) :
    val_main_v57 (F := Ideal) ei (ix2 e f) = nrmR ei e := by
  rw [val_main_v57_apply, val_main_v56_apply]
  unfold nrmR
  congr 1
  funext a
  match a with
  | ⟨0, _⟩ => rfl

theorem v30_read (x : (⟨S50000x128, .f32⟩ : BufTy).Contents (Elt Ideal)) (W1 : (⟨S128x128, .f32⟩ : BufTy).Contents (Elt Ideal))
    (m : Fin 50000) (f : Fin 128) :
    val_main_v30 (F := Ideal) x W1 (ix2 m f)
      = Cert.Spec.mm (fun n k => x (ix2 n k)) (fun k j => W1 (ix2 k j)) m f := by
  rw [val_main_v30_apply]
  refine Finset.sum_congr rfl fun k _ => ?_
  have el : lidx_main_v30 (ix2 m f) k = ix2 m k := funext fun a => by
    match a with
    | ⟨0, _⟩ => rfl
    | ⟨1, _⟩ => rfl
  have er : ridx_main_v30 (ix2 m f) k = ix2 k f := funext fun a => by
    match a with
    | ⟨0, _⟩ => rfl
    | ⟨1, _⟩ => rfl
  rw [el, er]

theorem v43_read (x : (⟨S50000x128, .f32⟩ : BufTy).Contents (Elt Ideal)) {ei : IVec S2x800000 32}
    (W1 : (⟨S128x128, .f32⟩ : BufTy).Contents (Elt Ideal)) (hdom : ∀ i, (ei i).toNat < 50000) (n : Fin 50000) (f : Fin 128) :
    val_main_v43 (F := Ideal) x ei W1 (ix2 n f)
      = ∑ e : Fin 850000, if Cert.Spec.node (dstW ei e) = n
          then val_main_v30 (F := Ideal) x W1 (ix2 (Cert.Spec.node (srcW ei e)) f) * nrmR ei e else 0 := by
  unfold val_main_v43
  rw [scatterAdd_ideal]
  refine conv_read gather_S50000x128_S850000x1_S850000x128_1_0_n_n_0_1_1128 rfl rfl rfl rfl rfl
    scatter_S50000x128_S850000x1_S850000x128_1_0_0_1 rfl rfl rfl rfl
    (val_main_v30 (F := Ideal) x W1) (val_main_v41 (F := Ideal)) (val_main_v36 (F := Ideal) ei) (val_main_v42 (F := Ideal) ei)
    (val_main_v39 (F := Ideal) ei) (val_main_v40 (F := Ideal) x ei W1) (srcW ei) (dstW ei) (nrmR ei)
    (fun e f => ?_) (v36_read hdom) (v42_read ei) (v39_read ei) (fun i => ?_) (srcW_lt hdom) (dstW_lt hdom) n f
  · rw [val_main_v40_apply, Ideal.mulf_def, val_main_v37]
  · rw [val_main_v41_apply, val_main_cst_8_apply, Ideal.ofBits_def, Ideal.ofBits_zero_f32]

theorem v45_read (b1 : (⟨S128, .f32⟩ : BufTy).Contents (Elt Ideal)) (n : Fin 50000) (f : Fin 128) :
    val_main_v45 (F := Ideal) b1 (ix2 n f) = b1 (ix1 f) := by
  rw [val_main_v45_apply, val_main_v44_apply]
  congr 1
  funext a
  match a with
  | ⟨0, _⟩ => rfl

theorem v46_read (x : (⟨S50000x128, .f32⟩ : BufTy).Contents (Elt Ideal)) {ei : IVec S2x800000 32}
    (W1 : (⟨S128x128, .f32⟩ : BufTy).Contents (Elt Ideal)) (b1 : (⟨S128, .f32⟩ : BufTy).Contents (Elt Ideal))
    (hdom : ∀ i, (ei i).toNat < 50000) (n : Fin 50000) (f : Fin 128) :
    val_main_v46 (F := Ideal) x ei W1 b1 (ix2 n f)
      = Cert.Spec.layer (fun e => Cert.Spec.node (srcW ei e)) (fun e => Cert.Spec.node (dstW ei e)) (nrmR ei)
          (Cert.Spec.mm (fun n k => x (ix2 n k)) (fun k j => W1 (ix2 k j))) (fun j => b1 (ix1 j)) n f := by
  rw [val_main_v46_apply, Ideal.addf_def, v43_read x W1 hdom, v45_read, Cert.Spec.layer]
  simp only [v30_read]

theorem v47_read (x : (⟨S50000x128, .f32⟩ : BufTy).Contents (Elt Ideal)) {ei : IVec S2x800000 32}
    (W1 : (⟨S128x128, .f32⟩ : BufTy).Contents (Elt Ideal)) (b1 : (⟨S128, .f32⟩ : BufTy).Contents (Elt Ideal))
    (hdom : ∀ i, (ei i).toNat < 50000) (n : Fin 50000) (k : Fin 128) :
    val_main_v47 (F := Ideal) x ei W1 b1 (ix2 n k)
      = max (Cert.Spec.layer (fun e => Cert.Spec.node (srcW ei e)) (fun e => Cert.Spec.node (dstW ei e)) (nrmR ei)
          (Cert.Spec.mm (fun n k => x (ix2 n k)) (fun k j => W1 (ix2 k j))) (fun j => b1 (ix1 j)) n k) 0 := by
  rw [val_main_v47_apply, Ideal.maximumf_def, v46_read x W1 b1 hdom, val_main_call1_v0_apply, val_main_call1_cst_apply,
    Ideal.ofBits_def, Ideal.ofBits_zero_f32]

theorem v48_read (x : (⟨S50000x128, .f32⟩ : BufTy).Contents (Elt Ideal)) {ei : IVec S2x800000 32}
    (W1 : (⟨S128x128, .f32⟩ : BufTy).Contents (Elt Ideal)) (b1 : (⟨S128, .f32⟩ : BufTy).Contents (Elt Ideal))
    (W2 : (⟨S128x40, .f32⟩ : BufTy).Contents (Elt Ideal)) (hdom : ∀ i, (ei i).toNat < 50000) (m : Fin 50000) (f : Fin 40) :
    val_main_v48 (F := Ideal) x ei W1 b1 W2 (ix2 m f)
      = Cert.Spec.mm (fun n k => max (Cert.Spec.layer (fun e => Cert.Spec.node (srcW ei e))
          (fun e => Cert.Spec.node (dstW ei e)) (nrmR ei)
          (Cert.Spec.mm (fun n k => x (ix2 n k)) (fun k j => W1 (ix2 k j))) (fun j => b1 (ix1 j)) n k) 0)
          (fun k j => W2 (ix2 k j)) m f := by
  rw [val_main_v48_apply]
  refine Finset.sum_congr rfl fun k _ => ?_
  have el : lidx_main_v48 (ix2 m f) k = ix2 m k := funext fun a => by
    match a with
    | ⟨0, _⟩ => rfl
    | ⟨1, _⟩ => rfl
  have er : ridx_main_v48 (ix2 m f) k = ix2 k f := funext fun a => by
    match a with
    | ⟨0, _⟩ => rfl
    | ⟨1, _⟩ => rfl
  rw [el, er, v47_read x W1 b1 hdom]

theorem v61_read (x : (⟨S50000x128, .f32⟩ : BufTy).Contents (Elt Ideal)) {ei : IVec S2x800000 32}
    (W1 : (⟨S128x128, .f32⟩ : BufTy).Contents (Elt Ideal)) (b1 : (⟨S128, .f32⟩ : BufTy).Contents (Elt Ideal))
    (W2 : (⟨S128x40, .f32⟩ : BufTy).Contents (Elt Ideal)) (hdom : ∀ i, (ei i).toNat < 50000) (n : Fin 50000) (f : Fin 40) :
    val_main_v61 (F := Ideal) x ei W1 b1 W2 (ix2 n f)
      = ∑ e : Fin 850000, if Cert.Spec.node (dstW ei e) = n
          then val_main_v48 (F := Ideal) x ei W1 b1 W2 (ix2 (Cert.Spec.node (srcW ei e)) f) * nrmR ei e else 0 := by
  unfold val_main_v61
  rw [scatterAdd_ideal]
  refine conv_read gather_S50000x40_S850000x1_S850000x40_1_0_n_n_0_1_140 rfl rfl rfl rfl rfl
    scatter_S50000x40_S850000x1_S850000x40_1_0_0_1 rfl rfl rfl rfl
    (val_main_v48 (F := Ideal) x ei W1 b1 W2) (val_main_v59 (F := Ideal)) (val_main_v54 (F := Ideal) ei)
    (val_main_v60 (F := Ideal) ei) (val_main_v57 (F := Ideal) ei) (val_main_v58 (F := Ideal) x ei W1 b1 W2)
    (srcW ei) (dstW ei) (nrmR ei)
    (fun e f => ?_) (v54_read hdom) (v60_read ei) (v57_read ei) (fun i => ?_) (srcW_lt hdom) (dstW_lt hdom) n f
  · rw [val_main_v58_apply, Ideal.mulf_def, val_main_v55]
  · rw [val_main_v59_apply, val_main_cst_11_apply, Ideal.ofBits_def, Ideal.ofBits_zero_f32]

theorem v63_read (b2 : (⟨S40, .f32⟩ : BufTy).Contents (Elt Ideal)) (n : Fin 50000) (f : Fin 40) :
    val_main_v63 (F := Ideal) b2 (ix2 n f) = b2 (ix1 f) := by
  rw [val_main_v63_apply, val_main_v62_apply]
  congr 1
  funext a
  match a with
  | ⟨0, _⟩ => rfl

theorem result_eq (x : (⟨S50000x128, .f32⟩ : BufTy).Contents (Elt Ideal)) (ei : IVec S2x800000 32)
    (W1 : (⟨S128x128, .f32⟩ : BufTy).Contents (Elt Ideal)) (b1 : (⟨S128, .f32⟩ : BufTy).Contents (Elt Ideal))
    (W2 : (⟨S128x40, .f32⟩ : BufTy).Contents (Elt Ideal)) (b2 : (⟨S40, .f32⟩ : BufTy).Contents (Elt Ideal))
    (hdom : ∀ i, (ei i).toNat < 50000) (n : Fin 50000) (f : Fin 40) :
    val_main_v64 (F := Ideal) x ei W1 b1 W2 b2 (ix2 n f)
      = Cert.Spec.gcn (fun e => Cert.Spec.node (srcW ei e)) (fun e => Cert.Spec.node (dstW ei e)) (nrmR ei)
          (fun n k => x (ix2 n k)) (fun k j => W1 (ix2 k j)) (fun j => b1 (ix1 j)) (fun k j => W2 (ix2 k j))
          (fun j => b2 (ix1 j)) n f := by
  rw [val_main_v64_apply, Ideal.addf_def, v61_read x W1 b1 W2 hdom, v63_read]
  unfold Cert.Spec.gcn
  rw [Cert.Spec.layer]
  simp only [v48_read x W1 b1 W2 hdom]

end Cert.ReferenceIdeal.RefVal

end
-- ==== Proof.NrmEq.lean ====
import proofs.«137339_j11914239279184_1_alg».proof.Proof.Gen.KernelIdeal.Regions
import proofs.«137339_j11914239279184_1_alg».proof.Proof.Ref.Base

noncomputable section

namespace Cert.Proof.NrmEq

open Cert.KernelIdeal Cert.KernelIdeal.Gen Idealize.ShloMosaic Idealize.ShloMosaic.TcCoe Idealize.SL.Sem Idealize.ShloMosaic.StableHlo

variable {F : FTy → Type} [FloatOps F]

theorem V11_v30 (m : (ℓ : Loc nD τ sig) → Buf (Elt F) ℓ) (c : Dev nD) : V11 (F := F) m c main_v30 = V3 m c main_v30 :=
  (V11_of m c main_v30 (by decide)).trans <| (V10_of m c main_v30 (by decide)).trans <| (V9_of m c main_v30 (by decide)).trans <|
  (V8_of m c main_v30 (by decide)).trans <| (V7_of m c main_v30 (by decide)).trans <| (V6_of m c main_v30 (by decide)).trans <|
  (V5_of m c main_v30 (by decide)).trans <| (V4_of m c main_v30 (by decide))

set_option maxRecDepth 8192 in
set_option maxHeartbeats 16000000 in

theorem nrm_eq_gen (m : (ℓ : Loc nD τ sig) → Buf (Elt F) ℓ) (c : Dev nD) :
    V11 (F := F) m c main_v30
      = Cert.ReferenceIdeal.Read.val_main_v29 (F := F) (m ((c.tc : Thread nD τ).loc main_arg1)) := by
  refine (V11_v30 m c).trans ?_
  show StableHlo.after hostOps0_2 (StableHlo.after hostOps0_1 (StableHlo.after hostOps0 (V0 m c))) (Proc.devRef .tc main_v30) = _
  after_results_simp
  rfl

theorem nrm_eq (m : (ℓ : Loc nD τ sig) → Buf (Elt Ideal) ℓ) (c : Dev nD) :
    V11 (F := Ideal) m c main_v30
      = Cert.ReferenceIdeal.Read.val_main_v29 (F := Ideal) (m ((c.tc : Thread nD τ).loc main_arg1)) :=
  nrm_eq_gen m c

end Cert.Proof.NrmEq

end
-- ==== Proof.PreFacts.lean ====
import proofs.«137339_j11914239279184_1_alg».proof.Pre_finite_inputs
import Idealize.ShloMosaic.Lib.ReduceAll
import Idealize.ShloMosaic.Lib.ValueIdx
import Idealize.ShloMosaic.Lib.StableHlo.Predicate

namespace Cert.PreFacts

open Idealize.ShloMosaic Cert.Pre_finite_inputs

instance subsingleton_scalar_idx : Subsingleton S_.Idx := ⟨fun a b => funext fun d => d.elim0⟩

theorem toNat_lt_of_signed_range (w : BitVec 32) (n : Nat) (hn : n < 2 ^ 31)
    (h0 : IntOp.cmpi .sge w 0#32 = 1#1) (h1 : IntOp.cmpi .slt w (BitVec.ofNat 32 n) = 1#1) : w.toNat < n := by
  rw [IntOp.cmpi_sge, show (0#32 : BitVec 32).toInt = 0 from by decide] at h0
  rw [IntOp.cmpi_slt, StableHlo.Predicate.toInt_ofNat_small n hn] at h1
  have hw : 2 * w.toNat < 2 ^ 32 := BitVec.toInt_pos_iff.mp h0
  rw [StableHlo.Predicate.toInt_eq_toNat_of_lt (by omega)] at h1
  exact_mod_cast h1

theorem edge_in_range {F : FTy → Type} [FloatOps F] [Cert.Pre_finite_inputs.Facts]
    (a0 : FVec F S50000x128 .f32) (ei : IVec S2x800000 32) (a2 : FVec F S128x128 .f32) (a3 : FVec F S128 .f32)
    (a4 : FVec F S128x40 .f32) (a5 : FVec F S40 .f32)
    (h : Cert.Pre_finite_inputs.fn (F := F) a0 ei a2 a3 a4 a5 = fun _ => 1#1) : ∀ i, (ei i).toNat < 50000 := by
  intro i
  have e := congrFun h ValueIdx.ix0
  dsimp only [Cert.Pre_finite_inputs.fn, Cert.Pre_finite_inputs.fn_part1] at e

  obtain ⟨e6, hlt⟩ := IntOp.andi_eq_one.mp e

  obtain ⟨-, hge⟩ := IntOp.andi_eq_one.mp e6
  have hlt' := Host.reduce_andi_all _ _ _ _ _ hlt i
  have hge' := Host.reduce_andi_all _ _ _ _ _ hge i
  exact toNat_lt_of_signed_range (ei i) 50000 (by decide) hge' hlt'

end Cert.PreFacts
-- ==== Proof.Top.lean ====
import proofs.«137339_j11914239279184_1_alg».proof.Defs
import proofs.«137339_j11914239279184_1_alg».proof.Proof.Gen.Pre_finite_inputs
import proofs.«137339_j11914239279184_1_alg».proof.Proof.KI.Launch
import proofs.«137339_j11914239279184_1_alg».proof.Proof.Val.Chain
import proofs.«137339_j11914239279184_1_alg».proof.Proof.Ref.RefVal
import proofs.«137339_j11914239279184_1_alg».proof.Proof.NrmEq
import proofs.«137339_j11914239279184_1_alg».proof.Proof.PreFacts

noncomputable section

namespace Cert.Proof.Top

open Idealize.ShloMosaic Idealize.SL.Sem
open Idealize.ShloMosaic.ValueIdx

theorem frame_ri : Cert.frame_ReferenceIdeal := fun m ρ _ =>
  (θ_run Cert.ReferenceIdeal.defs _ _).mono (fun _ h c => (h c).2) (Cert.ReferenceIdeal.Value.run (F := Ideal) m ρ)

theorem nrm_same (m : (ℓ : Loc Cert.KernelIdeal.nD Cert.KernelIdeal.τ Cert.KernelIdeal.sig) → Buf (Elt Ideal) ℓ)
    (c : Dev Cert.KernelIdeal.nD) :
    Cert.ReferenceIdeal.RefVal.nrmR (m ((c.tc : Thread Cert.KernelIdeal.nD Cert.KernelIdeal.τ).loc Cert.KernelIdeal.main_arg1))
      = Cert.KernelIdeal.Chain.nrmK m c := by
  funext e
  unfold Cert.ReferenceIdeal.RefVal.nrmR Cert.KernelIdeal.Chain.nrmK
  exact (congrFun (Cert.Proof.NrmEq.nrm_eq m c) (ix1 e)).symm

-- Both results are the network of `Cert.Spec` at the same edges, weights and arguments.
theorem algebraic : Cert.algebraic_KernelIdeal_ReferenceIdeal := by
  intro m ρ m' ρ' hpre hagree
  refine ⟨_, Cert.KernelIdeal.Hand.run_val m ρ, ?_⟩
  refine (θ_run Cert.ReferenceIdeal.defs _ _).mono (fun _ h c => ⟨(h c).1.trans ?_, (h c).2⟩)
    (Cert.ReferenceIdeal.Value.run (F := Ideal) m' ρ')

  rw [Cert.ReferenceIdeal.Read.val_main_v64_eq]
  obtain ⟨h0, h1, h2, h3, h4, h5⟩ := hagree c
  rw [h0, h1, h2, h3, h4, h5]

  have hdom := Cert.PreFacts.edge_in_range _ _ _ _ _ _ (hpre c)
  funext j
  obtain ⟨n, f, rfl⟩ : ∃ (n : Fin 50000) (f : Fin 40), j = ix2 n f := ⟨j 0, j 1, eq_ix2 j⟩

  refine (Cert.ReferenceIdeal.RefVal.result_eq _ _ _ _ _ _ hdom n f).trans ?_
  refine Eq.trans ?_ (Cert.KernelIdeal.Chain.result_eq m c hdom n f).symm

  rw [nrm_same m c]
  rfl

end Cert.Proof.Top
-- ==== Proof.lean ====
/-
  A two-layer graph convolution computed by six kernel regions equals its plain reference over the extended
  reals: a one-hot sum picks one term, sums regroup freely, padded edges carry weight 0 and meet no node. The edge list
  is assumed to name nodes (0 ≤ index < 50000).
-/
import proofs.«137339_j11914239279184_1_alg».proof.Defs
import proofs.«137339_j11914239279184_1_alg».proof.Proof.Gen.Kernel
import proofs.«137339_j11914239279184_1_alg».proof.Proof.Gen.KernelIdeal
import proofs.«137339_j11914239279184_1_alg».proof.Proof.Gen.ReferenceIdeal
import proofs.«137339_j11914239279184_1_alg».proof.Proof.Gen.Pre_finite_inputs
import proofs.«137339_j11914239279184_1_alg».proof.Proof.K.Launch
import proofs.«137339_j11914239279184_1_alg».proof.Proof.KI.Launch
import proofs.«137339_j11914239279184_1_alg».proof.Proof.Top

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Hand.frame (F := Bits) m ρ,
    fun m ρ _ => (θ_run Cert.KernelIdeal.defs _ _).mono (fun _ h c => (h c).2) (Cert.KernelIdeal.Hand.run_val (F := Ideal) m ρ),
    Cert.Proof.Top.frame_ri,
    trivial,
    Cert.Proof.Top.algebraic⟩

end Cert.Proof

end
